-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S2048x1024 : Shape := ⟨2, ![2048, 1024]⟩
abbrev S8x512x1024 : Shape := ⟨3, ![8, 512, 1024]⟩
abbrev S16 : Shape := ⟨1, ![16]⟩
abbrev S8 : Shape := ⟨1, ![8]⟩
abbrev S_ : Shape := ⟨0, ![]⟩
abbrev S1 : Shape := ⟨1, ![1]⟩
abbrev S128x1024 : Shape := ⟨2, ![128, 1024]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S8x512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v18 : BitVec 32 := Scalar.addi v17 c0_i32_12
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_13 v2
  let c1024_i32 : BitVec 32 := 1024#32
  let v20 : BitVec 32 := Scalar.muli v19 c1024_i32
  ![v18.toNat, v20.toNat]
def k0_dev3 (d0 : Dev nD) : Nat :=
  let c0_i32_102 : BitVec 32 := 0#32
  let c1_i32_98 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v149 : BitVec 32 := Scalar.subi c1_i32_98 v2
  let c2_i32_101 : BitVec 32 := 2#32
  let v150 : BitVec 32 := Scalar.muli v149 c2_i32_101
  let v151 : BitVec 32 := Scalar.addi c0_i32_102 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v152 : BitVec 32 := Scalar.muli v5 c1_i32_103
  let v153 : BitVec 32 := Scalar.addi v151 v152
  v153.toNat
def k0_dev4 (d0 : Dev nD) : Nat :=
  let c0_i32_115 : BitVec 32 := 0#32
  let c1_i32_111 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v164 : BitVec 32 := Scalar.subi c1_i32_111 v2
  let c2_i32_114 : BitVec 32 := 2#32
  let v165 : BitVec 32 := Scalar.muli v164 c2_i32_114
  let v166 : BitVec 32 := Scalar.addi c0_i32_115 v165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v167 : BitVec 32 := Scalar.muli v5 c1_i32_116
  let v168 : BitVec 32 := Scalar.addi v166 v167
  v168.toNat
def k0_dev5 (d0 : Dev nD) : Nat :=
  let c0_i32_128 : BitVec 32 := 0#32
  let c1_i32_124 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v179 : BitVec 32 := Scalar.subi c1_i32_124 v2
  let c2_i32_127 : BitVec 32 := 2#32
  let v180 : BitVec 32 := Scalar.muli v179 c2_i32_127
  let v181 : BitVec 32 := Scalar.addi c0_i32_128 v180
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v182 : BitVec 32 := Scalar.muli v5 c1_i32_129
  let v183 : BitVec 32 := Scalar.addi v181 v182
  v183.toNat
def k0_dev6 (d0 : Dev nD) : Nat :=
  let c0_i32_141 : BitVec 32 := 0#32
  let c1_i32_137 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v194 : BitVec 32 := Scalar.subi c1_i32_137 v2
  let c2_i32_140 : BitVec 32 := 2#32
  let v195 : BitVec 32 := Scalar.muli v194 c2_i32_140
  let v196 : BitVec 32 := Scalar.addi c0_i32_141 v195
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v197 : BitVec 32 := Scalar.muli v5 c1_i32_142
  let v198 : BitVec 32 := Scalar.addi v196 v197
  v198.toNat
def k0_dev7 (d0 : Dev nD) : Nat :=
  let c0_i32_154 : BitVec 32 := 0#32
  let c1_i32_150 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v209 : BitVec 32 := Scalar.subi c1_i32_150 v2
  let c2_i32_153 : BitVec 32 := 2#32
  let v210 : BitVec 32 := Scalar.muli v209 c2_i32_153
  let v211 : BitVec 32 := Scalar.addi c0_i32_154 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v212 : BitVec 32 := Scalar.muli v5 c1_i32_155
  let v213 : BitVec 32 := Scalar.addi v211 v212
  v213.toNat
def k0_dev8 (d0 : Dev nD) : Nat :=
  let c0_i32_167 : BitVec 32 := 0#32
  let c1_i32_163 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v224 : BitVec 32 := Scalar.subi c1_i32_163 v2
  let c2_i32_166 : BitVec 32 := 2#32
  let v225 : BitVec 32 := Scalar.muli v224 c2_i32_166
  let v226 : BitVec 32 := Scalar.addi c0_i32_167 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v227 : BitVec 32 := Scalar.muli v5 c1_i32_168
  let v228 : BitVec 32 := Scalar.addi v226 v227
  v228.toNat
def k0_dev9 (d0 : Dev nD) : Nat :=
  let c0_i32_180 : BitVec 32 := 0#32
  let c1_i32_176 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v239 : BitVec 32 := Scalar.subi c1_i32_176 v2
  let c2_i32_179 : BitVec 32 := 2#32
  let v240 : BitVec 32 := Scalar.muli v239 c2_i32_179
  let v241 : BitVec 32 := Scalar.addi c0_i32_180 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v242 : BitVec 32 := Scalar.muli v5 c1_i32_181
  let v243 : BitVec 32 := Scalar.addi v241 v242
  v243.toNat
def k0_dev10 (d0 : Dev nD) : Nat :=
  let c0_i32_193 : BitVec 32 := 0#32
  let c1_i32_189 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v254 : BitVec 32 := Scalar.subi c1_i32_189 v2
  let c2_i32_192 : BitVec 32 := 2#32
  let v255 : BitVec 32 := Scalar.muli v254 c2_i32_192
  let v256 : BitVec 32 := Scalar.addi c0_i32_193 v255
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v257 : BitVec 32 := Scalar.muli v5 c1_i32_194
  let v258 : BitVec 32 := Scalar.addi v256 v257
  v258.toNat
def k0_dev11 (d0 : Dev nD) : Nat :=
  let c0_i32_206 : BitVec 32 := 0#32
  let c1_i32_202 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v269 : BitVec 32 := Scalar.subi c1_i32_202 v2
  let c2_i32_205 : BitVec 32 := 2#32
  let v270 : BitVec 32 := Scalar.muli v269 c2_i32_205
  let v271 : BitVec 32 := Scalar.addi c0_i32_206 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_207 : BitVec 32 := 1#32
  let v272 : BitVec 32 := Scalar.muli v5 c1_i32_207
  let v273 : BitVec 32 := Scalar.addi v271 v272
  v273.toNat
def k0_dev12 (d0 : Dev nD) : Nat :=
  let c0_i32_219 : BitVec 32 := 0#32
  let c1_i32_215 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v284 : BitVec 32 := Scalar.subi c1_i32_215 v2
  let c2_i32_218 : BitVec 32 := 2#32
  let v285 : BitVec 32 := Scalar.muli v284 c2_i32_218
  let v286 : BitVec 32 := Scalar.addi c0_i32_219 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v287 : BitVec 32 := Scalar.muli v5 c1_i32_220
  let v288 : BitVec 32 := Scalar.addi v286 v287
  v288.toNat
def k0_dev13 (d0 : Dev nD) : Nat :=
  let c0_i32_232 : BitVec 32 := 0#32
  let c1_i32_228 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v299 : BitVec 32 := Scalar.subi c1_i32_228 v2
  let c2_i32_231 : BitVec 32 := 2#32
  let v300 : BitVec 32 := Scalar.muli v299 c2_i32_231
  let v301 : BitVec 32 := Scalar.addi c0_i32_232 v300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_233 : BitVec 32 := 1#32
  let v302 : BitVec 32 := Scalar.muli v5 c1_i32_233
  let v303 : BitVec 32 := Scalar.addi v301 v302
  v303.toNat
def k0_dev14 (d0 : Dev nD) : Nat :=
  let c0_i32_245 : BitVec 32 := 0#32
  let c1_i32_241 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v314 : BitVec 32 := Scalar.subi c1_i32_241 v2
  let c2_i32_244 : BitVec 32 := 2#32
  let v315 : BitVec 32 := Scalar.muli v314 c2_i32_244
  let v316 : BitVec 32 := Scalar.addi c0_i32_245 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v317 : BitVec 32 := Scalar.muli v5 c1_i32_246
  let v318 : BitVec 32 := Scalar.addi v316 v317
  v318.toNat
def k0_dev15 (d0 : Dev nD) : Nat :=
  let c0_i32_258 : BitVec 32 := 0#32
  let c1_i32_254 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v329 : BitVec 32 := Scalar.subi c1_i32_254 v2
  let c2_i32_257 : BitVec 32 := 2#32
  let v330 : BitVec 32 := Scalar.muli v329 c2_i32_257
  let v331 : BitVec 32 := Scalar.addi c0_i32_258 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v332 : BitVec 32 := Scalar.muli v5 c1_i32_259
  let v333 : BitVec 32 := Scalar.addi v331 v332
  v333.toNat
def k0_dev16 (d0 : Dev nD) : Nat :=
  let c0_i32_271 : BitVec 32 := 0#32
  let c1_i32_267 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v344 : BitVec 32 := Scalar.subi c1_i32_267 v2
  let c2_i32_270 : BitVec 32 := 2#32
  let v345 : BitVec 32 := Scalar.muli v344 c2_i32_270
  let v346 : BitVec 32 := Scalar.addi c0_i32_271 v345
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v347 : BitVec 32 := Scalar.muli v5 c1_i32_272
  let v348 : BitVec 32 := Scalar.addi v346 v347
  v348.toNat
def k0_dev17 (d0 : Dev nD) : Nat :=
  let c0_i32_284 : BitVec 32 := 0#32
  let c1_i32_280 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v359 : BitVec 32 := Scalar.subi c1_i32_280 v2
  let c2_i32_283 : BitVec 32 := 2#32
  let v360 : BitVec 32 := Scalar.muli v359 c2_i32_283
  let v361 : BitVec 32 := Scalar.addi c0_i32_284 v360
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_285 : BitVec 32 := 1#32
  let v362 : BitVec 32 := Scalar.muli v5 c1_i32_285
  let v363 : BitVec 32 := Scalar.addi v361 v362
  v363.toNat
def k0_dev18 (d0 : Dev nD) : Nat :=
  let c0_i32_297 : BitVec 32 := 0#32
  let c1_i32_293 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v374 : BitVec 32 := Scalar.subi c1_i32_293 v2
  let c2_i32_296 : BitVec 32 := 2#32
  let v375 : BitVec 32 := Scalar.muli v374 c2_i32_296
  let v376 : BitVec 32 := Scalar.addi c0_i32_297 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v377 : BitVec 32 := Scalar.muli v5 c1_i32_298
  let v378 : BitVec 32 := Scalar.addi v376 v377
  v378.toNat
def k0_off2 (d0 : Dev nD) : Fin 2 → Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_303 : BitVec 32 := 1024#32
  let v385 : BitVec 32 := Scalar.muli v2 c1024_i32_303
  ![0, v385.toNat]
def k0_off3 (d0 : Dev nD) : Fin 2 → Nat :=
  let c512_i32_314 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_309 : BitVec 32 := 1024#32
  let v391 : BitVec 32 := Scalar.muli v2 c1024_i32_309
  ![512, v391.toNat]
def k0_off4 (d0 : Dev nD) : Fin 2 → Nat :=
  let c1024_i32_320 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_315 : BitVec 32 := 1024#32
  let v397 : BitVec 32 := Scalar.muli v2 c1024_i32_315
  ![1024, v397.toNat]
def k0_off5 (d0 : Dev nD) : Fin 2 → Nat :=
  let c1536_i32_326 : BitVec 32 := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_321 : BitVec 32 := 1024#32
  let v403 : BitVec 32 := Scalar.muli v2 c1024_i32_321
  ![1536, v403.toNat]
def k0_off6 (d0 : Dev nD) : Fin 2 → Nat :=
  let c2048_i32_332 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_327 : BitVec 32 := 1024#32
  let v409 : BitVec 32 := Scalar.muli v2 c1024_i32_327
  ![2048, v409.toNat]
def k0_off7 (d0 : Dev nD) : Fin 2 → Nat :=
  let c2560_i32 : BitVec 32 := 2560#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_333 : BitVec 32 := 1024#32
  let v415 : BitVec 32 := Scalar.muli v2 c1024_i32_333
  ![2560, v415.toNat]
def k0_off8 (d0 : Dev nD) : Fin 2 → Nat :=
  let c3072_i32 : BitVec 32 := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_338 : BitVec 32 := 1024#32
  let v421 : BitVec 32 := Scalar.muli v2 c1024_i32_338
  ![3072, v421.toNat]
def k0_off9 (d0 : Dev nD) : Fin 2 → Nat :=
  let c3584_i32 : BitVec 32 := 3584#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_343 : BitVec 32 := 1024#32
  let v427 : BitVec 32 := Scalar.muli v2 c1024_i32_343
  ![3584, v427.toNat]
def k0_dev19 (d0 : Dev nD) : Nat :=
  let c0_i32_361 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_360 : BitVec 32 := 2#32
  let v442 : BitVec 32 := Scalar.muli v2 c2_i32_360
  let v443 : BitVec 32 := Scalar.addi c0_i32_361 v442
  let c1_i32_357 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v441 : BitVec 32 := Scalar.subi c1_i32_357 v5
  let c1_i32_362 : BitVec 32 := 1#32
  let v444 : BitVec 32 := Scalar.muli v441 c1_i32_362
  let v445 : BitVec 32 := Scalar.addi v443 v444
  v445.toNat
def k0_off10 (d0 : Dev nD) (c0_i32_369 : BitVec 32) : Fin 2 → Nat :=
  let c1_i32_367 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v452 : BitVec 32 := Scalar.subi c1_i32_367 v2
  let c4096_i32 : BitVec 32 := 4096#32
  let v453 : BitVec 32 := Scalar.muli v452 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_368 : BitVec 32 := 2048#32
  let v454 : BitVec 32 := Scalar.muli v5 c2048_i32_368
  let v455 : BitVec 32 := Scalar.addi v453 v454
  let v456 : BitVec 32 := Scalar.addi v455 c0_i32_369
  let c0_i32_371 : BitVec 32 := 0#32
  ![v456.toNat, 0]
def k0_off11 (d0 : Dev nD) (c0_i32_380 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_379 : BitVec 32 := 4096#32
  let v466 : BitVec 32 := Scalar.muli v2 c4096_i32_379
  let v467 : BitVec 32 := Scalar.addi v466 c0_i32_380
  let c0_i32_383 : BitVec 32 := 0#32
  ![v467.toNat, 0]
def k0_dev20 (d0 : Dev nD) : Nat :=
  let c0_i32_399 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_398 : BitVec 32 := 2#32
  let v482 : BitVec 32 := Scalar.muli v2 c2_i32_398
  let v483 : BitVec 32 := Scalar.addi c0_i32_399 v482
  let c1_i32_395 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v481 : BitVec 32 := Scalar.subi c1_i32_395 v5
  let c1_i32_400 : BitVec 32 := 1#32
  let v484 : BitVec 32 := Scalar.muli v481 c1_i32_400
  let v485 : BitVec 32 := Scalar.addi v483 v484
  v485.toNat
def k0_dev21 (d0 : Dev nD) : Nat :=
  let c0_i32_438 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_437 : BitVec 32 := 2#32
  let v522 : BitVec 32 := Scalar.muli v2 c2_i32_437
  let v523 : BitVec 32 := Scalar.addi c0_i32_438 v522
  let c1_i32_434 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v521 : BitVec 32 := Scalar.subi c1_i32_434 v5
  let c1_i32_439 : BitVec 32 := 1#32
  let v524 : BitVec 32 := Scalar.muli v521 c1_i32_439
  let v525 : BitVec 32 := Scalar.addi v523 v524
  v525.toNat
def k0_dev22 (d0 : Dev nD) : Nat :=
  let c0_i32_477 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_476 : BitVec 32 := 2#32
  let v562 : BitVec 32 := Scalar.muli v2 c2_i32_476
  let v563 : BitVec 32 := Scalar.addi c0_i32_477 v562
  let c1_i32_473 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v561 : BitVec 32 := Scalar.subi c1_i32_473 v5
  let c1_i32_478 : BitVec 32 := 1#32
  let v564 : BitVec 32 := Scalar.muli v561 c1_i32_478
  let v565 : BitVec 32 := Scalar.addi v563 v564
  v565.toNat
def k0_dev23 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v602 : BitVec 32 := Scalar.muli v2 c2_i32_515
  let v603 : BitVec 32 := Scalar.addi c0_i32_516 v602
  let c1_i32_512 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v601 : BitVec 32 := Scalar.subi c1_i32_512 v5
  let c1_i32_517 : BitVec 32 := 1#32
  let v604 : BitVec 32 := Scalar.muli v601 c1_i32_517
  let v605 : BitVec 32 := Scalar.addi v603 v604
  v605.toNat
def k0_dev24 (d0 : Dev nD) : Nat :=
  let c0_i32_555 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_554 : BitVec 32 := 2#32
  let v642 : BitVec 32 := Scalar.muli v2 c2_i32_554
  let v643 : BitVec 32 := Scalar.addi c0_i32_555 v642
  let c1_i32_551 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v641 : BitVec 32 := Scalar.subi c1_i32_551 v5
  let c1_i32_556 : BitVec 32 := 1#32
  let v644 : BitVec 32 := Scalar.muli v641 c1_i32_556
  let v645 : BitVec 32 := Scalar.addi v643 v644
  v645.toNat
def k0_dev25 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v682 : BitVec 32 := Scalar.muli v2 c2_i32_593
  let v683 : BitVec 32 := Scalar.addi c0_i32_594 v682
  let c1_i32_590 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v681 : BitVec 32 := Scalar.subi c1_i32_590 v5
  let c1_i32_595 : BitVec 32 := 1#32
  let v684 : BitVec 32 := Scalar.muli v681 c1_i32_595
  let v685 : BitVec 32 := Scalar.addi v683 v684
  v685.toNat
def k0_dev26 (d0 : Dev nD) : Nat :=
  let c0_i32_633 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_632 : BitVec 32 := 2#32
  let v722 : BitVec 32 := Scalar.muli v2 c2_i32_632
  let v723 : BitVec 32 := Scalar.addi c0_i32_633 v722
  let c1_i32_629 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v721 : BitVec 32 := Scalar.subi c1_i32_629 v5
  let c1_i32_634 : BitVec 32 := 1#32
  let v724 : BitVec 32 := Scalar.muli v721 c1_i32_634
  let v725 : BitVec 32 := Scalar.addi v723 v724
  v725.toNat
def k0_dev27 (d0 : Dev nD) : Nat :=
  let c0_i32_672 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_671 : BitVec 32 := 2#32
  let v762 : BitVec 32 := Scalar.muli v2 c2_i32_671
  let v763 : BitVec 32 := Scalar.addi c0_i32_672 v762
  let c1_i32_668 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v761 : BitVec 32 := Scalar.subi c1_i32_668 v5
  let c1_i32_673 : BitVec 32 := 1#32
  let v764 : BitVec 32 := Scalar.muli v761 c1_i32_673
  let v765 : BitVec 32 := Scalar.addi v763 v764
  v765.toNat
def k0_dev28 (d0 : Dev nD) : Nat :=
  let c0_i32_699 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_698 : BitVec 32 := 2#32
  let v790 : BitVec 32 := Scalar.muli v2 c2_i32_698
  let v791 : BitVec 32 := Scalar.addi c0_i32_699 v790
  let c1_i32_695 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v789 : BitVec 32 := Scalar.subi c1_i32_695 v5
  let c1_i32_700 : BitVec 32 := 1#32
  let v792 : BitVec 32 := Scalar.muli v789 c1_i32_700
  let v793 : BitVec 32 := Scalar.addi v791 v792
  v793.toNat
def k0_dev29 (d0 : Dev nD) : Nat :=
  let c0_i32_726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_725 : BitVec 32 := 2#32
  let v818 : BitVec 32 := Scalar.muli v2 c2_i32_725
  let v819 : BitVec 32 := Scalar.addi c0_i32_726 v818
  let c1_i32_722 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v817 : BitVec 32 := Scalar.subi c1_i32_722 v5
  let c1_i32_727 : BitVec 32 := 1#32
  let v820 : BitVec 32 := Scalar.muli v817 c1_i32_727
  let v821 : BitVec 32 := Scalar.addi v819 v820
  v821.toNat
def k0_dev30 (d0 : Dev nD) : Nat :=
  let c0_i32_753 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_752 : BitVec 32 := 2#32
  let v846 : BitVec 32 := Scalar.muli v2 c2_i32_752
  let v847 : BitVec 32 := Scalar.addi c0_i32_753 v846
  let c1_i32_749 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v845 : BitVec 32 := Scalar.subi c1_i32_749 v5
  let c1_i32_754 : BitVec 32 := 1#32
  let v848 : BitVec 32 := Scalar.muli v845 c1_i32_754
  let v849 : BitVec 32 := Scalar.addi v847 v848
  v849.toNat
def k0_dev31 (d0 : Dev nD) : Nat :=
  let c0_i32_780 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_779 : BitVec 32 := 2#32
  let v874 : BitVec 32 := Scalar.muli v2 c2_i32_779
  let v875 : BitVec 32 := Scalar.addi c0_i32_780 v874
  let c1_i32_776 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v873 : BitVec 32 := Scalar.subi c1_i32_776 v5
  let c1_i32_781 : BitVec 32 := 1#32
  let v876 : BitVec 32 := Scalar.muli v873 c1_i32_781
  let v877 : BitVec 32 := Scalar.addi v875 v876
  v877.toNat
def k0_dev32 (d0 : Dev nD) : Nat :=
  let c0_i32_807 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_806 : BitVec 32 := 2#32
  let v902 : BitVec 32 := Scalar.muli v2 c2_i32_806
  let v903 : BitVec 32 := Scalar.addi c0_i32_807 v902
  let c1_i32_803 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v901 : BitVec 32 := Scalar.subi c1_i32_803 v5
  let c1_i32_808 : BitVec 32 := 1#32
  let v904 : BitVec 32 := Scalar.muli v901 c1_i32_808
  let v905 : BitVec 32 := Scalar.addi v903 v904
  v905.toNat
def k0_dev33 (d0 : Dev nD) : Nat :=
  let c0_i32_834 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_833 : BitVec 32 := 2#32
  let v930 : BitVec 32 := Scalar.muli v2 c2_i32_833
  let v931 : BitVec 32 := Scalar.addi c0_i32_834 v930
  let c1_i32_830 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v929 : BitVec 32 := Scalar.subi c1_i32_830 v5
  let c1_i32_835 : BitVec 32 := 1#32
  let v932 : BitVec 32 := Scalar.muli v929 c1_i32_835
  let v933 : BitVec 32 := Scalar.addi v931 v932
  v933.toNat
def k0_dev34 (d0 : Dev nD) : Nat :=
  let c0_i32_861 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_860 : BitVec 32 := 2#32
  let v958 : BitVec 32 := Scalar.muli v2 c2_i32_860
  let v959 : BitVec 32 := Scalar.addi c0_i32_861 v958
  let c1_i32_857 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v957 : BitVec 32 := Scalar.subi c1_i32_857 v5
  let c1_i32_862 : BitVec 32 := 1#32
  let v960 : BitVec 32 := Scalar.muli v957 c1_i32_862
  let v961 : BitVec 32 := Scalar.addi v959 v960
  v961.toNat
def k0_off12 (d0 : Dev nD) (c0_i32_888 : BitVec 32) : Fin 2 → Nat :=
  let c1_i32_884 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v985 : BitVec 32 := Scalar.subi c1_i32_884 v2
  let c4096_i32_885 : BitVec 32 := 4096#32
  let v986 : BitVec 32 := Scalar.muli v985 c4096_i32_885
  let c1_i32_886 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v987 : BitVec 32 := Scalar.subi c1_i32_886 v5
  let c2048_i32_887 : BitVec 32 := 2048#32
  let v988 : BitVec 32 := Scalar.muli v987 c2048_i32_887
  let v989 : BitVec 32 := Scalar.addi v986 v988
  let v990 : BitVec 32 := Scalar.addi v989 c0_i32_888
  let c0_i32_890 : BitVec 32 := 0#32
  ![v990.toNat, 0]

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S2048x1024_S128x1024_0_0 : ∀ a, (![0, 0] : Fin 2 → Nat) a + S128x1024.size a ≤ S2048x1024.size a
  inb_S16_S1_1 : ∀ a, (![1] : Fin 1 → Nat) a + S1.size a ≤ S16.size a
  inb_S2048x1024_S128x1024_128_0 : ∀ a, (![128, 0] : Fin 2 → Nat) a + S128x1024.size a ≤ S2048x1024.size a
  inb_S16_S1_2 : ∀ a, (![2] : Fin 1 → Nat) a + S1.size a ≤ S16.size a
  inb_S2048x1024_S128x1024_256_0 : ∀ a, (![256, 0] : Fin 2 → Nat) a + S128x1024.size a ≤ S2048x1024.size a
  inb_S16_S1_3 : ∀ a, (![3] : Fin 1 → Nat) a + S1.size a ≤ S16.size a
  inb_S2048x1024_S128x1024_384_0 : ∀ a, (![384, 0] : Fin 2 → Nat) a + S128x1024.size a ≤ S2048x1024.size a
  inb_S16_S1_4 : ∀ a, (![4] : Fin 1 → Nat) a + S1.size a ≤ S16.size a
  inb_S2048x1024_S128x1024_512_0 : ∀ a, (![512, 0] : Fin 2 → Nat) a + S128x1024.size a ≤ S2048x1024.size a
  inb_S16_S1_5 : ∀ a, (![5] : Fin 1 → Nat) a + S1.size a ≤ S16.size a
  inb_S2048x1024_S128x1024_640_0 : ∀ a, (![640, 0] : Fin 2 → Nat) a + S128x1024.size a ≤ S2048x1024.size a
  inb_S16_S1_6 : ∀ a, (![6] : Fin 1 → Nat) a + S1.size a ≤ S16.size a
  inb_S2048x1024_S128x1024_768_0 : ∀ a, (![768, 0] : Fin 2 → Nat) a + S128x1024.size a ≤ S2048x1024.size a
  inb_S16_S1_7 : ∀ a, (![7] : Fin 1 → Nat) a + S1.size a ≤ S16.size a
  inb_S2048x1024_S128x1024_896_0 : ∀ a, (![896, 0] : Fin 2 → Nat) a + S128x1024.size a ≤ S2048x1024.size a
  inb_S16_S1_8 : ∀ a, (![8] : Fin 1 → Nat) a + S1.size a ≤ S16.size a
  inb_S2048x1024_S128x1024_1024_0 : ∀ a, (![1024, 0] : Fin 2 → Nat) a + S128x1024.size a ≤ S2048x1024.size a
  inb_S16_S1_9 : ∀ a, (![9] : Fin 1 → Nat) a + S1.size a ≤ S16.size a
  inb_S2048x1024_S128x1024_1152_0 : ∀ a, (![1152, 0] : Fin 2 → Nat) a + S128x1024.size a ≤ S2048x1024.size a
  inb_S16_S1_10 : ∀ a, (![10] : Fin 1 → Nat) a + S1.size a ≤ S16.size a
  inb_S2048x1024_S128x1024_1280_0 : ∀ a, (![1280, 0] : Fin 2 → Nat) a + S128x1024.size a ≤ S2048x1024.size a
  inb_S16_S1_11 : ∀ a, (![11] : Fin 1 → Nat) a + S1.size a ≤ S16.size a
  inb_S2048x1024_S128x1024_1408_0 : ∀ a, (![1408, 0] : Fin 2 → Nat) a + S128x1024.size a ≤ S2048x1024.size a
  inb_S16_S1_12 : ∀ a, (![12] : Fin 1 → Nat) a + S1.size a ≤ S16.size a
  inb_S2048x1024_S128x1024_1536_0 : ∀ a, (![1536, 0] : Fin 2 → Nat) a + S128x1024.size a ≤ S2048x1024.size a
  inb_S16_S1_13 : ∀ a, (![13] : Fin 1 → Nat) a + S1.size a ≤ S16.size a
  inb_S2048x1024_S128x1024_1664_0 : ∀ a, (![1664, 0] : Fin 2 → Nat) a + S128x1024.size a ≤ S2048x1024.size a
  inb_S16_S1_14 : ∀ a, (![14] : Fin 1 → Nat) a + S1.size a ≤ S16.size a
  inb_S2048x1024_S128x1024_1792_0 : ∀ a, (![1792, 0] : Fin 2 → Nat) a + S128x1024.size a ≤ S2048x1024.size a
  inb_S16_S1_15 : ∀ a, (![15] : Fin 1 → Nat) a + S1.size a ≤ S16.size a
  inb_S2048x1024_S128x1024_1920_0 : ∀ a, (![1920, 0] : Fin 2 → Nat) a + S128x1024.size a ≤ S2048x1024.size a
  inb_S8_S1_0 : ∀ a, (![0] : Fin 1 → Nat) a + S1.size a ≤ S8.size a
  inb_S8x512x1024_S1x512x1024_0_0_0 : ∀ a, (![0, 0, 0] : Fin 3 → Nat) a + S1x512x1024.size a ≤ S8x512x1024.size a
  squeezes_S1x512x1024_S512x1024 : S1x512x1024.Squeezes S512x1024
  inb_S8_S1_1 : ∀ a, (![1] : Fin 1 → Nat) a + S1.size a ≤ S8.size a
  inb_S8x512x1024_S1x512x1024_1_0_0 : ∀ a, (![1, 0, 0] : Fin 3 → Nat) a + S1x512x1024.size a ≤ S8x512x1024.size a
  inb_S8_S1_2 : ∀ a, (![2] : Fin 1 → Nat) a + S1.size a ≤ S8.size a
  inb_S8x512x1024_S1x512x1024_2_0_0 : ∀ a, (![2, 0, 0] : Fin 3 → Nat) a + S1x512x1024.size a ≤ S8x512x1024.size a
  inb_S8_S1_3 : ∀ a, (![3] : Fin 1 → Nat) a + S1.size a ≤ S8.size a
  inb_S8x512x1024_S1x512x1024_3_0_0 : ∀ a, (![3, 0, 0] : Fin 3 → Nat) a + S1x512x1024.size a ≤ S8x512x1024.size a
  inb_S8_S1_4 : ∀ a, (![4] : Fin 1 → Nat) a + S1.size a ≤ S8.size a
  inb_S8x512x1024_S1x512x1024_4_0_0 : ∀ a, (![4, 0, 0] : Fin 3 → Nat) a + S1x512x1024.size a ≤ S8x512x1024.size a
  inb_S8_S1_5 : ∀ a, (![5] : Fin 1 → Nat) a + S1.size a ≤ S8.size a
  inb_S8x512x1024_S1x512x1024_5_0_0 : ∀ a, (![5, 0, 0] : Fin 3 → Nat) a + S1x512x1024.size a ≤ S8x512x1024.size a
  inb_S8_S1_6 : ∀ a, (![6] : Fin 1 → Nat) a + S1.size a ≤ S8.size a
  inb_S8x512x1024_S1x512x1024_6_0_0 : ∀ a, (![6, 0, 0] : Fin 3 → Nat) a + S1x512x1024.size a ≤ S8x512x1024.size a
  inb_S8_S1_7 : ∀ a, (![7] : Fin 1 → Nat) a + S1.size a ≤ S8.size a
  inb_S8x512x1024_S1x512x1024_7_0_0 : ∀ a, (![7, 0, 0] : Fin 3 → Nat) a + S1x512x1024.size a ≤ S8x512x1024.size a
  hcc0_scratch4 : 0 + S16.numel ≤ 128
  hcc0_scratch5 : 16 + S16.numel ≤ 128
  hcc0_scratch6 : 32 + S16.numel ≤ 128
  hcc0_scratch7 : 48 + S16.numel ≤ 128
  hcc0_scratch8 : 64 + S16.numel ≤ 128
  hcc0_scratch9 : 80 + S16.numel ≤ 128
  hcc0_scratch10 : 96 + S16.numel ≤ 128
  hcc0_scratch11 : 112 + S8.numel ≤ 128
  hcc0_scratch12 : 120 + S8.numel ≤ 128
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (128 * r.val))) a + S128x1024.size a ≤ S4096x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ a, (k0_off2 d0) a + S512x1024.size a ≤ S4096x2048.size a
  k0_off3_inb : ∀ d0 : Dev nD, ∀ a, (k0_off3 d0) a + S512x1024.size a ≤ S4096x2048.size a
  k0_off4_inb : ∀ d0 : Dev nD, ∀ a, (k0_off4 d0) a + S512x1024.size a ≤ S4096x2048.size a
  k0_off5_inb : ∀ d0 : Dev nD, ∀ a, (k0_off5 d0) a + S512x1024.size a ≤ S4096x2048.size a
  k0_off6_inb : ∀ d0 : Dev nD, ∀ a, (k0_off6 d0) a + S512x1024.size a ≤ S4096x2048.size a
  k0_off7_inb : ∀ d0 : Dev nD, ∀ a, (k0_off7 d0) a + S512x1024.size a ≤ S4096x2048.size a
  k0_off8_inb : ∀ d0 : Dev nD, ∀ a, (k0_off8 d0) a + S512x1024.size a ≤ S4096x2048.size a
  k0_off9_inb : ∀ d0 : Dev nD, ∀ a, (k0_off9 d0) a + S512x1024.size a ≤ S4096x2048.size a
  k0_dev19_lt : ∀ d0 : Dev nD, (k0_dev19 d0) < nD
  k0_off10_inb : ∀ d0 : Dev nD, ∀ (r : Fin 16), ∀ a, (k0_off10 d0 (BitVec.ofNat 32 (128 * r.val))) a + S128x1024.size a ≤ S8192x1024.size a
  k0_off11_inb : ∀ d0 : Dev nD, ∀ (r : Fin 8), ∀ a, (k0_off11 d0 (BitVec.ofNat 32 (512 * r.val))) a + S512x1024.size a ≤ S8192x1024.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off12_inb : ∀ d0 : Dev nD, ∀ (r : Fin 16), ∀ a, (k0_off12 d0 (BitVec.ofNat 32 (128 * r.val))) a + S128x1024.size a ≤ S8192x1024.size a

variable [Facts₀]

abbrev cc0_scratch4 : DmaSems sig S16 := SemArray.consecutive 0 S16 hcc0_scratch4
abbrev cc0_scratch5 : DmaSems sig S16 := SemArray.consecutive 16 S16 hcc0_scratch5
abbrev cc0_scratch6 : DmaSems sig S16 := SemArray.consecutive 32 S16 hcc0_scratch6
abbrev cc0_scratch7 : DmaSems sig S16 := SemArray.consecutive 48 S16 hcc0_scratch7
abbrev cc0_scratch8 : DmaSems sig S16 := SemArray.consecutive 64 S16 hcc0_scratch8
abbrev cc0_scratch9 : DmaSems sig S16 := SemArray.consecutive 80 S16 hcc0_scratch9
abbrev cc0_scratch10 : DmaSems sig S16 := SemArray.consecutive 96 S16 hcc0_scratch10
abbrev cc0_scratch11 : DmaSems sig S8 := SemArray.consecutive 112 S8 hcc0_scratch11
abbrev cc0_scratch12 : DmaSems sig S8 := SemArray.consecutive 120 S8 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Spec.lean ====
import Idealize.ShloMosaic.Shape
import Idealize.ShloMosaic.Lib.Layout

namespace Cert.A2ASpec

open Idealize.ShloMosaic

/-- Device `c` sits at `(c / 2, c % 2)` on the 2×2 mesh; `px` is its neighbour along the first axis, -/
def px (c : Fin 4) : Fin 4 := ⟨(c.val % 2 + 2) - 2 * (c.val / 2), by have := c.isLt; omega⟩

/-- `py` its neighbour along the second. -/
def py (c : Fin 4) : Fin 4 := ⟨(2 * (c.val / 2) + 1) - c.val % 2, by have := c.isLt; omega⟩

theorem px_px (c : Fin 4) : px (px c) = c := by revert c; decide
theorem py_py (c : Fin 4) : py (py c) = c := by revert c; decide
theorem px_py (c : Fin 4) : px (py c) = py (px c) := by revert c; decide
theorem px_ne (c : Fin 4) : px c ≠ c := by revert c; decide
theorem py_ne (c : Fin 4) : py c ≠ c := by revert c; decide
theorem px_ne_py (c : Fin 4) : px c ≠ py c := by revert c; decide

abbrev XS : Shape := ⟨2, ![4096, 2048]⟩
abbrev OS : Shape := ⟨2, ![8192, 1024]⟩
abbrev VS : Shape := ⟨2, ![2048, 1024]⟩
abbrev TS : Shape := ⟨3, ![8, 512, 1024]⟩
abbrev WS : Shape := ⟨2, ![8192, 2048]⟩

variable {α : Type}

/-- What device `c` sends on the first hop: of its argument block, the half of the rows its second coordinate names and the
    half of the columns its first-axis neighbour keeps. -/
def sendF (xs : Fin 4 → XS.Idx → α) (c : Fin 4) : VS.Idx → α := fun i =>
  xs c (Shape.pair (d := ![4096, 2048]) ⟨2048 * (c.val % 2) + (i 0).val, by have h0 : (i 0).val < 2048 := (i 0).isLt; have hc := c.isLt; show _ < 4096; omega⟩
    ⟨(1024 - 1024 * (c.val / 2)) + (i 1).val, by have h1 : (i 1).val < 1024 := (i 1).isLt; have hc := c.isLt; show _ < 2048; omega⟩)

/-- What the first hop lands on `c`, and what the second hop lands on it: the neighbour's send, forwarded once more. -/
def recv1F (xs : Fin 4 → XS.Idx → α) (c : Fin 4) : VS.Idx → α := sendF xs (px c)

def recv2F (xs : Fin 4 → XS.Idx → α) (c : Fin 4) : VS.Idx → α := recv1F xs (py c)

/-- The part of its own block a device keeps: every row, its own half of the columns, in eight slabs of 512 rows. -/
def stageF (xs : Fin 4 → XS.Idx → α) (c : Fin 4) : TS.Idx → α := fun i =>
  xs c (Shape.pair (d := ![4096, 2048]) ⟨512 * (i 0).val + (i 1).val, by have h0 : (i 0).val < 8 := (i 0).isLt; have h1 : (i 1).val < 512 := (i 1).isLt; show _ < 4096; omega⟩
    ⟨1024 * (c.val / 2) + (i 2).val, by have h2 : (i 2).val < 1024 := (i 2).isLt; have hc := c.isLt; show _ < 2048; omega⟩)

/-- The device a row of `c`'s result comes from: `c` itself, its first-axis neighbour, or the device diagonal to it. -/
def srcDev (c : Fin 4) (i : OS.Idx) : Fin 4 :=
  if (i 0).val / 4096 = c.val / 2 then c
  else if ((i 0).val % 4096) / 2048 = c.val % 2 then px c else px (py c)

/-- Device `c`'s result: row `r`, column `j` is row `r % 4096`, column `1024 · (c / 2) + j` of that device's argument block. -/
def outF (xs : Fin 4 → XS.Idx → α) (c : Fin 4) : OS.Idx → α := fun i =>
  xs (srcDev c i) (Shape.pair (d := ![4096, 2048]) ⟨(i 0).val % 4096, Nat.mod_lt _ (by decide)⟩
    ⟨1024 * (c.val / 2) + (i 1).val, by have h1 : (i 1).val < 1024 := (i 1).isLt; have hc := c.isLt; show _ < 2048; omega⟩)

end Cert.A2ASpec
-- ==== Proof.KernelIdealProto.lean ====
import proofs.«900019_g7700000000000020_dist_a2a_v7x_xy2x2_x_m4096_n1024_f32_1_alg».proof.Proof.Gen.KernelIdeal.Frame
import proofs.«900019_g7700000000000020_dist_a2a_v7x_xy2x2_x_m4096_n1024_f32_1_alg».proof.Proof.Spec
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

variable (m : (ℓ : Loc nD τ sig) → Buf (Elt F) ℓ) (ρ : Dev nD → PrngReg)

def s₀ : MemSt nD τ sig (Elt F) := ⟨m, fun _ => 0, ρ⟩

abbrev xsOf : Fin 4 → Cert.A2ASpec.XS.Idx → Elt F .f32 := fun c => m (((c : Dev nD) : Thread nD τ).loc main_arg0)

theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = py c := Fin.ext (k0_dev2_eq c)
theorem dev3_eq (c : Dev nD) : (⟨k0_dev3 c, k0_dev3_lt c⟩ : Dev nD) = px c := Fin.ext (k0_dev3_eq c)
theorem dev4_eq (c : Dev nD) : (⟨k0_dev4 c, k0_dev4_lt c⟩ : Dev nD) = px c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = px c := Fin.ext (k0_dev6_eq c)
theorem dev7_eq (c : Dev nD) : (⟨k0_dev7 c, k0_dev7_lt c⟩ : Dev nD) = px c := Fin.ext (k0_dev7_eq c)
theorem dev8_eq (c : Dev nD) : (⟨k0_dev8 c, k0_dev8_lt c⟩ : Dev nD) = px c := Fin.ext (k0_dev8_eq c)
theorem dev9_eq (c : Dev nD) : (⟨k0_dev9 c, k0_dev9_lt c⟩ : Dev nD) = px c := Fin.ext (k0_dev9_eq c)
theorem dev10_eq (c : Dev nD) : (⟨k0_dev10 c, k0_dev10_lt c⟩ : Dev nD) = px c := Fin.ext (k0_dev10_eq c)
theorem dev11_eq (c : Dev nD) : (⟨k0_dev11 c, k0_dev11_lt c⟩ : Dev nD) = px c := Fin.ext (k0_dev11_eq c)
theorem dev12_eq (c : Dev nD) : (⟨k0_dev12 c, k0_dev12_lt c⟩ : Dev nD) = px c := Fin.ext (k0_dev12_eq c)
theorem dev13_eq (c : Dev nD) : (⟨k0_dev13 c, k0_dev13_lt c⟩ : Dev nD) = px c := Fin.ext (k0_dev13_eq c)
theorem dev14_eq (c : Dev nD) : (⟨k0_dev14 c, k0_dev14_lt c⟩ : Dev nD) = px c := Fin.ext (k0_dev14_eq c)
theorem dev15_eq (c : Dev nD) : (⟨k0_dev15 c, k0_dev15_lt c⟩ : Dev nD) = px c := Fin.ext (k0_dev15_eq c)
theorem dev16_eq (c : Dev nD) : (⟨k0_dev16 c, k0_dev16_lt c⟩ : Dev nD) = px c := Fin.ext (k0_dev16_eq c)
theorem dev17_eq (c : Dev nD) : (⟨k0_dev17 c, k0_dev17_lt c⟩ : Dev nD) = px c := Fin.ext (k0_dev17_eq c)
theorem dev18_eq (c : Dev nD) : (⟨k0_dev18 c, k0_dev18_lt c⟩ : Dev nD) = px c := Fin.ext (k0_dev18_eq c)
theorem dev19_eq (c : Dev nD) : (⟨k0_dev19 c, k0_dev19_lt c⟩ : Dev nD) = py c := Fin.ext (k0_dev19_eq c)
theorem dev20_eq (c : Dev nD) : (⟨k0_dev20 c, k0_dev20_lt c⟩ : Dev nD) = py c := Fin.ext (k0_dev20_eq c)
theorem dev21_eq (c : Dev nD) : (⟨k0_dev21 c, k0_dev21_lt c⟩ : Dev nD) = py c := Fin.ext (k0_dev21_eq c)
theorem dev22_eq (c : Dev nD) : (⟨k0_dev22 c, k0_dev22_lt c⟩ : Dev nD) = py c := Fin.ext (k0_dev22_eq c)
theorem dev23_eq (c : Dev nD) : (⟨k0_dev23 c, k0_dev23_lt c⟩ : Dev nD) = py c := Fin.ext (k0_dev23_eq c)
theorem dev24_eq (c : Dev nD) : (⟨k0_dev24 c, k0_dev24_lt c⟩ : Dev nD) = py c := Fin.ext (k0_dev24_eq c)
theorem dev25_eq (c : Dev nD) : (⟨k0_dev25 c, k0_dev25_lt c⟩ : Dev nD) = py c := Fin.ext (k0_dev25_eq c)
theorem dev26_eq (c : Dev nD) : (⟨k0_dev26 c, k0_dev26_lt c⟩ : Dev nD) = py c := Fin.ext (k0_dev26_eq c)
theorem dev27_eq (c : Dev nD) : (⟨k0_dev27 c, k0_dev27_lt c⟩ : Dev nD) = py c := Fin.ext (k0_dev27_eq c)
theorem dev28_eq (c : Dev nD) : (⟨k0_dev28 c, k0_dev28_lt c⟩ : Dev nD) = py c := Fin.ext (k0_dev28_eq c)
theorem dev29_eq (c : Dev nD) : (⟨k0_dev29 c, k0_dev29_lt c⟩ : Dev nD) = py c := Fin.ext (k0_dev29_eq c)
theorem dev30_eq (c : Dev nD) : (⟨k0_dev30 c, k0_dev30_lt c⟩ : Dev nD) = py c := Fin.ext (k0_dev30_eq c)
theorem dev31_eq (c : Dev nD) : (⟨k0_dev31 c, k0_dev31_lt c⟩ : Dev nD) = py c := Fin.ext (k0_dev31_eq c)
theorem dev32_eq (c : Dev nD) : (⟨k0_dev32 c, k0_dev32_lt c⟩ : Dev nD) = py c := Fin.ext (k0_dev32_eq c)
theorem dev33_eq (c : Dev nD) : (⟨k0_dev33 c, k0_dev33_lt c⟩ : Dev nD) = py c := Fin.ext (k0_dev33_eq c)
theorem dev34_eq (c : Dev nD) : (⟨k0_dev34 c, k0_dev34_lt c⟩ : Dev nD) = py c := Fin.ext (k0_dev34_eq c)

theorem inb16 (k : Fin 16) : ∀ a, (![128 * k.val, 0] : Fin 2 → Nat) a + S128x1024.size a ≤ S2048x1024.size a := by
  intro a; have := k.isLt; fin_cases a
  · show 128 * k.val + 128 ≤ 2048; omega
  · show 0 + 1024 ≤ 1024; omega
theorem inb8 (k : Fin 8) : ∀ a, (![k.val, 0, 0] : Fin 3 → Nat) a + S1x512x1024.size a ≤ S8x512x1024.size a := by
  intro a; have := k.isLt; fin_cases a
  · show k.val + 1 ≤ 8; omega
  · show 0 + 512 ≤ 512; omega
  · show 0 + 1024 ≤ 1024; omega

abbrev vsM (k : Fin 16) : Memref sig .tc .vmem S128x1024 .f32 :=
  (Memref.whole cc0_scratch0).slice (Rect.unit (s := S2048x1024) ![128 * k.val, 0] S128x1024.size (inb16 k)) (fun _ => rfl)
abbrev r1M (k : Fin 16) : Memref sig .tc .vmem S128x1024 .f32 :=
  (Memref.whole cc0_scratch1).slice (Rect.unit (s := S2048x1024) ![128 * k.val, 0] S128x1024.size (inb16 k)) (fun _ => rfl)
abbrev r2M (k : Fin 16) : Memref sig .tc .vmem S128x1024 .f32 :=
  (Memref.whole cc0_scratch2).slice (Rect.unit (s := S2048x1024) ![128 * k.val, 0] S128x1024.size (inb16 k)) (fun _ => rfl)

abbrev stM (k : Fin 8) : Memref sig .tc .vmem S512x1024 .f32 :=
  ((Memref.whole cc0_scratch3).slice (Rect.unit (s := S8x512x1024) ![k.val, 0, 0] S1x512x1024.size (inb8 k)) (fun _ => rfl)).squeeze S512x1024 squeezes_S1x512x1024_S512x1024

abbrev xsM (c : Dev nD) (k : Fin 16) : Memref sig .tc .hbm S128x1024 .f32 :=
  (Memref.whole main_arg0).slice (Rect.unit (s := S4096x2048) (k0_off1 c (BitVec.ofNat 32 (128 * k.val))) S128x1024.size (k0_off1_inb c k)) (fun _ => rfl)

abbrev xlM (c : Dev nD) : Fin 8 → Memref sig .tc .hbm S512x1024 .f32
  | 0 => (Memref.whole main_arg0).slice (Rect.unit (s := S4096x2048) (k0_off2 c) S512x1024.size (k0_off2_inb c)) (fun _ => rfl)
  | 1 => (Memref.whole main_arg0).slice (Rect.unit (s := S4096x2048) (k0_off3 c) S512x1024.size (k0_off3_inb c)) (fun _ => rfl)
  | 2 => (Memref.whole main_arg0).slice (Rect.unit (s := S4096x2048) (k0_off4 c) S512x1024.size (k0_off4_inb c)) (fun _ => rfl)
  | 3 => (Memref.whole main_arg0).slice (Rect.unit (s := S4096x2048) (k0_off5 c) S512x1024.size (k0_off5_inb c)) (fun _ => rfl)
  | 4 => (Memref.whole main_arg0).slice (Rect.unit (s := S4096x2048) (k0_off6 c) S512x1024.size (k0_off6_inb c)) (fun _ => rfl)
  | 5 => (Memref.whole main_arg0).slice (Rect.unit (s := S4096x2048) (k0_off7 c) S512x1024.size (k0_off7_inb c)) (fun _ => rfl)
  | 6 => (Memref.whole main_arg0).slice (Rect.unit (s := S4096x2048) (k0_off8 c) S512x1024.size (k0_off8_inb c)) (fun _ => rfl)
  | 7 => (Memref.whole main_arg0).slice (Rect.unit (s := S4096x2048) (k0_off9 c) S512x1024.size (k0_off9_inb c)) (fun _ => rfl)

abbrev o1M (c : Dev nD) (k : Fin 16) : Memref sig .tc .hbm S128x1024 .f32 :=
  (Memref.whole main_v1).slice (Rect.unit (s := S8192x1024) (k0_off10 c (BitVec.ofNat 32 (128 * k.val))) S128x1024.size (k0_off10_inb c k)) (fun _ => rfl)
abbrev o2M (c : Dev nD) (k : Fin 16) : Memref sig .tc .hbm S128x1024 .f32 :=
  (Memref.whole main_v1).slice (Rect.unit (s := S8192x1024) (k0_off12 c (BitVec.ofNat 32 (128 * k.val))) S128x1024.size (k0_off12_inb c k)) (fun _ => rfl)
abbrev olM (c : Dev nD) (k : Fin 8) : Memref sig .tc .hbm S512x1024 .f32 :=
  (Memref.whole main_v1).slice (Rect.unit (s := S8192x1024) (k0_off11 c (BitVec.ofNat 32 (512 * k.val))) S512x1024.size (k0_off11_inb c k)) (fun _ => rfl)

abbrev pts {sp : Space} {s : Shape} (M : Memref sig .tc sp s .f32) (c : Dev nD) (q : PosShare TreeShare) (f : Buf (Elt F) (M.view.loc (c : Thread nD τ))) : sProp 𝕄 :=
  M.view.loc (c : Thread nD τ) ↦[M.view.set]{q} f

abbrev barS : Sem sig := (SemArray.scalar (sig.barrier 0 rfl) : Sems sig S_).sem
abbrev barCell (c : Dev nD) : GSem nD τ sig := ((c : Thread nD τ), .reg barS)

abbrev dS (i : Nat) (h : i < 128) : DmaSem sig := ⟨i, h⟩
abbrev dcell (c : Dev nD) (i : Nat) (h : i < 128) : GSem nD τ sig := ((c : Thread nD τ), .dma (dS i h))

abbrev xS (j : Fin 4) (k : Fin 16) : DmaSem sig := ⟨16 + 16 * j.val + k.val, by have := j.isLt; have := k.isLt; show _ < 128; omega⟩
abbrev xcell (c : Dev nD) (j : Fin 4) (k : Fin 16) : GSem nD τ sig := ((c : Thread nD τ), .dma (xS j k))

abbrev N : ℕ := (vsM 0 : Memref sig .tc .vmem S128x1024 .f32).view.dmaCredit
theorem N_pos : 0 < N := View.dmaCredit_pos _ (by decide)

abbrev hL : PosShare TreeShare := fullShare.left
abbrev hR : PosShare TreeShare := fullShare.right

def barPayX (c : Dev nD) : sProp 𝕄 := bigSep Finset.univ fun k : Fin 16 => iprop(∃ f, pts (r1M k) (px c) fullShare f)

def barPayY (c : Dev nD) : sProp 𝕄 := bigSep Finset.univ fun k : Fin 16 => iprop(∃ f, pts (r2M k) (py c) fullShare f)

def xPay (c : Dev nD) (j : Fin 4) (k : Fin 16) : sProp 𝕄 :=
  match j with
  | 0 => iprop(∃ f, pts (vsM k) c fullShare f)
  | 1 => pts (r1M k) c fullShare (recv1F (xsOf m) c)
  | 2 => pts (r1M k) c hL (recv1F (xsOf m) c)
  | 3 => pts (r2M k) c fullShare (recv2F (xsOf m) c)

def jOf (i : Nat) (h : i < 80) : Fin 4 := ⟨(i - 16) / 16, by omega⟩
def kOf (i : Nat) : Fin 16 := ⟨i % 16, Nat.mod_lt _ (by decide)⟩

def sched : Rounds.Schedule (GSem nD τ sig) Bool 𝕄 where
  duties g r :=
    if r = 0 ∧ g.1.2 = .tc then
      match g.2 with
      | .reg _ => Finset.univ
      | .dma q => if 16 ≤ q.val ∧ q.val < 80 then {false} else ∅
    else ∅
  unitless _ := False
  amount g _ _ := match g.2 with | .reg _ => 1 | .dma _ => N
  payload g _ d :=
    match g.2 with
    | .reg _ => if d then barPayY g.1.1 else barPayX g.1.1
    | .dma q => if h : 16 ≤ q.val ∧ q.val < 80 then xPay m g.1.1 (jOf q.val h.2) (kOf q.val) else iprop(emp)
  amount_pos g _ _ _ := by
    cases g.2 with
    | reg _ => exact Nat.one_pos
    | dma _ => exact N_pos

instance sched_payload_storable (g : GSem nD τ sig) (r : ℕ) (d : Bool) :
    BI.Storable (upEmb : UEmb _ 𝕄) ((sched (F := F) m).payload g r d) := by
  show BI.Storable upEmb (match g.2 with
    | .reg _ => if d then barPayY g.1.1 else barPayX g.1.1
    | .dma q => if h : 16 ≤ q.val ∧ q.val < 80 then xPay m g.1.1 (jOf q.val h.2) (kOf q.val) else iprop(emp))
  unfold barPayX barPayY xPay
  (repeat' split) <;> infer_instance

section Tables
variable (c : Dev nD) (j : Fin 4) (k : Fin 16)

omit [FloatOps F] in
theorem xS_range : 16 ≤ (xS j k).val ∧ (xS j k).val < 80 := by
  have := j.isLt; have := k.isLt
  exact ⟨by show 16 ≤ 16 + 16 * j.val + k.val; omega, by show 16 + 16 * j.val + k.val < 80; omega⟩
omit [FloatOps F] in
theorem jOf_xS : jOf (xS j k).val (xS_range j k).2 = j := by
  have := j.isLt; have := k.isLt
  exact Fin.ext (by show (16 + 16 * j.val + k.val - 16) / 16 = j.val; omega)
omit [FloatOps F] in
theorem kOf_xS : kOf (xS j k).val = k := by
  have := j.isLt; have := k.isLt
  exact Fin.ext (by show (16 + 16 * j.val + k.val) % 16 = k.val; omega)

omit [FloatOps F] in
theorem duties_bar : (sched (F := F) m).duties (barCell c) 0 = Finset.univ := by
  dsimp only [sched]; rw [if_pos ⟨rfl, rfl⟩]
omit [FloatOps F] in
theorem duties_x : (sched (F := F) m).duties (xcell c j k) 0 = {false} := by
  dsimp only [sched]; rw [if_pos ⟨rfl, rfl⟩]; exact if_pos (xS_range j k)
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Bool) : (sched (F := F) m).amount (barCell c) 0 d = 1 := rfl
omit [FloatOps F] in
theorem amount_x (d : Bool) : (sched (F := F) m).amount (xcell c j k) 0 d = N := rfl

omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_x : (sched (F := F) m).expect (xcell c j k) 0 = N := by
  unfold Schedule.expect Schedule.amountOf; rw [duties_x, Finset.sum_singleton, amount_x]

omit [FloatOps F] in
theorem payload_bar_true : (sched (F := F) m).payload (barCell c) 0 true = barPayY c := by dsimp only [sched]; rw [if_pos rfl]
omit [FloatOps F] in
theorem payload_bar_false : (sched (F := F) m).payload (barCell c) 0 false = barPayX c := by
  dsimp only [sched]; exact if_neg Bool.false_ne_true
omit [FloatOps F] in
theorem payload_x (d : Bool) : (sched (F := F) m).payload (xcell c j k) 0 d = xPay m c j k := by
  dsimp only [sched]; rw [dif_pos (xS_range j k), jOf_xS, kOf_xS]

omit [FloatOps F] in

theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
omit [FloatOps F] in
theorem rest_x : bigSep ((sched (F := F) m).duties (xcell c j k) 0 \ ∅) (fun d => (sched (F := F) m).payload (xcell c j k) 0 d) = xPay m c j k := by
  rw [Finset.sdiff_empty, duties_x, bigSep_singleton, payload_x]

end Tables

def owe1 (c : Dev nD) (a : ℕ) : CellTallies nD τ sig Unit :=
  ∑ k ∈ (Finset.univ : Finset (Fin 16)).filter (fun k => a ≤ k.val), tallyAt (xcell (px c) 1 k) () N

def owe2 (c : Dev nD) (b : ℕ) : CellTallies nD τ sig Unit :=
  ∑ k ∈ (Finset.univ : Finset (Fin 16)).filter (fun k => b ≤ k.val), tallyAt (xcell (py c) 3 k) () N

def O₁ (c : Dev nD) : CellTallies nD τ sig Unit := (owe1 c 0 + owe2 c 0) + tallyAt (barCell (py c)) () 1
def O₀ (c : Dev nD) : CellTallies nD τ sig Unit := O₁ c + tallyAt (barCell (px c)) () 1

def L (g : GSem nD τ sig) : Finset Unit := if g.1.2 = .tc then {()} else ∅

def lv (g : GSem nD τ sig) (_ : Unit) : ℕ :=
  match g.2 with
  | .reg _ => 1
  | .dma q => if 32 ≤ q.val ∧ q.val < 48 then 2 else if 64 ≤ q.val ∧ q.val < 80 then 3 else 0

theorem L_of_ne (g : GSem nD τ sig) (h : g.1.2 ≠ .tc) : L g = ∅ := if_neg h
theorem L_tc (c : Dev nD) (sm : SemLoc sig) : L ((c : Thread nD τ), sm) = {()} := if_pos rfl

abbrev CIx : Type := Option (Fin 4 × Fin 16)
abbrev kcell (ck : Dev nD × CIx) : GSem nD τ sig :=
  match ck.2 with
  | none => barCell ck.1
  | some jk => xcell ck.1 jk.1 jk.2

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

def payToks (c : Dev nD) : sProp 𝕄 :=
  iprop(dutyTok ER (barCell (px c)) 0 false ∗ dutyTok ER (barCell (py c)) 0 true
    ∗ (bigSep Finset.univ fun k : Fin 16 => dutyTok ER (xcell (px c) 1 k) 0 false)
    ∗ (bigSep Finset.univ fun k : Fin 16 => dutyTok ER (xcell (py c) 3 k) 0 false)
    ∗ (bigSep Finset.univ fun k : Fin 16 => dutyTok ER (xcell c 0 k) 0 false)
    ∗ (bigSep Finset.univ fun k : Fin 16 => dutyTok ER (xcell c 2 k) 0 false))

def linear (c : Dev nD) : sProp 𝕄 :=
  iprop((atPos ER (barCell c) 0 ∅ 0 ∗ bigSep Finset.univ fun jk : Fin 4 × Fin 16 => atPos ER (xcell c jk.1 jk.2) 0 ∅ 0) ∗ payToks c)
def ghost (K : Dev nD × CIx → ℕ) (c : Dev nD) : sProp 𝕄 := iprop(records m K ∗ linear c)

def creds0 (c : Dev nD) : sProp 𝕄 :=
  iprop(cred (tallyAt (barCell c) () 2) ∗ (bigSep Finset.univ fun k : Fin 16 => cred (tallyAt (xcell c 1 k) () N))
    ∗ (bigSep Finset.univ fun k : Fin 16 => cred (tallyAt (xcell c 3 k) () N)))

abbrev osem : Fin 128 → SemLoc sig := fun i => .dma i

def localSems (c : Dev nD) : sProp 𝕄 :=
  bigSep ((Finset.univ : Finset (Fin 128)).filter fun i => i.val < 16 ∨ 80 ≤ i.val) fun i => semVal ((c : Thread nD τ), SemLoc.dma i) 0

def start (c : Dev nD) : sProp 𝕄 := iprop((∃ K, ghost m K c) ∗ localSems c ∗ creds0 c ∗ levAts L lv)

end Cert.KernelIdeal.A2A
end
-- ==== Proof.KernelIdealInv.lean ====
import proofs.«900019_g7700000000000020_dist_a2a_v7x_xy2x2_x_m4096_n1024_f32_1_alg».proof.Proof.KernelIdealProto

noncomputable section

namespace Cert.KernelIdeal.A2A

open Cert.KernelIdeal Cert.KernelIdeal.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The four scratch buffers at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What a device holds before its body -/
def Φ₀ (c : Dev nD) : sProp 𝕄 :=
  iprop(start m c ∗ (((c : Thread nD τ).loc main_arg0) ↦{fullShare} m ((c : Thread nD τ).loc main_arg0))
    ∗ (∃ g : Buf (Elt F) ((c : Thread nD τ).loc main_v1), ((c : Thread nD τ).loc main_v1) ↦{fullShare} g) ∗ scratchAny c)

/-- and after it: the result block at the specification's contents, its 128 DMA semaphores at zero. -/
def Φ₁ (c : Dev nD) : sProp 𝕄 :=
  iprop((((c : Thread nD τ).loc main_arg0) ↦{fullShare} m ((c : Thread nD τ).loc main_arg0))
    ∗ (((c : Thread nD τ).loc main_v1) ↦{fullShare} (outF (xsOf m) c : Buf (Elt F) ((c : Thread nD τ).loc main_v1)))
    ∗ scratchAny c ∗ localSems c ∗ bigSep Finset.univ fun jk : Fin 4 × Fin 16 => semVal (xcell c jk.1 jk.2) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A
end
-- ==== Proof.KernelIdealLaunch.lean ====
import proofs.«900019_g7700000000000020_dist_a2a_v7x_xy2x2_x_m4096_n1024_f32_1_alg».proof.Proof.KernelIdealInv
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

def Y (c : Dev nD) : sProp 𝕄 :=
  iprop((((c : Thread nD τ).loc main_arg0) ↦{fullShare} m ((c : Thread nD τ).loc main_arg0))
    ∗ (((c : Thread nD τ).loc main_v1) ↦{fullShare} (outF (xsOf m) c : Buf (Elt F) ((c : Thread nD τ).loc main_v1))))

def QY (c : Dev nD) (s : MemSt nD τ sig (Elt F)) : Prop :=
  s.mem ((c.tc : Thread nD τ).loc main_v1) = (outF (xsOf m) c : Buf (Elt F) ((c.tc : Thread nD τ).loc main_v1))
    ∧ s.mem ((c.tc : Thread nD τ).loc main_arg0) = m ((c.tc : Thread nD τ).loc main_arg0)

theorem start_intro (G' : Dev nD → sProp 𝕄) (hG' : ∀ c, G' c = iprop((∃ K, ghost m K c) ∗ localSems c))
    (hcreds : ∀ c, (Pipeline.launchCred O₀ c : sProp 𝕄) ⊢ creds0 c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(X m c ∗ emp) := by
  rw [Pipeline.unscopedRestP_none, unscopedRest0_eq, hG' c]
  iintro ⟨⟨Ha, Hv⟩, Hlev, Hcr, -, ⟨Hg, Hls⟩⟩
  ihave Hc := (hcreds c) $$ Hcr
  imodintro
  unfold X start
  isplitl
  · isplitr [Ha Hv]
    · isplitl [Hg]; · iexact Hg
      isplitl [Hls]; · iexact Hls
      isplitl [Hc]; · iexact Hc
      iexact Hlev
    · isplitl [Ha]; · iexact Ha
      iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratchAny
  iintro ⟨⟨Hs, Ha, Hv⟩, -, Hr⟩
  isplitl [Hs]; · iexact Hs
  isplitl [Ha]; · iexact Ha
  isplitl [Hv]
  · iexists (m ((c : Thread nD τ).loc main_v1)); iexact Hv
  iexact Hr

theorem phi1_exit
    (hown0 : ∀ c, iprop(localSems c ∗ bigSep Finset.univ fun jk : Fin 4 × Fin 16 => semVal (xcell c jk.1 jk.2) 0) ⊢ (Pipeline.ownSems0 (Ix := Unit) (Name := ℕ) (U := UU) (Lvl := ℕ) (Val := Elt F) (τ := τ) osem c : sProp 𝕄))
    (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scratchAny
  iintro ⟨Ha, Hv, Hr, Hls, Hx⟩
  isplitl [Ha Hv]
  · isplitl [Ha]; · iexact Ha
    iexact Hv
  isplitl [Hls Hx]
  · iapply (hown0 c)
    isplitl [Hls]; · iexact Hls
    iexact Hx
  iexact Hr

theorem waits (c : Dev nD) : (levAts L lv : sProp 𝕄) ⊢ Pipeline.cellsWaits cfgs (dats m) () 0 c :=
  Pipeline.cellsWaits_intro cfgs (dats m) () 0 c fun w s t => w.elim0

theorem read_final (c : Dev nD) (s' : Phys nD τ sig (Elt F)) :
    iprop(Y m c ∗ (emp : sProp 𝕄) ∗ SI s') ⊢ |={Set.univ}=> iprop(⌜QY m c s'.mem⌝ ∗ SI s') := by
  unfold Y
  iintro ⟨⟨Ha, Hv⟩, -, HSI⟩
  icombine HSI Ha gives %ha
  icombine HSI Hv gives %hv
  have h2 := Buf.eq_of_forall_mem_univ ha
  have h1 := Buf.eq_of_forall_mem_univ hv
  imodintro
  isplitr
  · ipureintro; exact ⟨h1, h2⟩
  iexact HSI

set_option maxRecDepth 16384 in

theorem run_main_of
    (G G' : Dev nD → sProp 𝕄) (u₀ : UU)
    (hG' : ∀ c, G' c = iprop((∃ K, ghost m K c) ∗ localSems c))
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ G')
    (hcreds : ∀ c, (Pipeline.launchCred O₀ c : sProp 𝕄) ⊢ creds0 c)
    (hosf : Pipeline.OwnSemFacts cfg0.spec osem)
    (hown0 : ∀ c, iprop(localSems c ∗ bigSep Finset.univ fun jk : Fin 4 × Fin 16 => semVal (xcell c jk.1 jk.2) 0) ⊢ (Pipeline.ownSems0 (Ix := Unit) (Name := ℕ) (U := UU) (Lvl := ℕ) (Val := Elt F) (τ := τ) osem c : sProp 𝕄))
    (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = (Cert.A2ASpec.outF (xsOf m) c : Buf (Elt F) ((c.tc : Thread nD τ).loc main_v1))
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hosf (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := G') (u₀ := u₀)
    (hu₀ := hu₀)
    (hglob := hglob)
    (hA := fun _ w => w.elim0) (hpf := fun _ k => k.elim0)
    (X := X m) (Y := Y m) (Z := fun _ => iprop(emp))
    (hX := start_intro m ρ G' hG' hcreds) (hin := phi0_intro m) (hout := phi1_exit m hown0)
    (QY := QY m)
    (hY := read_final m)
    (hQ := fun _ h c => (h c).2.2)

end Cert.KernelIdeal.A2A
end
-- ==== Proof.KernelIdealGhost.lean ====
import proofs.«900019_g7700000000000020_dist_a2a_v7x_xy2x2_x_m4096_n1024_f32_1_alg».proof.Proof.KernelIdealProto

noncomputable section

namespace Cert.KernelIdeal.A2A

open Cert.KernelIdeal Cert.KernelIdeal.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem xS_eq {j j' : Fin 4} {k k' : Fin 16} (h : (xS j k : DmaSem sig) = xS j' k') : j = j' ∧ k = k' := by
  have h' : 16 + 16 * j.val + k.val = 16 + 16 * j'.val + k'.val := congrArg (fun q : DmaSem sig => q.val) h
  have := k.isLt; have := k'.isLt
  exact ⟨Fin.ext (by omega), Fin.ext (by omega)⟩

omit [FloatOps F] in
theorem kcell_injective : Function.Injective (kcell : Dev nD × CIx → GSem nD τ sig) := by
  rintro ⟨c, i⟩ ⟨c', i'⟩ h
  have h1 : c = c' := by
    have := congrArg (fun g : GSem nD τ sig => g.1.1) h
    cases i <;> cases i' <;> exact this
  subst h1
  have h2 : (kcell (c, i)).2 = (kcell (c, i')).2 := congrArg Prod.snd h
  cases i with
  | none => cases i' with
    | none => rfl
    | some jk' => exact absurd h2 (fun h' => by cases h')
  | some jk => cases i' with
    | none => exact absurd h2 (fun h' => by cases h')
    | some jk' =>
      obtain ⟨hj, hk⟩ := xS_eq (SemLoc.dma.inj h2)
      rw [Prod.ext hj hk]

def ringCells : Finset (GSem nD τ sig) := Finset.univ.map ⟨kcell, kcell_injective⟩

abbrev TIx : Type := Bool ⊕ (Fin 4 × Fin 16)
abbrev tokOf (ct : Dev nD × TIx) : GSem nD τ sig × ℕ × Bool := match ct.2 with
  | .inl d => (barCell ct.1, 0, d)
  | .inr jk => (xcell ct.1 jk.1 jk.2, 0, false)

omit [FloatOps F] in
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    cases t <;> cases t' <;> exact this
  subst h1
  have h2 : (tokOf (c, t)).1.2 = (tokOf (c, t')).1.2 := congrArg (fun x : GSem nD τ sig × ℕ × Bool => x.1.2) h
  cases t with
  | inl d => cases t' with
    | inl d' =>
      have h3 : d = d' := congrArg (fun x : GSem nD τ sig × ℕ × Bool => x.2.2) h
      rw [h3]
    | inr jk' => exact absurd h2 (fun h' => by cases h')
  | inr jk => cases t' with
    | inl d' => exact absurd h2 (fun h' => by cases h')
    | inr jk' =>
      obtain ⟨hj, hk⟩ := xS_eq (SemLoc.dma.inj h2)
      rw [Prod.ext hj hk]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ (bigSep Finset.univ fun k : Fin 16 => dutyTok ER (xcell c 0 k) 0 false)
    ∗ (bigSep Finset.univ fun k : Fin 16 => dutyTok ER (xcell c 1 k) 0 false)
    ∗ (bigSep Finset.univ fun k : Fin 16 => dutyTok ER (xcell c 2 k) 0 false)
    ∗ (bigSep Finset.univ fun k : Fin 16 => dutyTok ER (xcell c 3 k) 0 false))

def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop((∃ K, ghost m K c) ∗ localSems c)

omit [FloatOps F] in
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]; rfl
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl
omit [FloatOps F] in
theorem bigSep_hops4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_prod, bigSep_hops4]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem xS_injective : Function.Injective (fun jk : Fin 4 × Fin 16 => (xS jk.1 jk.2 : Fin 128)) :=
  fun jk jk' h => by obtain ⟨hj, hk⟩ := xS_eq (j := jk.1) (k := jk.2) (j' := jk'.1) (k' := jk'.2) h; exact Prod.ext hj hk

omit [FloatOps F] in

theorem hop_positions : (Finset.univ : Finset (Fin 128)).filter (fun i => ¬ (i.val < 16 ∨ 80 ≤ i.val)) = Finset.univ.map ⟨_, xS_injective⟩ := by
  ext i
  rw [Finset.mem_filter, Finset.mem_map]
  constructor
  · rintro ⟨-, hi⟩
    have := i.isLt
    refine ⟨(⟨(i.val - 16) / 16, by omega⟩, ⟨i.val % 16, Nat.mod_lt _ (by decide)⟩), Finset.mem_univ _, Fin.ext ?_⟩
    show 16 + 16 * ((i.val - 16) / 16) + i.val % 16 = i.val
    omega
  · rintro ⟨jk, -, rfl⟩
    have hr := xS_range jk.1 jk.2
    refine ⟨Finset.mem_univ _, fun h => ?_⟩
    have h' : (xS jk.1 jk.2).val < 16 ∨ 80 ≤ (xS jk.1 jk.2).val := h
    omega

omit [FloatOps F] in

theorem ownSems0_split (c : Dev nD) : (Pipeline.ownSems0 (Ix := Unit) (Name := ℕ) (U := UU) (Lvl := ℕ) (Val := Elt F) (τ := τ) osem c : sProp 𝕄)
    = iprop(localSems c ∗ bigSep Finset.univ fun jk : Fin 4 × Fin 16 => semVal (xcell c jk.1 jk.2) 0) := by
  unfold Pipeline.ownSems0 localSems
  rw [bigSep_filter_split Finset.univ (fun i : Fin 128 => i.val < 16 ∨ 80 ≤ i.val), hop_positions, bigSep_map]; rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun i : CIx => semVal (kcell (c, i)) 0) : sProp 𝕄) := by
  rw [ownSems0_split, unscopedSems0_eq, bigSep_univ_option]
  iintro ⟨⟨HL, HX⟩, HB⟩
  isplitl [HL]; · iexact HL
  isplitl [HB] <;> iassumption

omit [FloatOps F] in
theorem ownSemFacts : Pipeline.OwnSemFacts cfg0.spec osem :=
  ⟨by decide, fun a b h => SemLoc.dma.inj h, fun k w s => w.elim0⟩

omit [FloatOps F] in

theorem ownSems0_of (c : Dev nD) :
    iprop(localSems c ∗ bigSep Finset.univ fun jk : Fin 4 × Fin 16 => semVal (xcell c jk.1 jk.2) 0)
      ⊢ (Pipeline.ownSems0 (Ix := Unit) (Name := ℕ) (U := UU) (Lvl := ℕ) (Val := Elt F) (τ := τ) osem c : sProp 𝕄) :=
  Entails.of_eq (ownSems0_split c).symm

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hloc, Hv⟩
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
theorem ghost_intro (K : Dev nD × CIx → ℕ) (c : Dev nD) : iprop(records m K ∗ linear c ∗ localSems c) ⊢ G' m c := by
  unfold G' ghost
  iintro ⟨#HR, HL, Hloc⟩
  isplitl [HL]
  · iexists K
    isplitr; · iexact HR
    iexact HL
  iexact Hloc

def pxE : Dev nD ≃ Dev nD := ⟨px, px, px_px, px_px⟩
def pyE : Dev nD ≃ Dev nD := ⟨py, py, py_py, py_py⟩

omit [FloatOps F] in

theorem toks_around : (bigSep Finset.univ fun c : Dev nD => (toks c : sProp 𝕄)) ⊢ bigSep Finset.univ fun c : Dev nD => payToks c := by
  unfold toks payToks
  simp only [bigSep_sep']
  rw [bigSep_univ_equiv pxE (fun c : Dev nD => (dutyTok ER (barCell c) 0 false : sProp 𝕄)),
    bigSep_univ_equiv pyE (fun c : Dev nD => (dutyTok ER (barCell c) 0 true : sProp 𝕄)),
    bigSep_univ_equiv pxE (fun c : Dev nD => (bigSep Finset.univ fun k : Fin 16 => dutyTok ER (xcell c 1 k) 0 false : sProp 𝕄)),
    bigSep_univ_equiv pyE (fun c : Dev nD => (bigSep Finset.univ fun k : Fin 16 => dutyTok ER (xcell c 3 k) 0 false : sProp 𝕄))]
  iintro ⟨⟨HF, HT⟩, H0, H1, H2, H3⟩
  isplitl [HF]; · iexact HF
  isplitl [HT]; · iexact HT
  isplitl [H1]; · iexact H1
  isplitl [H3]; · iexact H3
  isplitl [H0]; · iexact H0
  iexact H2

omit [FloatOps F] in
theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ localSems c) : sProp 𝕄)
      ⊢ bigSep Finset.univ (G' m) := by
  rw [bigSep_sep', bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok, Hloc⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (show iprop((bigSep Finset.univ fun c : Dev nD => bigSep Finset.univ fun i : CIx => (atPos ER (kcell (c, i)) 0 ∅ 0 : sProp 𝕄))
          ∗ (bigSep Finset.univ fun c : Dev nD => (payToks c : sProp 𝕄)) ∗ bigSep Finset.univ fun c : Dev nD => (localSems c : sProp 𝕄))
        ⊢ (bigSep Finset.univ fun c : Dev nD => iprop(linear c ∗ localSems c) : sProp 𝕄) from by
      rw [← bigSep_sep', ← bigSep_sep']
      exact bigSep_mono fun c _ => show iprop((bigSep Finset.univ fun i : CIx => (atPos ER (kcell (c, i)) 0 ∅ 0 : sProp 𝕄)) ∗ payToks c ∗ localSems c)
          ⊢ (iprop(linear c ∗ localSems c) : sProp 𝕄) from by
        unfold linear; rw [bigSep_univ_option]
        iintro ⟨⟨HB, HX⟩, HT, HL⟩
        isplitl [HB HX HT]
        · isplitl [HB HX]
          · isplitl [HB] <;> iassumption
          · iexact HT
        · iexact HL)
    isplitl [Hat]; · iexact Hat
    isplitl [Htk] <;> iassumption

omit [FloatOps F] in

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) (MT nD τ sig Unit (Elt F) ℕ UU ℕ)) _ _) $$ HX
  icases H2 with ⟨HR, -⟩
  imod (fund_ring m) $$ HR with HG
  imodintro
  isplitl [HP] <;> iassumption

omit [FloatOps F] in

theorem cred_two (g : GSem nD τ sig) : iprop(cred (tallyAt g () 1) ∗ cred (tallyAt g () 1)) ⊢ (cred (tallyAt g () 2) : sProp 𝕄) := by
  rw [← tallyAt_add g () 1 1]; exact (cred_add _ _).2

omit [FloatOps F] in

theorem launch_hop (f : Dev nD → Dev nD) (hf : ∀ c, f (f c) = c) (j : Fin 4) (a : ℕ) (ha : a = 0) (c : Dev nD) :
    (Pipeline.launchCred (fun d => ∑ k ∈ (Finset.univ : Finset (Fin 16)).filter (fun k => a ≤ k.val), tallyAt (xcell (f d) j k) () N) c : sProp 𝕄)
      ⊢ bigSep Finset.univ fun k : Fin 16 => cred (tallyAt (xcell c j k) () N) := by
  subst ha
  rw [Finset.filter_true_of_mem (fun k _ => Nat.zero_le _), Pipeline.launchCred_sum]
  exact bigSep_mono fun k _ => Pipeline.launchCred_tallyAt (SemLoc.dma (xS j k)) f f hf hf () N c

omit [FloatOps F] in
theorem creds (c : Dev nD) : (Pipeline.launchCred O₀ c : sProp 𝕄) ⊢ creds0 c := by
  have e : (Pipeline.launchCred O₀ c : sProp 𝕄)
      = iprop(((Pipeline.launchCred (fun d => owe1 d 0) c ∗ Pipeline.launchCred (fun d => owe2 d 0) c)
          ∗ Pipeline.launchCred (fun d => tallyAt (barCell (py d)) () 1) c) ∗ Pipeline.launchCred (fun d => tallyAt (barCell (px d)) () 1) c) := by
    rw [← Pipeline.launchCred_add, ← Pipeline.launchCred_add, ← Pipeline.launchCred_add]; rfl
  rw [e]; unfold creds0
  iintro ⟨⟨⟨H1, H2⟩, HY⟩, HX⟩
  isplitl [HX HY]
  · iapply (cred_two (F := F) (barCell c))
    isplitl [HX]
    · iapply (Pipeline.launchCred_tallyAt (SemLoc.reg barS) px px px_px px_px () 1 c); iexact HX
    · iapply (Pipeline.launchCred_tallyAt (SemLoc.reg barS) py py py_py py_py () 1 c); iexact HY
  isplitl [H1]
  · iapply (launch_hop (F := F) px px_px 1 0 rfl c); iexact H1
  · iapply (launch_hop (F := F) py py_py 3 0 rfl c); iexact H2

/-- info: 'Cert.KernelIdeal.A2A.hu₀' depends on axioms: [propext, Classical.choice, Quot.sound] -/
#guard_msgs in #print axioms hu₀
/-- info: 'Cert.KernelIdeal.A2A.glob' depends on axioms: [propext, Classical.choice, Quot.sound] -/
#guard_msgs in #print axioms glob
/-- info: 'Cert.KernelIdeal.A2A.creds' depends on axioms: [propext, Classical.choice, Quot.sound] -/
#guard_msgs in #print axioms creds
/-- info: 'Cert.KernelIdeal.A2A.ownSemFacts' depends on axioms: [propext, Classical.choice, Quot.sound] -/
#guard_msgs in #print axioms ownSemFacts
/-- info: 'Cert.KernelIdeal.A2A.ownSems0_of' depends on axioms: [propext, Classical.choice, Quot.sound] -/
#guard_msgs in #print axioms ownSems0_of

end Cert.KernelIdeal.A2A
end
-- ==== Proof.KernelIdealLevels.lean ====
import proofs.«900019_g7700000000000020_dist_a2a_v7x_xy2x2_x_m4096_n1024_f32_1_alg».proof.Proof.KernelIdealProto
import Idealize.ShloMosaic.Lib.Pipeline.Launch
import Idealize.ShloMosaic.Lib.Rounds

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem filter_peel (a : Fin 16) :
    (Finset.univ : Finset (Fin 16)).filter (fun k => a.val ≤ k.val)
      = insert a ((Finset.univ : Finset (Fin 16)).filter (fun k => a.val + 1 ≤ k.val)) := by
  ext k
  simp only [Finset.mem_filter, Finset.mem_univ, true_and, Finset.mem_insert]
  constructor
  · intro h
    by_cases hk : k = a
    · exact Or.inl hk
    · have hne : k.val ≠ a.val := fun e => hk (Fin.ext e)
      exact Or.inr (by omega)
  · rintro (rfl | h)
    · exact le_refl _
    · omega

theorem not_mem_peel (a : Fin 16) : a ∉ (Finset.univ : Finset (Fin 16)).filter (fun k => a.val + 1 ≤ k.val) := by
  simp only [Finset.mem_filter, Finset.mem_univ, true_and]; omega

theorem filter_done : (Finset.univ : Finset (Fin 16)).filter (fun k => 16 ≤ k.val) = ∅ :=
  Finset.filter_false_of_mem fun k _ => by have := k.isLt; omega

theorem owe1_peel (c : Dev nD) (a : Fin 16) : owe1 c a.val = owe1 c (a.val + 1) + tallyAt (xcell (px c) 1 a) () N := by
  unfold owe1
  rw [filter_peel a, Finset.sum_insert (not_mem_peel a), add_comm]

theorem owe2_peel (c : Dev nD) (a : Fin 16) : owe2 c a.val = owe2 c (a.val + 1) + tallyAt (xcell (py c) 3 a) () N := by
  unfold owe2
  rw [filter_peel a, Finset.sum_insert (not_mem_peel a), add_comm]

theorem owe1_done (c : Dev nD) : owe1 c 16 = 0 := by
  unfold owe1; rw [filter_done, Finset.sum_empty]

theorem owe2_done (c : Dev nD) : owe2 c 16 = 0 := by
  unfold owe2; rw [filter_done, Finset.sum_empty]

theorem tallyAt_pos {g₀ g : GSem nD τ sig} {u : Unit} {n : ℕ} (h : 0 < tallyAt g₀ () n g u) : g = g₀ := by
  rw [tallyAt_apply] at h
  by_contra hn
  rw [if_neg fun h' => hn h'.1] at h
  exact Nat.lt_irrefl 0 h

theorem owe1_pos {c : Dev nD} {a : ℕ} {g : GSem nD τ sig} {u : Unit} (h : 0 < owe1 c a g u) :
    ∃ k : Fin 16, a ≤ k.val ∧ g = xcell (px c) 1 k := by
  unfold owe1 at h
  obtain ⟨k, hk, hpos⟩ := Pipeline.sum_pos_exists h
  exact ⟨k, (Finset.mem_filter.mp hk).2, tallyAt_pos hpos⟩

theorem owe2_pos {c : Dev nD} {b : ℕ} {g : GSem nD τ sig} {u : Unit} (h : 0 < owe2 c b g u) :
    ∃ k : Fin 16, b ≤ k.val ∧ g = xcell (py c) 3 k := by
  unfold owe2 at h
  obtain ⟨k, hk, hpos⟩ := Pipeline.sum_pos_exists h
  exact ⟨k, (Finset.mem_filter.mp hk).2, tallyAt_pos hpos⟩

theorem owe_pos {c : Dev nD} {a b : ℕ} {g : GSem nD τ sig} {u : Unit} (h : 0 < (owe1 c a + owe2 c b) g u) :
    (∃ k : Fin 16, a ≤ k.val ∧ g = xcell (px c) 1 k) ∨ (∃ k : Fin 16, b ≤ k.val ∧ g = xcell (py c) 3 k) :=
  (Pipeline.add_pos_cases h).imp owe1_pos owe2_pos

theorem lv_x1 (d : Dev nD) (k : Fin 16) (u : Unit) : lv (xcell d 1 k) u = 2 := by
  have hk := k.isLt
  dsimp only [lv]
  exact if_pos ⟨by show 32 ≤ 16 + 16 * 1 + k.val; omega, by show 16 + 16 * 1 + k.val < 48; omega⟩

theorem lv_x3 (d : Dev nD) (k : Fin 16) (u : Unit) : lv (xcell d 3 k) u = 3 := by
  have hk := k.isLt
  dsimp only [lv]
  rw [if_neg (fun h => by have h2 : 16 + 16 * 3 + k.val < 48 := h.2; omega)]
  exact if_pos ⟨by show 64 ≤ 16 + 16 * 3 + k.val; omega, by show 16 + 16 * 3 + k.val < 80; omega⟩

omit [FloatOps F] in

theorem mayWait_low (c : Dev nD) (sm : SemLoc sig) (hsm : lv ((c : Thread nD τ), sm) () ≤ 1) (a b : ℕ) :
    (levAts L lv : sProp 𝕄) ⊢ MayWait (c : Thread nD τ) sm () (owe1 c a + owe2 c b) :=
  MayOwe.of_cut (L := L) (lev := lv) 1
    (fun p hp => by rw [Finset.mem_singleton.mp hp, L_tc]; exact Finset.mem_singleton_self _)
    (fun g u hg => by
      rcases owe_pos hg with ⟨k, _, rfl⟩ | ⟨k, _, rfl⟩ <;> (rw [L_tc]; exact Finset.mem_singleton_self _))
    (fun p hp => by rw [Finset.mem_singleton.mp hp]; exact hsm)
    (fun g u hg => by
      rcases owe_pos hg with ⟨k, _, rfl⟩ | ⟨k, _, rfl⟩
      · rw [lv_x1]; decide
      · rw [lv_x3]; decide)

omit [FloatOps F] in

theorem mayWait_recv1 (c : Dev nD) (k : Fin 16) (b : ℕ) :
    (levAts L lv : sProp 𝕄) ⊢ MayWait (c : Thread nD τ) (.dma (xS 1 k)) () (owe1 c 16 + owe2 c b) := by
  rw [owe1_done, zero_add]
  exact MayOwe.of_cut (L := L) (lev := lv) 2
    (fun p hp => by rw [Finset.mem_singleton.mp hp, L_tc]; exact Finset.mem_singleton_self _)
    (fun g u hg => by obtain ⟨k', _, rfl⟩ := owe2_pos hg; rw [L_tc]; exact Finset.mem_singleton_self _)
    (fun p hp => by rw [Finset.mem_singleton.mp hp]; exact le_of_eq (lv_x1 c k ()))
    (fun g u hg => by obtain ⟨k', _, rfl⟩ := owe2_pos hg; rw [lv_x3]; decide)

end Cert.KernelIdeal.A2A
end
-- ==== Proof.KernelIdealSteps.lean ====
import proofs.«900019_g7700000000000020_dist_a2a_v7x_xy2x2_x_m4096_n1024_f32_1_alg».proof.Proof.KernelIdealProto
import proofs.«900019_g7700000000000020_dist_a2a_v7x_xy2x2_x_m4096_n1024_f32_1_alg».proof.Proof.KernelIdealLevels

noncomputable section

namespace Cert.KernelIdeal.A2A

open Cert.KernelIdeal Cert.KernelIdeal.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem inv_at (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem owes_peel1 (c : Dev nD) (k : Fin 16) (a a' : ℕ) (ha : a = k.val) (ha' : a' = a + 1) (b : ℕ) (W : Waits sig Unit) :
    (owes (c : Thread nD τ) (owe1 c a + owe2 c b) W : sProp 𝕄)
      = owes (c : Thread nD τ) ((owe1 c a' + owe2 c b) + tallyAt (xcell (px c) 1 k) () N) W := by
  subst ha; subst ha'; rw [owe1_peel c k, add_right_comm]
omit [FloatOps F] in
theorem owes_peel2 (c : Dev nD) (k : Fin 16) (b b' : ℕ) (hb : b = k.val) (hb' : b' = b + 1) (W : Waits sig Unit) :
    (owes (c : Thread nD τ) (owe1 c 16 + owe2 c b) W : sProp 𝕄)
      = owes (c : Thread nD τ) ((owe1 c 16 + owe2 c b') + tallyAt (xcell (py c) 3 k) () N) W := by
  subst hb; subst hb'; rw [owe2_peel c k, add_assoc]
omit [FloatOps F] in
theorem owes_done (c : Dev nD) (W : Waits sig Unit) :
    (owes (c : Thread nD τ) (owe1 c 16 + owe2 c 16) W : sProp 𝕄) = owes (c : Thread nD τ) 0 W := by
  rw [owe1_done, owe2_done, add_zero]

omit [FloatOps F] in
theorem pts_halve {sp : Space} {s : Shape} (M : Memref sig .tc sp s .f32) (c : Dev nD) (f : Buf (Elt F) (M.view.loc (c : Thread nD τ))) :
    (pts M c fullShare f : sProp 𝕄) ⊣⊢ iprop(pts M c hL f ∗ pts M c hR f) :=
  BI.Region.is_share (PosShare.mem_left_op_right fullShare)

omit [FloatOps F] in
theorem mayWait_zero (c : Dev nD) (sm : SemLoc sig) : (levAts L lv : sProp 𝕄) ⊢ MayWait (c : Thread nD τ) sm () 0 := by
  rw [MayWait_zero]; iintro #H; iempintro

/-- The four waits a chunk meets, and the clause that says what each consumes. -/
abbrev w1s (k : Fin 16) : TpuEff nD τ sig (Elt F) Λ₀ .tc PUnit := .waitDma2 (xS 0 k) (r1M k) (vsM k) (View.wordExact_bits rfl) (View.wordExact_bits rfl)
abbrev w1r (k : Fin 16) : TpuEff nD τ sig (Elt F) Λ₀ .tc PUnit := .waitDma2 (xS 1 k) (vsM k) (r1M k) (View.wordExact_bits rfl) (View.wordExact_bits rfl)
abbrev w2s (k : Fin 16) : TpuEff nD τ sig (Elt F) Λ₀ .tc PUnit := .waitDma2 (xS 2 k) (r2M k) (r1M k) (View.wordExact_bits rfl) (View.wordExact_bits rfl)
abbrev w2r (k : Fin 16) : TpuEff nD τ sig (Elt F) Λ₀ .tc PUnit := .waitDma2 (xS 3 k) (r1M k) (r2M k) (View.wordExact_bits rfl) (View.wordExact_bits rfl)

section Steps
variable (K : Dev nD × CIx → ℕ)

theorem with_inv (ck : Dev nD × CIx) (P : sProp 𝕄) : iprop(records m K ∗ P) ⊢ iprop(cellInv ER (sched m) (K ck) (kcell ck) ∗ P) := by
  unfold records; iintro ⟨⟨#HI, #HR⟩, HP⟩
  isplitr; · iapply (inv_at m K ck); iexact HI
  iexact HP

/-- What a send rule wants of the two cells it pays, drawn from the records beside the buffers, the debt and the tokens. -/
theorem send_pre (ck1 ck2 : Dev nD × CIx) (A B C T1 T2 : sProp 𝕄) :
    iprop(records m K ∗ A ∗ B ∗ C ∗ T1 ∗ T2)
      ⊢ iprop(cellInv ER (sched m) (K ck1) (kcell ck1) ∗ cellInv ER (sched m) (K ck2) (kcell ck2) ∗ A ∗ B ∗ C
          ∗ T1 ∗ reached ER (kcell ck1) 0 ∗ T2 ∗ reached ER (kcell ck2) 0) := by
  unfold records
  iintro ⟨⟨#HI, #HR⟩, HA, HB, HC, H1, H2⟩
  isplitr; · iapply (inv_at m K ck1); iexact HI
  isplitr; · iapply (inv_at m K ck2); iexact HI
  isplitl [HA]; · iexact HA
  isplitl [HB]; · iexact HB
  isplitl [HC]; · iexact HC
  isplitl [H1]; · iexact H1
  isplitr; · iapply (reached_at (F := F) ck1); iexact HR
  isplitl [H2]; · iexact H2
  iapply (reached_at (F := F) ck2); iexact HR

theorem sig_pre (ck : Dev nD × CIx) (A T R : sProp 𝕄) :
    iprop(records m K ∗ A ∗ T ∗ R) ⊢ iprop(cellInv ER (sched m) (K ck) (kcell ck) ∗ A ∗ T ∗ R ∗ reached ER (kcell ck) 0) := by
  unfold records
  iintro ⟨⟨#HI, #HR⟩, HA, HT, HP⟩
  isplitr; · iapply (inv_at m K ck); iexact HI
  isplitl [HA]; · iexact HA
  isplitl [HT]; · iexact HT
  isplitl [HP]; · iexact HP
  iapply (reached_at (F := F) ck); iexact HR

theorem wp_sigX (c n : Dev nD) (hn : n = px c) {α : Type} {Q : α → sProp 𝕄} {kk : PUnit → Prog (TpuEff nD τ sig (Elt F) Λ₀ .tc) α}
    (O : CellTallies nD τ sig Unit) (W : Waits sig Unit) :
    iprop(records m K ∗ owes (c : Thread nD τ) (O + tallyAt (barCell (px c)) () 1) W ∗ dutyTok ER (barCell (px c)) 0 false
        ∗ (bigSep Finset.univ fun k : Fin 16 => iprop(∃ f, pts (r1M k) c fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS 1) kk) Q) := by
  subst hn
  refine (sig_pre m K (px c, none) _ _ _).trans ((sep_mono_right (sep_mono_right (sep_mono_right (sep_mono_left ?_)))).trans
    (Rounds.wp_signal 𝒱₀ ER (sched m) (c : Thread nD τ) none (dst := ((px c : Dev nD) : Thread nD τ)) (κ := K (px c, none))
      (d := false) (by rw [duties_bar]; exact Finset.mem_univ _) (amount_bar m (px c) false) () O rfl))
  rw [payload_bar_false]; unfold barPayX; rw [px_px]

theorem wp_sigY (c n : Dev nD) (hn : n = py c) {α : Type} {Q : α → sProp 𝕄} {kk : PUnit → Prog (TpuEff nD τ sig (Elt F) Λ₀ .tc) α}
    (O : CellTallies nD τ sig Unit) (W : Waits sig Unit) :
    iprop(records m K ∗ owes (c : Thread nD τ) (O + tallyAt (barCell (py c)) () 1) W ∗ dutyTok ER (barCell (py c)) 0 true
        ∗ (bigSep Finset.univ fun k : Fin 16 => iprop(∃ f, pts (r2M k) c fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS 1) kk) Q) := by
  subst hn
  refine (sig_pre m K (py c, none) _ _ _).trans ((sep_mono_right (sep_mono_right (sep_mono_right (sep_mono_left ?_)))).trans
    (Rounds.wp_signal 𝒱₀ ER (sched m) (c : Thread nD τ) none (dst := ((py c : Dev nD) : Thread nD τ)) (κ := K (py c, none))
      (d := true) (by rw [duties_bar]; exact Finset.mem_univ _) (amount_bar m (py c) true) () O rfl))
  rw [payload_bar_true]; unfold barPayY; rw [py_py]

theorem wp_p1 (c n : Dev nD) (hn : n = px c) (k : Fin 16)
    (src : Memref sig .tc .vmem S128x1024 .f32) (hs : src = vsM k)
    (dst : Memref sig (Dev.tc n : Thread nD τ).2.kind .vmem S128x1024 .f32) (hd : dst = r1M k)
    (sS sR : DmaSem sig) (hsS : sS = xS 0 k) (hsR : sR = xS 1 k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (fs : Buf (Elt F) ((vsM k).view.loc (c : Thread nD τ))) (fd : Buf (Elt F) ((r1M k).view.loc ((px c : Dev nD) : Thread nD τ)))
    (hland : ∀ i ∈ (r1M k).view.set, ((r1M k).view.write (Elt F) fd ((vsM k).view.read (Elt F) fs) Finset.univ) i = recv1F (xsOf m) (px c) i)
    (O : CellTallies nD τ sig Unit) (W : Waits sig Unit) :
    iprop(records m K ∗ pts (vsM k) c fullShare fs ∗ pts (r1M k) (px c) fullShare fd
        ∗ owes (c : Thread nD τ) (O + tallyAt (xcell (px c) 1 k) () N) W
        ∗ dutyTok ER (xcell c 0 k) 0 false ∗ dutyTok ER (xcell (px c) 1 k) 0 false)
      ⊢ iprop(((cred (tallyAt (xcell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn; subst hs; subst hd; subst hsS; subst hsR
  refine BI.Entails.trans ?_ (Rounds.wp_send_pointsTo 𝒱₀ ER (sched m) (c : Thread nD τ) none (κ₁ := K (c, some (0, k))) (κ₂ := K (px c, some (1, k)))
    (r₁ := 0) (r₂ := 0) (d₁ := false) (d₂ := false) (fd := fd)
    (by rw [duties_x]; exact Finset.mem_singleton_self _) (by rw [duties_x]; exact Finset.mem_singleton_self _)
    () () N rfl (amount_x m c 0 k false) (amount_x m (px c) 1 k false) O rfl (W := W)
    (by rw [payload_x]; exact BI.BIClass.exists_intro fs)
    (by rw [payload_x]; exact Entails.of_eq (BI.Region.is_congr hland)))
  exact send_pre m K (c, some (0, k)) (px c, some (1, k)) _ _ _ _ _

theorem wp_p2 (c n : Dev nD) (hn : n = py c) (k : Fin 16)
    (src : Memref sig .tc .vmem S128x1024 .f32) (hs : src = r1M k)
    (dst : Memref sig (Dev.tc n : Thread nD τ).2.kind .vmem S128x1024 .f32) (hd : dst = r2M k)
    (sS sR : DmaSem sig) (hsS : sS = xS 2 k) (hsR : sR = xS 3 k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (fd : Buf (Elt F) ((r2M k).view.loc ((py c : Dev nD) : Thread nD τ)))
    (hland : ∀ i ∈ (r2M k).view.set, ((r2M k).view.write (Elt F) fd ((r1M k).view.read (Elt F) (recv1F (xsOf m) c)) Finset.univ) i = recv2F (xsOf m) (py c) i)
    (O : CellTallies nD τ sig Unit) (W : Waits sig Unit) :
    iprop(records m K ∗ pts (r1M k) c hL (recv1F (xsOf m) c) ∗ pts (r2M k) (py c) fullShare fd
        ∗ owes (c : Thread nD τ) (O + tallyAt (xcell (py c) 3 k) () N) W
        ∗ dutyTok ER (xcell c 2 k) 0 false ∗ dutyTok ER (xcell (py c) 3 k) 0 false)
      ⊢ iprop(((cred (tallyAt (xcell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn; subst hs; subst hd; subst hsS; subst hsR
  refine BI.Entails.trans ?_ (Rounds.wp_send_pointsTo 𝒱₀ ER (sched m) (c : Thread nD τ) none (κ₁ := K (c, some (2, k))) (κ₂ := K (py c, some (3, k)))
    (r₁ := 0) (r₂ := 0) (d₁ := false) (d₂ := false) (fd := fd)
    (by rw [duties_x]; exact Finset.mem_singleton_self _) (by rw [duties_x]; exact Finset.mem_singleton_self _)
    () () N rfl (amount_x m c 2 k false) (amount_x m (py c) 3 k false) O rfl (W := W)
    (by rw [payload_x]; exact BI.Entails.refl _)
    (by rw [payload_x]; exact Entails.of_eq (BI.Region.is_congr hland)))
  exact send_pre m K (c, some (2, k)) (py c, some (3, k)) _ _ _ _ _

theorem wp_barwait (c : Dev nD) {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 2 Kk)
    {α : Type} {Q : α → sProp 𝕄} {kk : PUnit → Prog (TpuEff nD τ sig (Elt F) Λ₀ .tc) α} (a b : ℕ) (W : Waits sig Unit) :
    iprop(records m K ∗ levAts L lv ∗ cred (tallyAt (barCell c) () 2) ∗ owes (c : Thread nD τ) (owe1 c a + owe2 c b) W ∗ atPos ER (barCell c) 0 ∅ 0)
      ⊢ iprop(((owes (c : Thread nD τ) (owe1 c a + owe2 c b) (insert (SemLoc.reg barS, ()) W) ∗ atPos ER (barCell c) 1 ∅ 0 ∗ barPayX c ∗ barPayY c)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold records
  iintro ⟨⟨#HI, #HR⟩, #Hlev, Hc, HO, Hat⟩ Hk
  iapply (Rounds.wp_wait_rest_token 𝒱₀ ER (sched m) (c : Thread nD τ) none (κ := K (c, none)) hw (Set.mem_univ _) ()
      (O := owe1 c a + owe2 c b) (W := W) (R := 0) (m := 0) (T := ∅) (by rw [expect_bar])) $$ [Hc HO Hat]
  · isplitr; · iapply (inv_at m K (c, none)); iexact HI
    isplitl [Hc]; · iexact Hc
    isplitl [HO]; · iexact HO
    isplitr; · iapply (mayWait_low c (.reg barS) (Nat.le_refl 1) a b); iexact Hlev
    iexact Hat
  iintro ⟨HO, Hat, -, Hpay⟩
  ihave Hp := (Entails.of_eq (rest_bar m c)) $$ Hpay
  icases Hp with ⟨HpX, HpY⟩
  iapply Hk
  isplitl [HO]; · iexact HO
  isplitl [Hat]; · iexact Hat
  isplitl [HpX] <;> iassumption

/-- Waiting on one of the device's own hop cells, where the levels allow it at the present debt, yields what the cell's payer handed over. -/
theorem wp_xwait (c : Dev nD) (j : Fin 4) (k : Fin 16) {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (xS j k)) N Kk)
    {α : Type} {Q : α → sProp 𝕄} {kk : PUnit → Prog (TpuEff nD τ sig (Elt F) Λ₀ .tc) α} (O : CellTallies nD τ sig Unit) (W : Waits sig Unit)
    (hmw : (levAts L lv : sProp 𝕄) ⊢ MayWait (c : Thread nD τ) (.dma (xS j k)) () O) :
    iprop(records m K ∗ levAts L lv ∗ cred (tallyAt (xcell c j k) () N) ∗ owes (c : Thread nD τ) O W ∗ atPos ER (xcell c j k) 0 ∅ 0)
      ⊢ iprop(((owes (c : Thread nD τ) O (insert (SemLoc.dma (xS j k), ()) W) ∗ atPos ER (xcell c j k) 1 ∅ 0 ∗ xPay m c j k)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold records
  iintro ⟨⟨#HI, #HR⟩, #Hlev, Hc, HO, Hat⟩ Hk
  iapply (Rounds.wp_wait_rest_token 𝒱₀ ER (sched m) (c : Thread nD τ) none (κ := K (c, some (j, k))) hw (Set.mem_univ _) ()
      (O := O) (W := W) (R := 0) (m := 0) (T := ∅) (by rw [Nat.zero_add, expect_x])) $$ [Hc HO Hat]
  · isplitr; · iapply (inv_at m K (c, some (j, k))); iexact HI
    isplitl [Hc]; · iexact Hc
    isplitl [HO]; · iexact HO
    isplitr; · iapply hmw; iexact Hlev
    iexact Hat
  iintro ⟨HO, Hat, -, Hpay⟩
  ihave Hp := (Entails.of_eq (rest_x m c j k)) $$ Hpay
  iapply Hk
  isplitl [HO]; · iexact HO
  isplitl [Hat] <;> iassumption

theorem wp_wait_p1s (c : Dev nD) (k : Fin 16) (hN : (vsM k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 0 k) () N) ∗ owes (c : Thread nD τ) 0 W ∗ atPos ER (xcell c 0 k) 0 ∅ 0)
      ⊢ iprop(((owes (c : Thread nD τ) 0 (insert (SemLoc.dma (xS 0 k), ()) W) ∗ atPos ER (xcell c 0 k) 1 ∅ 0 ∗ (∃ f, pts (vsM k) c fullShare f))
            -∗ wp frame (wpE (defs₀ (F := F)) 𝒱₀ (c : Thread nD τ) none) Set.univ (kk ⟨⟩) Q)
          -∗ wp frame (wpE (defs₀ (F := F)) 𝒱₀ (c : Thread nD τ) none) Set.univ (.op (w1s k) kk) Q) :=
  wp_xwait m K c 0 k (fun Kk => hN ▸ wpE_waitDma2_eq 𝒱₀ (c : Thread nD τ) none Set.univ Kk) 0 W (mayWait_zero c _)
theorem wp_wait_p1r (c : Dev nD) (k : Fin 16) (hN : (r1M k).view.dmaCredit = N)
    {α : Type} {Q : α → sProp 𝕄} {kk : PUnit → Prog (TpuEff nD τ sig (Elt F) Λ₀ .tc) α} (b : ℕ) (W : Waits sig Unit) :
    iprop(records m K ∗ levAts L lv ∗ cred (tallyAt (xcell c 1 k) () N) ∗ owes (c : Thread nD τ) (owe1 c 16 + owe2 c b) W ∗ atPos ER (xcell c 1 k) 0 ∅ 0)
      ⊢ iprop(((owes (c : Thread nD τ) (owe1 c 16 + owe2 c b) (insert (SemLoc.dma (xS 1 k), ()) W) ∗ atPos ER (xcell c 1 k) 1 ∅ 0 ∗ pts (r1M k) c fullShare (recv1F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w1r k) kk) Q) :=
  wp_xwait m K c 1 k (fun Kk => hN ▸ wpE_waitDma2_eq 𝒱₀ (c : Thread nD τ) none Set.univ Kk) (owe1 c 16 + owe2 c b) W (mayWait_recv1 c k b)
theorem wp_wait_p2s (c : Dev nD) (k : Fin 16) (hN : (r1M k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 2 k) () N) ∗ owes (c : Thread nD τ) 0 W ∗ atPos ER (xcell c 2 k) 0 ∅ 0)
      ⊢ iprop(((owes (c : Thread nD τ) 0 (insert (SemLoc.dma (xS 2 k), ()) W) ∗ atPos ER (xcell c 2 k) 1 ∅ 0 ∗ pts (r1M k) c hL (recv1F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w2s k) kk) Q) :=
  wp_xwait m K c 2 k (fun Kk => hN ▸ wpE_waitDma2_eq 𝒱₀ (c : Thread nD τ) none Set.univ Kk) 0 W (mayWait_zero c _)
theorem wp_wait_p2r (c : Dev nD) (k : Fin 16) (hN : (r2M k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 3 k) () N) ∗ owes (c : Thread nD τ) 0 W ∗ atPos ER (xcell c 3 k) 0 ∅ 0)
      ⊢ iprop(((owes (c : Thread nD τ) 0 (insert (SemLoc.dma (xS 3 k), ()) W) ∗ atPos ER (xcell c 3 k) 1 ∅ 0 ∗ pts (r2M k) c fullShare (recv2F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w2r k) kk) Q) :=
  wp_xwait m K c 3 k (fun Kk => hN ▸ wpE_waitDma2_eq 𝒱₀ (c : Thread nD τ) none Set.univ Kk) 0 W (mayWait_zero c _)
/-- Once its single round has been consumed a hop cell is closed, which returns its semaphore at zero. -/
theorem xclose (c : Dev nD) (j : Fin 4) (k : Fin 16) :
    iprop(records m K ∗ atPos ER (xcell c j k) 1 ∅ 0) ⊢ (|={Set.univ}=> semVal (xcell c j k) 0 : sProp 𝕄) :=
  (with_inv m K (c, some (j, k)) _).trans
    (Rounds.cell_close ER (sched m) (Set.mem_univ (K (c, some (j, k)))) (fun h => h) (R := 0 + 1) (duties_later m (xcell c j k)))

end Steps

end Cert.KernelIdeal.A2A
end
-- ==== Proof.KernelIdealLanding.lean ====
import proofs.«900019_g7700000000000020_dist_a2a_v7x_xy2x2_x_m4096_n1024_f32_1_alg».proof.Proof.KernelIdealProto
import Idealize.ShloMosaic.Lib.Pipeline.Value
import Idealize.ShloMosaic.Lib.ValueLayout
import Idealize.ShloMosaic.Lib.ValueIdx
import Idealize.ShloMosaic.Lib.Writes

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem writes_whole_emb {sig' : RefSig} {κ : Kind} {sp : Space} {s : Shape} {e : EltTy} {Val : EltTy → Type}
    (v : View sig' κ sp s e) (f : v.ty.Contents Val) (w : s.Idx → Val e) (y : s.Idx) :
    v.writes Val f [⟨Rect.whole s, w⟩] (v.emb y) = _root_.cast (congrArg Val v.elt_eq.symm) (w y) := by
  rw [← View.write_univ_eq_writes_whole v f [] w, View.writes_nil, View.write_emb_of_mem _ _ (Finset.mem_univ y)]

theorem idx2_ext {d : Fin 2 → Nat} (i j : (⟨2, d⟩ : Shape).Idx) (h0 : (i 0).val = (j 0).val) (h1 : (i 1).val = (j 1).val) : i = j :=
  funext (Fin.forall_fin_two.mpr ⟨Fin.ext h0, Fin.ext h1⟩)

section Coordinates
variable (c : Dev nD) (k : Fin 16) (y : S128x1024.Idx) (k' : Fin 8) (z : S512x1024.Idx)

theorem vsM_row : (((vsM k).view.emb y) 0).val = 128 * k.val + (y 0).val := by
  show 128 * k.val + 1 * (y 0).val = _; omega
theorem vsM_col : (((vsM k).view.emb y) 1).val = (y 1).val := by
  show 0 + 1 * (y 1).val = _; omega
theorem r1M_row : (((r1M k).view.emb y) 0).val = 128 * k.val + (y 0).val := by
  show 128 * k.val + 1 * (y 0).val = _; omega
theorem r1M_col : (((r1M k).view.emb y) 1).val = (y 1).val := by
  show 0 + 1 * (y 1).val = _; omega
theorem r2M_row : (((r2M k).view.emb y) 0).val = 128 * k.val + (y 0).val := by
  show 128 * k.val + 1 * (y 0).val = _; omega
theorem r2M_col : (((r2M k).view.emb y) 1).val = (y 1).val := by
  show 0 + 1 * (y 1).val = _; omega

theorem xsM_row : (((xsM c k).view.emb y) 0).val = 2048 * (c.val % 2) + 128 * k.val + (y 0).val := by
  show (k0_off1 c (BitVec.ofNat 32 (128 * k.val))) 0 + 1 * (y 0).val = _
  rw [k0_off1_eq c k]
  show (2048 * (c.val % 2) + 128 * k.val) + 1 * (y 0).val = _; omega
theorem xsM_col : (((xsM c k).view.emb y) 1).val = (1024 - 1024 * (c.val / 2)) + (y 1).val := by
  show (k0_off1 c (BitVec.ofNat 32 (128 * k.val))) 1 + 1 * (y 1).val = _
  rw [k0_off1_eq c k]
  show (1024 - 1024 * (c.val / 2)) + 1 * (y 1).val = _; omega

theorem o1M_row : (((o1M c k).view.emb y) 0).val = (2048 * (c.val % 2) + 128 * k.val + 4096) - 4096 * (c.val / 2) + (y 0).val := by
  show (k0_off10 c (BitVec.ofNat 32 (128 * k.val))) 0 + 1 * (y 0).val = _
  rw [k0_off10_eq c k]
  show ((2048 * (c.val % 2) + 128 * k.val + 4096) - 4096 * (c.val / 2)) + 1 * (y 0).val = _; omega
theorem o1M_col : (((o1M c k).view.emb y) 1).val = (y 1).val := by
  show (k0_off10 c (BitVec.ofNat 32 (128 * k.val))) 1 + 1 * (y 1).val = _
  rw [k0_off10_eq c k]
  show 0 + 1 * (y 1).val = _; omega

theorem o2M_row : (((o2M c k).view.emb y) 0).val = (128 * k.val + 6144) - (4096 * (c.val / 2) + 2048 * (c.val % 2)) + (y 0).val := by
  show (k0_off12 c (BitVec.ofNat 32 (128 * k.val))) 0 + 1 * (y 0).val = _
  rw [k0_off12_eq c k]
  show ((128 * k.val + 6144) - (4096 * (c.val / 2) + 2048 * (c.val % 2))) + 1 * (y 0).val = _; omega
theorem o2M_col : (((o2M c k).view.emb y) 1).val = (y 1).val := by
  show (k0_off12 c (BitVec.ofNat 32 (128 * k.val))) 1 + 1 * (y 1).val = _
  rw [k0_off12_eq c k]
  show 0 + 1 * (y 1).val = _; omega

theorem olM_row : (((olM c k').view.emb z) 0).val = 4096 * (c.val / 2) + 512 * k'.val + (z 0).val := by
  show (k0_off11 c (BitVec.ofNat 32 (512 * k'.val))) 0 + 1 * (z 0).val = _
  rw [k0_off11_eq c k']
  show (4096 * (c.val / 2) + 512 * k'.val) + 1 * (z 0).val = _; omega
theorem olM_col : (((olM c k').view.emb z) 1).val = (z 1).val := by
  show (k0_off11 c (BitVec.ofNat 32 (512 * k'.val))) 1 + 1 * (z 1).val = _
  rw [k0_off11_eq c k']
  show 0 + 1 * (z 1).val = _; omega

end Coordinates

section Spec
variable {α : Type} (xs : Fin 4 → Cert.A2ASpec.XS.Idx → α) (c : Fin 4)

theorem sendF_of (x : Cert.A2ASpec.XS.Idx) (j : Cert.A2ASpec.VS.Idx)
    (h0 : (x 0).val = 2048 * (c.val % 2) + (j 0).val) (h1 : (x 1).val = (1024 - 1024 * (c.val / 2)) + (j 1).val) :
    xs c x = sendF xs c j :=
  congrArg (xs c) (idx2_ext _ _ h0 h1)

theorem stageF_of (x : Cert.A2ASpec.XS.Idx) (t : Cert.A2ASpec.TS.Idx)
    (h0 : (x 0).val = 512 * (t 0).val + (t 1).val) (h1 : (x 1).val = 1024 * (c.val / 2) + (t 2).val) :
    xs c x = stageF xs c t :=
  congrArg (xs c) (idx2_ext _ _ h0 h1)

theorem outF_hop1 (i : Cert.A2ASpec.OS.Idx) (j : Cert.A2ASpec.VS.Idx)
    (h0 : (i 0).val = (2048 * (c.val % 2) + (j 0).val + 4096) - 4096 * (c.val / 2)) (h1 : (i 1).val = (j 1).val) :
    outF xs c i = recv1F xs c j := by
  have hc := c.isLt
  have hj0 : (j 0).val < 2048 := (j 0).isLt
  have hpx : (px c).val = (c.val % 2 + 2) - 2 * (c.val / 2) := rfl
  have hn : ¬ ((i 0).val / 4096 = c.val / 2) := by omega
  have hp : ((i 0).val % 4096) / 2048 = c.val % 2 := by omega
  have hs : Cert.A2ASpec.srcDev c i = px c := by
    unfold Cert.A2ASpec.srcDev; rw [if_neg hn, if_pos hp]
  unfold outF recv1F sendF
  rw [hs]
  refine congrArg (xs (px c)) (idx2_ext _ _ ?_ ?_)
  · show (i 0).val % 4096 = 2048 * ((px c).val % 2) + (j 0).val
    omega
  · show 1024 * (c.val / 2) + (i 1).val = (1024 - 1024 * ((px c).val / 2)) + (j 1).val
    omega

theorem outF_hop2 (i : Cert.A2ASpec.OS.Idx) (j : Cert.A2ASpec.VS.Idx)
    (h0 : (i 0).val = ((j 0).val + 6144) - (4096 * (c.val / 2) + 2048 * (c.val % 2))) (h1 : (i 1).val = (j 1).val) :
    outF xs c i = recv2F xs c j := by
  have hc := c.isLt
  have hj0 : (j 0).val < 2048 := (j 0).isLt
  have hpy : (py c).val = (2 * (c.val / 2) + 1) - c.val % 2 := rfl
  have hpx : (px (py c)).val = ((py c).val % 2 + 2) - 2 * ((py c).val / 2) := rfl
  have hn : ¬ ((i 0).val / 4096 = c.val / 2) := by omega
  have hp : ¬ (((i 0).val % 4096) / 2048 = c.val % 2) := by omega
  have hs : Cert.A2ASpec.srcDev c i = px (py c) := by
    unfold Cert.A2ASpec.srcDev; rw [if_neg hn, if_neg hp]
  unfold outF recv2F recv1F sendF
  rw [hs]
  refine congrArg (xs (px (py c))) (idx2_ext _ _ ?_ ?_)
  · show (i 0).val % 4096 = 2048 * ((px (py c)).val % 2) + (j 0).val
    omega
  · show 1024 * (c.val / 2) + (i 1).val = (1024 - 1024 * ((px (py c)).val / 2)) + (j 1).val
    omega

theorem outF_local (i : Cert.A2ASpec.OS.Idx) (t : Cert.A2ASpec.TS.Idx)
    (h0 : (i 0).val = 4096 * (c.val / 2) + 512 * (t 0).val + (t 1).val) (h1 : (i 1).val = (t 2).val) :
    outF xs c i = stageF xs c t := by
  have hc := c.isLt
  have ht0 : (t 0).val < 8 := (t 0).isLt
  have ht1 : (t 1).val < 512 := (t 1).isLt
  have hp : (i 0).val / 4096 = c.val / 2 := by omega
  have hs : Cert.A2ASpec.srcDev c i = c := by
    unfold Cert.A2ASpec.srcDev; rw [if_pos hp]
  unfold outF stageF
  rw [hs]
  refine congrArg (xs c) (idx2_ext _ _ ?_ ?_)
  · show (i 0).val % 4096 = 512 * (t 0).val + (t 1).val
    omega
  · show 1024 * (c.val / 2) + (i 1).val = 1024 * (c.val / 2) + (t 2).val
    omega

end Spec

omit [FloatOps F] in

theorem stM_emb (k : Fin 8) (a : Fin 512) (b : Fin 1024) :
    (stM k).view.emb (ValueIdx.ix2 a b) = ValueIdx.ix3 k a b := by
  have e : (stM k).view.emb (ValueIdx.ix2 a b)
      = (Rect.unit (s := S8x512x1024) ![k.val, 0, 0] S1x512x1024.size (inb8 k)).emb
          (Shape.reshapeEquiv (squeezes_S1x512x1024_S512x1024).numel_eq (ValueIdx.ix2 a b)) := rfl
  rw [e, ValueIdx.reshapeEquiv_ix2_1ab]
  funext d; apply Fin.ext
  match d with
  | ⟨0, _⟩ => show k.val + 1 * 0 = k.val; omega
  | ⟨1, _⟩ => show 0 + 1 * a.val = a.val; omega
  | ⟨2, _⟩ => show 0 + 1 * b.val = b.val; omega

theorem stage_lands (c : Dev nD) (k : Fin 16) (f0) :
    ∀ i ∈ (vsM k).view.set, ((vsM k).view.writes (Elt F) f0 [⟨Rect.whole S128x1024, ReadAs.same.apply (View.read (Elt F) (xsM c k).view (m ((c : Thread nD τ).loc main_arg0)))⟩]) i = sendF (xsOf m) c i := by
  intro i hi
  obtain ⟨y, rfl⟩ := View.exists_emb_of_mem_set _ hi
  rw [writes_whole_emb]
  refine Eq.trans (b := xsOf m c ((xsM c k).view.emb y)) rfl ?_
  refine sendF_of (xsOf m) c _ _ ?_ ?_
  · rw [xsM_row, vsM_row]; omega
  · rw [xsM_col, vsM_col]

theorem hop1_lands (k : Fin 16) (c : Dev nD) (fd) (fs) (hfs : ∀ i ∈ (vsM k).view.set, fs i = sendF (xsOf m) c i) :
    ∀ i ∈ (r1M k).view.set, ((r1M k).view.write (Elt F) fd ((vsM k).view.read (Elt F) fs) Finset.univ) i = recv1F (xsOf m) (px c) i := by
  intro i hi
  obtain ⟨y, rfl⟩ := View.exists_emb_of_mem_set _ hi
  rw [View.write_emb_of_mem _ _ (Finset.mem_univ y), View.read_apply, hfs _ (View.emb_mem_set _ y)]
  unfold recv1F; rw [Cert.A2ASpec.px_px]
  rfl

theorem hop2_lands (k : Fin 16) (c : Dev nD) (fd) :
    ∀ i ∈ (r2M k).view.set, ((r2M k).view.write (Elt F) fd ((r1M k).view.read (Elt F) (recv1F (xsOf m) c)) Finset.univ) i = recv2F (xsOf m) (py c) i := by
  intro i hi
  obtain ⟨y, rfl⟩ := View.exists_emb_of_mem_set _ hi
  rw [View.write_emb_of_mem _ _ (Finset.mem_univ y), View.read_apply]
  unfold recv2F; rw [Cert.A2ASpec.py_py]
  rfl

theorem st1_lands (c : Dev nD) (k : Fin 16) (g0) :
    ∀ i ∈ (o1M c k).view.set, ((o1M c k).view.writes (Elt F) g0 [⟨Rect.whole S128x1024, ReadAs.same.apply (View.read (Elt F) (r1M k).view (recv1F (xsOf m) c))⟩]) i = outF (xsOf m) c i := by
  intro i hi
  obtain ⟨y, rfl⟩ := View.exists_emb_of_mem_set _ hi
  rw [writes_whole_emb]
  refine Eq.trans (b := recv1F (xsOf m) c ((r1M k).view.emb y)) rfl ?_
  refine (outF_hop1 (xsOf m) c _ _ ?_ ?_).symm
  · have hc : c.val < 4 := c.isLt
    rw [o1M_row, r1M_row]; omega
  · rw [o1M_col, r1M_col]

theorem st2_lands (c : Dev nD) (k : Fin 16) (g0) :
    ∀ i ∈ (o2M c k).view.set, ((o2M c k).view.writes (Elt F) g0 [⟨Rect.whole S128x1024, ReadAs.same.apply (View.read (Elt F) (r2M k).view (recv2F (xsOf m) c))⟩]) i = outF (xsOf m) c i := by
  intro i hi
  obtain ⟨y, rfl⟩ := View.exists_emb_of_mem_set _ hi
  rw [writes_whole_emb]
  refine Eq.trans (b := recv2F (xsOf m) c ((r2M k).view.emb y)) rfl ?_
  refine (outF_hop2 (xsOf m) c _ _ ?_ ?_).symm
  · have hc : c.val < 4 := c.isLt
    rw [o2M_row, r2M_row]; omega
  · rw [o2M_col, r2M_col]

theorem lcin_lands_of (c : Dev nD) (k : Fin 8) (f0) (off : Fin 2 → Nat) (inb : ∀ a, off a + S512x1024.size a ≤ S4096x2048.size a)
    (hoff : off = ![512 * k.val, 1024 * (c.val / 2)]) :
    ∀ i ∈ (stM k).view.set, ((stM k).view.writes (Elt F) f0 [⟨Rect.whole S512x1024, ReadAs.same.apply (View.read (Elt F)
      ((Memref.whole main_arg0).slice (Rect.unit (s := S4096x2048) off S512x1024.size inb) (fun _ => rfl)).view (m ((c : Thread nD τ).loc main_arg0)))⟩]) i
      = stageF (xsOf m) c i := by
  subst hoff
  intro i hi
  obtain ⟨z, rfl⟩ := View.exists_emb_of_mem_set _ hi
  obtain ⟨a, b, rfl⟩ : ∃ a b, z = ValueIdx.ix2 (n0 := 512) (n1 := 1024) a b := ⟨z 0, z 1, ValueIdx.eq_ix2 z⟩
  rw [writes_whole_emb, stM_emb]
  refine Eq.trans (b := xsOf m c ((Rect.unit (s := S4096x2048) ![512 * k.val, 1024 * (c.val / 2)] S512x1024.size inb).emb (ValueIdx.ix2 a b))) rfl ?_
  refine stageF_of (xsOf m) c _ _ ?_ ?_
  · show 512 * k.val + 1 * a.val = 512 * k.val + a.val; omega
  · show 1024 * (c.val / 2) + 1 * b.val = 1024 * (c.val / 2) + b.val; omega

theorem lcout_lands (c : Dev nD) (k : Fin 8) (g0) (fs) (hfs : ∀ i ∈ (stM k).view.set, fs i = stageF (xsOf m) c i) :
    ∀ i ∈ (olM c k).view.set, ((olM c k).view.writes (Elt F) g0 [⟨Rect.whole S512x1024, ReadAs.same.apply (View.read (Elt F) (stM k).view fs)⟩]) i = outF (xsOf m) c i := by
  intro i hi
  obtain ⟨z, rfl⟩ := View.exists_emb_of_mem_set _ hi
  obtain ⟨a, b, rfl⟩ : ∃ a b, z = ValueIdx.ix2 (n0 := 512) (n1 := 1024) a b := ⟨z 0, z 1, ValueIdx.eq_ix2 z⟩
  rw [writes_whole_emb]
  refine Eq.trans (b := fs ((stM k).view.emb (ValueIdx.ix2 a b))) rfl ?_
  rw [hfs _ (View.emb_mem_set _ _), stM_emb]
  refine (outF_local (xsOf m) c _ _ ?_ ?_).symm
  · rw [olM_row]
  · rw [olM_col]

def LcinAt (c : Dev nD) (k : Fin 8) (off : Fin 2 → Nat) (inb : ∀ a, off a + S512x1024.size a ≤ S4096x2048.size a) : Prop :=
  ∀ f0, ∀ i ∈ (stM k).view.set, ((stM k).view.writes (Elt F) f0 [⟨Rect.whole S512x1024, ReadAs.same.apply (View.read (Elt F)
      ((Memref.whole main_arg0).slice (Rect.unit (s := S4096x2048) off S512x1024.size inb) (fun _ => rfl)).view (m ((c : Thread nD τ).loc main_arg0)))⟩]) i
      = stageF (xsOf m) c i

def LcinLands (c : Dev nD) : Fin 8 → Prop
  | 0 => LcinAt m c 0 (k0_off2 c) (k0_off2_inb c)
  | 1 => LcinAt m c 1 (k0_off3 c) (k0_off3_inb c)
  | 2 => LcinAt m c 2 (k0_off4 c) (k0_off4_inb c)
  | 3 => LcinAt m c 3 (k0_off5 c) (k0_off5_inb c)
  | 4 => LcinAt m c 4 (k0_off6 c) (k0_off6_inb c)
  | 5 => LcinAt m c 5 (k0_off7 c) (k0_off7_inb c)
  | 6 => LcinAt m c 6 (k0_off8 c) (k0_off8_inb c)
  | 7 => LcinAt m c 7 (k0_off9 c) (k0_off9_inb c)

theorem lcin_lands (c : Dev nD) : ∀ k : Fin 8, LcinLands m c k
  | 0 => fun f0 => lcin_lands_of m c 0 f0 (k0_off2 c) (k0_off2_inb c) ((k0_off2_eq c).trans rfl)
  | 1 => fun f0 => lcin_lands_of m c 1 f0 (k0_off3 c) (k0_off3_inb c) ((k0_off3_eq c).trans rfl)
  | 2 => fun f0 => lcin_lands_of m c 2 f0 (k0_off4 c) (k0_off4_inb c) ((k0_off4_eq c).trans rfl)
  | 3 => fun f0 => lcin_lands_of m c 3 f0 (k0_off5 c) (k0_off5_inb c) ((k0_off5_eq c).trans rfl)
  | 4 => fun f0 => lcin_lands_of m c 4 f0 (k0_off6 c) (k0_off6_inb c) ((k0_off6_eq c).trans rfl)
  | 5 => fun f0 => lcin_lands_of m c 5 f0 (k0_off7 c) (k0_off7_inb c) ((k0_off7_eq c).trans rfl)
  | 6 => fun f0 => lcin_lands_of m c 6 f0 (k0_off8 c) (k0_off8_inb c) ((k0_off8_eq c).trans rfl)
  | 7 => fun f0 => lcin_lands_of m c 7 f0 (k0_off9 c) (k0_off9_inb c) ((k0_off9_eq c).trans rfl)

end Cert.KernelIdeal.A2A
end
-- ==== Proof.KernelIdealRegions.lean ====
import proofs.«900019_g7700000000000020_dist_a2a_v7x_xy2x2_x_m4096_n1024_f32_1_alg».proof.Proof.KernelIdealProto
import Idealize.ShloMosaic.Lib.Ring

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem chunk_congr {sp : Space} {s : Shape} (M : Memref sig .tc sp s .f32) (c : Dev nD) (q : PosShare TreeShare)
    (f g : Buf (Elt F) (M.view.loc (c : Thread nD τ))) (h : ∀ i ∈ M.view.set, f i = g i) :
    (pts M c q f : sProp 𝕄) = pts M c q g := pointsTo_congr h

abbrev rows16 (k : Fin 16) : Rect S2048x1024 := Rect.unit (s := S2048x1024) ![128 * k.val, 0] S128x1024.size (inb16 k)

theorem rows16_disjoint (k k' : Fin 16) (h : k ≠ k') : Disjoint (rows16 k).set (rows16 k').set :=
  Ring.lead_disjoint (s := S2048x1024) (0 : Fin 2) 128 (fun k : Fin 16 => ![128 * k.val, 0]) S128x1024.size inb16 (fun _ => rfl) rfl k k' h

theorem rows16_cover : (Finset.univ : Finset (Fin 16)).biUnion (fun k => (rows16 k).set) = Finset.univ :=
  Ring.lead_cover (s := S2048x1024) (0 : Fin 2) 128 (fun k : Fin 16 => ![128 * k.val, 0]) S128x1024.size inb16 (fun _ => rfl)
    (fun b a ha => by fin_cases a; · exact absurd rfl ha
                      · rfl)
    rfl
    (fun a ha => by fin_cases a; · exact absurd rfl ha
                    · rfl)
    rfl

theorem vs_set (k : Fin 16) : (vsM k).view.set = (rows16 k).set := View.set_slice_whole _ _
theorem r1_set (k : Fin 16) : (r1M k).view.set = (rows16 k).set := View.set_slice_whole _ _
theorem r2_set (k : Fin 16) : (r2M k).view.set = (rows16 k).set := View.set_slice_whole _ _

theorem vs_pts (k : Fin 16) (c : Dev nD) (q : PosShare TreeShare) (f : Buf (Elt F) ((c : Thread nD τ).loc cc0_scratch0)) :
    (pts (vsM k) c q f : sProp 𝕄) = (((c : Thread nD τ).loc cc0_scratch0) ↦[(rows16 k).set]{q} f : sProp 𝕄) := by
  show (((vsM k).view.loc (c : Thread nD τ)) ↦[(vsM k).view.set]{q} f : sProp 𝕄) = _
  rw [vs_set]
theorem r1_pts (k : Fin 16) (c : Dev nD) (q : PosShare TreeShare) (f : Buf (Elt F) ((c : Thread nD τ).loc cc0_scratch1)) :
    (pts (r1M k) c q f : sProp 𝕄) = (((c : Thread nD τ).loc cc0_scratch1) ↦[(rows16 k).set]{q} f : sProp 𝕄) := by
  show (((r1M k).view.loc (c : Thread nD τ)) ↦[(r1M k).view.set]{q} f : sProp 𝕄) = _
  rw [r1_set]
theorem r2_pts (k : Fin 16) (c : Dev nD) (q : PosShare TreeShare) (f : Buf (Elt F) ((c : Thread nD τ).loc cc0_scratch2)) :
    (pts (r2M k) c q f : sProp 𝕄) = (((c : Thread nD τ).loc cc0_scratch2) ↦[(rows16 k).set]{q} f : sProp 𝕄) := by
  show (((r2M k).view.loc (c : Thread nD τ)) ↦[(r2M k).view.set]{q} f : sProp 𝕄) = _
  rw [r2_set]

theorem vs_chunks (c : Dev nD) (f : Buf (Elt F) ((c : Thread nD τ).loc cc0_scratch0)) :
    ((((c : Thread nD τ).loc cc0_scratch0) ↦{fullShare} f : sProp 𝕄)) ⊣⊢ bigSep Finset.univ fun k : Fin 16 => pts (vsM k) c fullShare f :=
  .of_eq ((Ring.pointsTo_blocks (ℓ := (c : Thread nD τ).loc cc0_scratch0) (fun k : Fin 16 => (rows16 k).set) rows16_disjoint rows16_cover f).trans
    (bigSep_congr fun k _ => (vs_pts k c fullShare f).symm))

theorem r1_chunks (c : Dev nD) (f : Buf (Elt F) ((c : Thread nD τ).loc cc0_scratch1)) :
    ((((c : Thread nD τ).loc cc0_scratch1) ↦{fullShare} f : sProp 𝕄)) ⊣⊢ bigSep Finset.univ fun k : Fin 16 => pts (r1M k) c fullShare f :=
  .of_eq ((Ring.pointsTo_blocks (ℓ := (c : Thread nD τ).loc cc0_scratch1) (fun k : Fin 16 => (rows16 k).set) rows16_disjoint rows16_cover f).trans
    (bigSep_congr fun k _ => (r1_pts k c fullShare f).symm))

theorem r2_chunks (c : Dev nD) (f : Buf (Elt F) ((c : Thread nD τ).loc cc0_scratch2)) :
    ((((c : Thread nD τ).loc cc0_scratch2) ↦{fullShare} f : sProp 𝕄)) ⊣⊢ bigSep Finset.univ fun k : Fin 16 => pts (r2M k) c fullShare f :=
  .of_eq ((Ring.pointsTo_blocks (ℓ := (c : Thread nD τ).loc cc0_scratch2) (fun k : Fin 16 => (rows16 k).set) rows16_disjoint rows16_cover f).trans
    (bigSep_congr fun k _ => (r2_pts k c fullShare f).symm))

abbrev slab8 (k : Fin 8) : Rect S8x512x1024 := Rect.unit (s := S8x512x1024) ![k.val, 0, 0] S1x512x1024.size (inb8 k)

theorem slab8_disjoint (k k' : Fin 8) (h : k ≠ k') : Disjoint (slab8 k).set (slab8 k').set :=
  Ring.lead_disjoint (s := S8x512x1024) (0 : Fin 3) 1 (fun k : Fin 8 => ![k.val, 0, 0]) S1x512x1024.size inb8
    (fun b => (Nat.one_mul _).symm) rfl k k' h

theorem slab8_cover : (Finset.univ : Finset (Fin 8)).biUnion (fun k => (slab8 k).set) = Finset.univ :=
  Ring.lead_cover (s := S8x512x1024) (0 : Fin 3) 1 (fun k : Fin 8 => ![k.val, 0, 0]) S1x512x1024.size inb8
    (fun b => (Nat.one_mul _).symm)
    (fun b a ha => by fin_cases a
                      · exact absurd rfl ha
                      · rfl
                      · rfl)
    rfl
    (fun a ha => by fin_cases a
                    · exact absurd rfl ha
                    · rfl
                    · rfl)
    rfl

theorem st_set (k : Fin 8) : (stM k).view.set = (slab8 k).set :=
  (View.set_reshape _ _).trans (View.set_slice_whole _ _)

theorem st_pts (k : Fin 8) (c : Dev nD) (q : PosShare TreeShare) (f : Buf (Elt F) ((c : Thread nD τ).loc cc0_scratch3)) :
    (pts (stM k) c q f : sProp 𝕄) = (((c : Thread nD τ).loc cc0_scratch3) ↦[(slab8 k).set]{q} f : sProp 𝕄) := by
  show (((stM k).view.loc (c : Thread nD τ)) ↦[(stM k).view.set]{q} f : sProp 𝕄) = _
  rw [st_set]

theorem st_chunks (c : Dev nD) (f : Buf (Elt F) ((c : Thread nD τ).loc cc0_scratch3)) :
    ((((c : Thread nD τ).loc cc0_scratch3) ↦{fullShare} f : sProp 𝕄)) ⊣⊢ bigSep Finset.univ fun k : Fin 8 => pts (stM k) c fullShare f :=
  .of_eq ((Ring.pointsTo_blocks (ℓ := (c : Thread nD τ).loc cc0_scratch3) (fun k : Fin 8 => (slab8 k).set) slab8_disjoint slab8_cover f).trans
    (bigSep_congr fun k _ => (st_pts k c fullShare f).symm))

theorem mem_unit2 {d off size : Fin 2 → ℕ} {inb : ∀ a, off a + size a ≤ (⟨2, d⟩ : Shape).size a} {i : (⟨2, d⟩ : Shape).Idx} :
    i ∈ (Rect.unit (s := ⟨2, d⟩) off size inb).set
      ↔ (off 0 ≤ (i 0).val ∧ (i 0).val < off 0 + size 0) ∧ (off 1 ≤ (i 1).val ∧ (i 1).val < off 1 + size 1) := by
  rw [Rect.mem_set_unit]; exact Fin.forall_fin_two

theorem mem_o1 (c : Dev nD) (k : Fin 16) (i : S8192x1024.Idx) :
    i ∈ (o1M c k).view.set ↔ (2048 * (c.val % 2) + 128 * k.val + 4096) - 4096 * (c.val / 2) ≤ (i 0).val
      ∧ (i 0).val < (2048 * (c.val % 2) + 128 * k.val + 4096) - 4096 * (c.val / 2) + 128 := by
  rw [show (o1M c k).view.set = _ from View.set_slice_whole _ _, mem_unit2, k0_off10_eq]
  have h1 : (i 1).val < 1024 := (i 1).isLt
  show ((2048 * (c.val % 2) + 128 * k.val + 4096) - 4096 * (c.val / 2) ≤ (i 0).val
      ∧ (i 0).val < (2048 * (c.val % 2) + 128 * k.val + 4096) - 4096 * (c.val / 2) + 128) ∧ (0 ≤ (i 1).val ∧ (i 1).val < 0 + 1024) ↔ _
  omega

theorem mem_o2 (c : Dev nD) (k : Fin 16) (i : S8192x1024.Idx) :
    i ∈ (o2M c k).view.set ↔ (128 * k.val + 6144) - (4096 * (c.val / 2) + 2048 * (c.val % 2)) ≤ (i 0).val
      ∧ (i 0).val < (128 * k.val + 6144) - (4096 * (c.val / 2) + 2048 * (c.val % 2)) + 128 := by
  rw [show (o2M c k).view.set = _ from View.set_slice_whole _ _, mem_unit2, k0_off12_eq]
  have h1 : (i 1).val < 1024 := (i 1).isLt
  show ((128 * k.val + 6144) - (4096 * (c.val / 2) + 2048 * (c.val % 2)) ≤ (i 0).val
      ∧ (i 0).val < (128 * k.val + 6144) - (4096 * (c.val / 2) + 2048 * (c.val % 2)) + 128) ∧ (0 ≤ (i 1).val ∧ (i 1).val < 0 + 1024) ↔ _
  omega

theorem mem_ol (c : Dev nD) (k : Fin 8) (i : S8192x1024.Idx) :
    i ∈ (olM c k).view.set ↔ 4096 * (c.val / 2) + 512 * k.val ≤ (i 0).val ∧ (i 0).val < 4096 * (c.val / 2) + 512 * k.val + 512 := by
  rw [show (olM c k).view.set = _ from View.set_slice_whole _ _, mem_unit2, k0_off11_eq]
  have h1 : (i 1).val < 1024 := (i 1).isLt
  show (4096 * (c.val / 2) + 512 * k.val ≤ (i 0).val ∧ (i 0).val < 4096 * (c.val / 2) + 512 * k.val + 512) ∧ (0 ≤ (i 1).val ∧ (i 1).val < 0 + 1024) ↔ _
  omega

abbrev o1S (c : Dev nD) (k : Fin 16) : Finset S8192x1024.Idx := (o1M c k).view.set
abbrev o2S (c : Dev nD) (k : Fin 16) : Finset S8192x1024.Idx := (o2M c k).view.set
abbrev olS (c : Dev nD) (k : Fin 8) : Finset S8192x1024.Idx := (olM c k).view.set

theorem mem_O1 (c : Dev nD) (i : S8192x1024.Idx) :
    i ∈ Finset.univ.biUnion (o1S c) ↔ (2048 * (c.val % 2) + 4096) - 4096 * (c.val / 2) ≤ (i 0).val
      ∧ (i 0).val < (2048 * (c.val % 2) + 4096) - 4096 * (c.val / 2) + 2048 := by
  have hc : c.val < 4 := c.isLt
  constructor
  · intro h
    obtain ⟨k, -, hk⟩ := Finset.mem_biUnion.mp h
    have := k.isLt
    rw [mem_o1] at hk; omega
  · intro h
    refine Finset.mem_biUnion.mpr ⟨⟨((i 0).val - ((2048 * (c.val % 2) + 4096) - 4096 * (c.val / 2))) / 128, by omega⟩, Finset.mem_univ _, ?_⟩
    rw [mem_o1]; dsimp only; omega

theorem mem_O2 (c : Dev nD) (i : S8192x1024.Idx) :
    i ∈ Finset.univ.biUnion (o2S c) ↔ 6144 - (4096 * (c.val / 2) + 2048 * (c.val % 2)) ≤ (i 0).val
      ∧ (i 0).val < 6144 - (4096 * (c.val / 2) + 2048 * (c.val % 2)) + 2048 := by
  have hc : c.val < 4 := c.isLt
  constructor
  · intro h
    obtain ⟨k, -, hk⟩ := Finset.mem_biUnion.mp h
    have := k.isLt
    rw [mem_o2] at hk; omega
  · intro h
    refine Finset.mem_biUnion.mpr ⟨⟨((i 0).val - (6144 - (4096 * (c.val / 2) + 2048 * (c.val % 2)))) / 128, by omega⟩, Finset.mem_univ _, ?_⟩
    rw [mem_o2]; dsimp only; omega

theorem mem_OL (c : Dev nD) (i : S8192x1024.Idx) :
    i ∈ Finset.univ.biUnion (olS c) ↔ 4096 * (c.val / 2) ≤ (i 0).val ∧ (i 0).val < 4096 * (c.val / 2) + 4096 := by
  have hc : c.val < 4 := c.isLt
  constructor
  · intro h
    obtain ⟨k, -, hk⟩ := Finset.mem_biUnion.mp h
    have := k.isLt
    rw [mem_ol] at hk; omega
  · intro h
    refine Finset.mem_biUnion.mpr ⟨⟨((i 0).val - 4096 * (c.val / 2)) / 512, by omega⟩, Finset.mem_univ _, ?_⟩
    rw [mem_ol]; dsimp only; omega

theorem o1_disjoint (c : Dev nD) (k k' : Fin 16) (h : k ≠ k') : Disjoint (o1S c k) (o1S c k') := by
  have hc : c.val < 4 := c.isLt
  have hk : k.val ≠ k'.val := fun e => h (Fin.ext e)
  rw [Finset.disjoint_left]; intro i h1 h2
  rw [mem_o1] at h1 h2; omega
theorem o2_disjoint (c : Dev nD) (k k' : Fin 16) (h : k ≠ k') : Disjoint (o2S c k) (o2S c k') := by
  have hc : c.val < 4 := c.isLt
  have hk : k.val ≠ k'.val := fun e => h (Fin.ext e)
  rw [Finset.disjoint_left]; intro i h1 h2
  rw [mem_o2] at h1 h2; omega
theorem ol_disjoint (c : Dev nD) (k k' : Fin 8) (h : k ≠ k') : Disjoint (olS c k) (olS c k') := by
  have hk : k.val ≠ k'.val := fun e => h (Fin.ext e)
  rw [Finset.disjoint_left]; intro i h1 h2
  rw [mem_ol] at h1 h2; omega

theorem o_cover (c : Dev nD) :
    Finset.univ.biUnion (o1S c) ∪ (Finset.univ.biUnion (o2S c) ∪ Finset.univ.biUnion (olS c)) = Finset.univ := by
  ext i
  have hc : c.val < 4 := c.isLt; have h0 : (i 0).val < 8192 := (i 0).isLt
  simp only [Finset.mem_union, mem_O1, mem_O2, mem_OL, Finset.mem_univ, iff_true]
  omega

theorem o2_ol_disjoint (c : Dev nD) : Disjoint (Finset.univ.biUnion (o2S c)) (Finset.univ.biUnion (olS c)) := by
  have hc : c.val < 4 := c.isLt
  rw [Finset.disjoint_left]; intro i h1 h2
  rw [mem_O2] at h1; rw [mem_OL] at h2; omega
theorem o1_rest_disjoint (c : Dev nD) :
    Disjoint (Finset.univ.biUnion (o1S c)) (Finset.univ.biUnion (o2S c) ∪ Finset.univ.biUnion (olS c)) := by
  have hc : c.val < 4 := c.isLt
  rw [Finset.disjoint_left]; intro i h1 h2
  rw [mem_O1] at h1; rw [Finset.mem_union, mem_O2, mem_OL] at h2; omega

theorem eq_of_biEntails {P Q : sProp 𝕄} (h : P ⊣⊢ Q) : P = Q := BI.equiv_iff.mp ⟨h.1, h.2⟩

/-- The result block splits into its forty chunks `o1M`, `o2M`, `olM`, nothing left over. -/
theorem o_chunks (c : Dev nD) (g : Buf (Elt F) ((c : Thread nD τ).loc main_v1)) :
    ((((c : Thread nD τ).loc main_v1) ↦{fullShare} g : sProp 𝕄)) ⊣⊢ iprop((bigSep Finset.univ fun k : Fin 16 => pts (o1M c k) c fullShare g)
      ∗ (bigSep Finset.univ fun k : Fin 16 => pts (o2M c k) c fullShare g) ∗ (bigSep Finset.univ fun k : Fin 8 => pts (olM c k) c fullShare g)) := by
  have eA : ((((c : Thread nD τ).loc main_v1) ↦[Finset.univ.biUnion (o1S c)]{fullShare} g : sProp 𝕄))
      = bigSep Finset.univ fun k : Fin 16 => pts (o1M c k) c fullShare g :=
    pointsTo_biUnion (ℓ := (c : Thread nD τ).loc main_v1) Finset.univ (o1S c) fun k _ k' _ h => o1_disjoint c k k' h
  have eB : ((((c : Thread nD τ).loc main_v1) ↦[Finset.univ.biUnion (o2S c)]{fullShare} g : sProp 𝕄))
      = bigSep Finset.univ fun k : Fin 16 => pts (o2M c k) c fullShare g :=
    pointsTo_biUnion (ℓ := (c : Thread nD τ).loc main_v1) Finset.univ (o2S c) fun k _ k' _ h => o2_disjoint c k k' h
  have eC : ((((c : Thread nD τ).loc main_v1) ↦[Finset.univ.biUnion (olS c)]{fullShare} g : sProp 𝕄))
      = bigSep Finset.univ fun k : Fin 8 => pts (olM c k) c fullShare g :=
    pointsTo_biUnion (ℓ := (c : Thread nD τ).loc main_v1) Finset.univ (olS c) fun k _ k' _ h => ol_disjoint c k k' h
  refine .of_eq ?_
  rw [← eA, ← eB, ← eC, ← eq_of_biEntails (pointsTo_union (o2_ol_disjoint c)), ← eq_of_biEntails (pointsTo_union (o1_rest_disjoint c)), o_cover]

theorem mem_xs (c : Dev nD) (k : Fin 16) (i : S4096x2048.Idx) :
    i ∈ (xsM c k).view.set ↔ (2048 * (c.val % 2) + 128 * k.val ≤ (i 0).val ∧ (i 0).val < 2048 * (c.val % 2) + 128 * k.val + 128)
      ∧ (1024 - 1024 * (c.val / 2) ≤ (i 1).val ∧ (i 1).val < 1024 - 1024 * (c.val / 2) + 1024) := by
  rw [show (xsM c k).view.set = _ from View.set_slice_whole _ _, mem_unit2, k0_off1_eq]
  rfl

theorem mem_xl_at {off : Fin 2 → ℕ} {inb : ∀ a, off a + S512x1024.size a ≤ S4096x2048.size a} (r cc : ℕ) (h : off = ![r, cc]) (i : S4096x2048.Idx) :
    i ∈ ((Memref.whole main_arg0).slice (Rect.unit (s := S4096x2048) off S512x1024.size inb) (fun _ => rfl)).view.set
      ↔ (r ≤ (i 0).val ∧ (i 0).val < r + 512) ∧ (cc ≤ (i 1).val ∧ (i 1).val < cc + 1024) := by
  subst h
  rw [show (((Memref.whole main_arg0).slice (Rect.unit (s := S4096x2048) ![r, cc] S512x1024.size inb) (fun _ => rfl)).view.set) = _ from View.set_slice_whole _ _, mem_unit2]
  rfl

abbrev xsS (c : Dev nD) (k : Fin 16) : Finset S4096x2048.Idx := (xsM c k).view.set
def xlS (c : Dev nD) : Fin 8 → Finset S4096x2048.Idx
  | 0 => (xlM c 0).view.set
  | 1 => (xlM c 1).view.set
  | 2 => (xlM c 2).view.set
  | 3 => (xlM c 3).view.set
  | 4 => (xlM c 4).view.set
  | 5 => (xlM c 5).view.set
  | 6 => (xlM c 6).view.set
  | 7 => (xlM c 7).view.set

def xlP (c : Dev nD) (q : PosShare TreeShare) : Fin 8 → Buf (Elt F) ((c : Thread nD τ).loc main_arg0) → sProp 𝕄
  | 0, X => pts (xlM c 0) c q X
  | 1, X => pts (xlM c 1) c q X
  | 2, X => pts (xlM c 2) c q X
  | 3, X => pts (xlM c 3) c q X
  | 4, X => pts (xlM c 4) c q X
  | 5, X => pts (xlM c 5) c q X
  | 6, X => pts (xlM c 6) c q X
  | 7, X => pts (xlM c 7) c q X

theorem xlP_eq (c : Dev nD) (q : PosShare TreeShare) : ∀ (k : Fin 8) (X : Buf (Elt F) ((c : Thread nD τ).loc main_arg0)),
    xlP c q k X = ((((c : Thread nD τ).loc main_arg0) ↦[xlS c k]{q} X : sProp 𝕄))
  | 0, _ => rfl
  | 1, _ => rfl
  | 2, _ => rfl
  | 3, _ => rfl
  | 4, _ => rfl
  | 5, _ => rfl
  | 6, _ => rfl
  | 7, _ => rfl

theorem mem_xl (c : Dev nD) : ∀ (k : Fin 8) (i : S4096x2048.Idx),
    i ∈ xlS c k ↔ (512 * k.val ≤ (i 0).val ∧ (i 0).val < 512 * k.val + 512)
      ∧ (1024 * (c.val / 2) ≤ (i 1).val ∧ (i 1).val < 1024 * (c.val / 2) + 1024)
  | 0, i => mem_xl_at 0 _ (k0_off2_eq c) i
  | 1, i => mem_xl_at 512 _ (k0_off3_eq c) i
  | 2, i => mem_xl_at 1024 _ (k0_off4_eq c) i
  | 3, i => mem_xl_at 1536 _ (k0_off5_eq c) i
  | 4, i => mem_xl_at 2048 _ (k0_off6_eq c) i
  | 5, i => mem_xl_at 2560 _ (k0_off7_eq c) i
  | 6, i => mem_xl_at 3072 _ (k0_off8_eq c) i
  | 7, i => mem_xl_at 3584 _ (k0_off9_eq c) i

theorem xs_disjoint (c : Dev nD) (k k' : Fin 16) (h : k ≠ k') : Disjoint (xsS c k) (xsS c k') := by
  have hk : k.val ≠ k'.val := fun e => h (Fin.ext e)
  rw [Finset.disjoint_left]; intro i h1 h2
  rw [mem_xs] at h1 h2; omega
theorem xl_disjoint (c : Dev nD) (k k' : Fin 8) (h : k ≠ k') : Disjoint (xlS c k) (xlS c k') := by
  have hk : k.val ≠ k'.val := fun e => h (Fin.ext e)
  rw [Finset.disjoint_left]; intro i h1 h2
  rw [mem_xl] at h1 h2; omega
theorem xs_xl_disjoint (c : Dev nD) : Disjoint (Finset.univ.biUnion (xsS c)) (Finset.univ.biUnion (xlS c)) := by
  have hc : c.val < 4 := c.isLt
  rw [Finset.disjoint_left]; intro i h1 h2
  obtain ⟨k, -, hk⟩ := Finset.mem_biUnion.mp h1
  obtain ⟨k', -, hk'⟩ := Finset.mem_biUnion.mp h2
  rw [mem_xs] at hk; rw [mem_xl] at hk'; omega

def xRest (c : Dev nD) : Finset (Idx ((c : Thread nD τ).loc main_arg0)) :=
  Finset.univ \ (Finset.univ.biUnion (xsS c) ∪ Finset.univ.biUnion (xlS c))

/-- The argument block splits into the sixteen chunks `xsM`, the eight pieces `xlP`, and the rest of the block. -/
theorem x_chunks (c : Dev nD) (X : Buf (Elt F) ((c : Thread nD τ).loc main_arg0)) :
    ((((c : Thread nD τ).loc main_arg0) ↦{fullShare} X : sProp 𝕄)) ⊣⊢ iprop((bigSep Finset.univ fun k : Fin 16 => pts (xsM c k) c fullShare X)
      ∗ (bigSep Finset.univ fun k : Fin 8 => xlP c fullShare k X) ∗ (((c : Thread nD τ).loc main_arg0) ↦[xRest c]{fullShare} X)) := by
  have eA : ((((c : Thread nD τ).loc main_arg0) ↦[Finset.univ.biUnion (xsS c)]{fullShare} X : sProp 𝕄))
      = bigSep Finset.univ fun k : Fin 16 => pts (xsM c k) c fullShare X :=
    pointsTo_biUnion (ℓ := (c : Thread nD τ).loc main_arg0) Finset.univ (xsS c) fun k _ k' _ h => xs_disjoint c k k' h
  have eB : ((((c : Thread nD τ).loc main_arg0) ↦[Finset.univ.biUnion (xlS c)]{fullShare} X : sProp 𝕄))
      = bigSep Finset.univ fun k : Fin 8 => xlP c fullShare k X :=
    (pointsTo_biUnion (ℓ := (c : Thread nD τ).loc main_arg0) Finset.univ (xlS c) fun k _ k' _ h => xl_disjoint c k k' h).trans
      (bigSep_congr fun k _ => (xlP_eq c fullShare k X).symm)
  have eU := eq_of_biEntails (pointsTo_union (ℓ := (c : Thread nD τ).loc main_arg0) (q := fullShare) (f := X) (xs_xl_disjoint c))
  have eS := eq_of_biEntails (pointsTo_split_subset (ℓ := (c : Thread nD τ).loc main_arg0) (q := fullShare) (f := X)
      (Finset.subset_univ (Finset.univ.biUnion (xsS c) ∪ Finset.univ.biUnion (xlS c))))
  refine .of_eq ?_
  rw [← eA, ← eB, eS, eU]
  exact eq_of_biEntails sep_assoc

end Cert.KernelIdeal.A2A
end
-- ==== Proof.KernelIdealBody.lean ====
import proofs.«900019_g7700000000000020_dist_a2a_v7x_xy2x2_x_m4096_n1024_f32_1_alg».proof.Proof.KernelIdealProto
import proofs.«900019_g7700000000000020_dist_a2a_v7x_xy2x2_x_m4096_n1024_f32_1_alg».proof.Proof.KernelIdealSteps
import proofs.«900019_g7700000000000020_dist_a2a_v7x_xy2x2_x_m4096_n1024_f32_1_alg».proof.Proof.KernelIdealLanding
import proofs.«900019_g7700000000000020_dist_a2a_v7x_xy2x2_x_m4096_n1024_f32_1_alg».proof.Proof.KernelIdealRegions

noncomputable section

namespace Cert.KernelIdeal.A2A

open Cert.KernelIdeal Cert.KernelIdeal.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem localSems_eq (c : Dev nD) : (localSems c : sProp 𝕄)
    = bigSepL ([dS 0 (by decide), dS 1 (by decide), dS 2 (by decide), dS 3 (by decide), dS 4 (by decide), dS 5 (by decide), dS 6 (by decide), dS 7 (by decide), dS 8 (by decide), dS 9 (by decide), dS 10 (by decide), dS 11 (by decide), dS 12 (by decide), dS 13 (by decide), dS 14 (by decide), dS 15 (by decide), dS 80 (by decide), dS 81 (by decide), dS 82 (by decide), dS 83 (by decide), dS 84 (by decide), dS 85 (by decide), dS 86 (by decide), dS 87 (by decide), dS 88 (by decide), dS 89 (by decide), dS 90 (by decide), dS 91 (by decide), dS 92 (by decide), dS 93 (by decide), dS 94 (by decide), dS 95 (by decide), dS 96 (by decide), dS 97 (by decide), dS 98 (by decide), dS 99 (by decide), dS 100 (by decide), dS 101 (by decide), dS 102 (by decide), dS 103 (by decide), dS 104 (by decide), dS 105 (by decide), dS 106 (by decide), dS 107 (by decide), dS 108 (by decide), dS 109 (by decide), dS 110 (by decide), dS 111 (by decide), dS 112 (by decide), dS 113 (by decide), dS 114 (by decide), dS 115 (by decide), dS 116 (by decide), dS 117 (by decide), dS 118 (by decide), dS 119 (by decide), dS 120 (by decide), dS 121 (by decide), dS 122 (by decide), dS 123 (by decide), dS 124 (by decide), dS 125 (by decide), dS 126 (by decide), dS 127 (by decide)] : List (Fin 128))
        fun i => semVal ((c : Thread nD τ), SemLoc.dma i) 0 := by
  unfold localSems
  exact bigSep_eq_bigSepL_of_eq _ (by decide) (by decide) _

omit [FloatOps F] in
theorem bigSepL_step {I : Type} (i j : I) (l : List I) (Φ : I → sProp 𝕄) : bigSepL (i :: j :: l) Φ = iprop(Φ i ∗ bigSepL (j :: l) Φ) :=
  bigSepL_cons_cons i j l Φ

theorem sep_assoc_eq (A B C : sProp 𝕄) : iprop((A ∗ B) ∗ C) = iprop(A ∗ B ∗ C) := eq_of_biEntails sep_assoc

/-- What one device holds when its body ends: the argument block's chunks unchanged, the result block's chunks at the contents
    the specification names, the scratch chunks at some contents, every semaphore at zero, nothing owed. -/
def postGrouped (c : Dev nD) : sProp 𝕄 :=
  iprop((∃ W' : Waits sig Unit, owes (c : Thread nD τ) 0 W')
      ∗ ((bigSep Finset.univ fun k : Fin 16 => pts (xsM c k) c fullShare (m ((c : Thread nD τ).loc main_arg0)))
          ∗ (bigSep Finset.univ fun k : Fin 8 => xlP c fullShare k (m ((c : Thread nD τ).loc main_arg0))))
      ∗ (bigSep Finset.univ fun k : Fin 16 => iprop(∃ f, pts (vsM k) c fullShare f))
      ∗ (bigSep Finset.univ fun k : Fin 16 => iprop(∃ f, pts (r1M k) c fullShare f))
      ∗ (bigSep Finset.univ fun k : Fin 16 => iprop(∃ f, pts (r2M k) c fullShare f))
      ∗ (bigSep Finset.univ fun k : Fin 8 => iprop(∃ f, pts (stM k) c fullShare f))
      ∗ ((bigSep Finset.univ fun k : Fin 16 => pts (o1M c k) c fullShare (outF (xsOf m) c))
          ∗ (bigSep Finset.univ fun k : Fin 16 => pts (o2M c k) c fullShare (outF (xsOf m) c))
          ∗ (bigSep Finset.univ fun k : Fin 8 => pts (olM c k) c fullShare (outF (xsOf m) c)))
      ∗ localSems c ∗ bigSep Finset.univ fun jk : Fin 4 × Fin 16 => semVal (xcell c jk.1 jk.2) 0)

set_option maxHeartbeats 16000000 in
set_option maxRecDepth 65536 in
/-- One device's body, from the tokens, positions, credit, zeroed semaphores and chunked buffers it starts with (the two receive
    buffers `R1`, `R2` are given away at the barrier, so they stay whole) to `postGrouped`. -/
theorem sound_body (K : Dev nD × CIx → ℕ) (c : Dev nD) (Kt : PUnit → sProp 𝕄) (W : Waits sig Unit)
    (fvs : Buf (Elt F) ((c : Thread nD τ).loc cc0_scratch0)) (fst : Buf (Elt F) ((c : Thread nD τ).loc cc0_scratch3))
    (g : Buf (Elt F) ((c : Thread nD τ).loc main_v1)) (Lv R1 R2 : sProp 𝕄) (hLv : Lv = levAts L lv)
    (hR1 : R1 = bigSep Finset.univ fun k : Fin 16 => iprop(∃ f, pts (r1M k) c fullShare f))
    (hR2 : R2 = bigSep Finset.univ fun k : Fin 16 => iprop(∃ f, pts (r2M k) c fullShare f)) :
    iprop(
      records m K ∗ Lv ∗ owes (c : Thread nD τ) (O₀ c) W ∗ payToks c
      ∗ (atPos ER (barCell c) 0 ∅ 0 ∗ bigSep Finset.univ fun jk : Fin 4 × Fin 16 => atPos ER (xcell c jk.1 jk.2) 0 ∅ 0)
      ∗ creds0 c ∗ localSems c
      ∗ ((bigSep Finset.univ fun k : Fin 16 => pts (xsM c k) c fullShare (m ((c : Thread nD τ).loc main_arg0)))
          ∗ (bigSep Finset.univ fun k : Fin 8 => xlP c fullShare k (m ((c : Thread nD τ).loc main_arg0))))
      ∗ (bigSep Finset.univ fun k : Fin 16 => pts (vsM k) c fullShare fvs) ∗ R1 ∗ R2
      ∗ (bigSep Finset.univ fun k : Fin 8 => pts (stM k) c fullShare fst)
      ∗ ((bigSep Finset.univ fun k : Fin 16 => pts (o1M c k) c fullShare g)
          ∗ (bigSep Finset.univ fun k : Fin 16 => pts (o2M c k) c fullShare g) ∗ (bigSep Finset.univ fun k : Fin 8 => pts (olM c k) c fullShare g))
      ∗ (postGrouped m c -∗ Kt ⟨⟩))
      ⊢ wp frame (wpE (defs₀ (F := F)) 𝒱₀ c none) Set.univ (bodyAt0 (F := F) t0_0) Kt := by
  unfold postGrouped payToks creds0
  rw [localSems_eq]
  simp only [sep_assoc_eq, bigSep_univ_prod, bigSep_fin16, bigSep_fin8, bigSep_fin4, xlP, bigSepL_step, bigSepL_singleton]
  subst hLv hR1 hR2
  iintro ⟨#Hrec, #Hlev, HO, HtX, HtY, Ht1r0, Ht1r1, Ht1r2, Ht1r3, Ht1r4, Ht1r5, Ht1r6, Ht1r7, Ht1r8, Ht1r9, Ht1r10, Ht1r11, Ht1r12, Ht1r13, Ht1r14, Ht1r15, Ht2r0, Ht2r1, Ht2r2, Ht2r3, Ht2r4, Ht2r5, Ht2r6, Ht2r7, Ht2r8, Ht2r9, Ht2r10, Ht2r11, Ht2r12, Ht2r13, Ht2r14, Ht2r15, Ht1s0, Ht1s1, Ht1s2, Ht1s3, Ht1s4, Ht1s5, Ht1s6, Ht1s7, Ht1s8, Ht1s9, Ht1s10, Ht1s11, Ht1s12, Ht1s13, Ht1s14, Ht1s15, Ht2s0, Ht2s1, Ht2s2, Ht2s3, Ht2s4, Ht2s5, Ht2s6, Ht2s7, Ht2s8, Ht2s9, Ht2s10, Ht2s11, Ht2s12, Ht2s13, Ht2s14, Ht2s15, HatB, Hat0_0, Hat0_1, Hat0_2, Hat0_3, Hat0_4, Hat0_5, Hat0_6, Hat0_7, Hat0_8, Hat0_9, Hat0_10, Hat0_11, Hat0_12, Hat0_13, Hat0_14, Hat0_15, Hat1_0, Hat1_1, Hat1_2, Hat1_3, Hat1_4, Hat1_5, Hat1_6, Hat1_7, Hat1_8, Hat1_9, Hat1_10, Hat1_11, Hat1_12, Hat1_13, Hat1_14, Hat1_15, Hat2_0, Hat2_1, Hat2_2, Hat2_3, Hat2_4, Hat2_5, Hat2_6, Hat2_7, Hat2_8, Hat2_9, Hat2_10, Hat2_11, Hat2_12, Hat2_13, Hat2_14, Hat2_15, Hat3_0, Hat3_1, Hat3_2, Hat3_3, Hat3_4, Hat3_5, Hat3_6, Hat3_7, Hat3_8, Hat3_9, Hat3_10, Hat3_11, Hat3_12, Hat3_13, Hat3_14, Hat3_15, HcB, Hc1_0, Hc1_1, Hc1_2, Hc1_3, Hc1_4, Hc1_5, Hc1_6, Hc1_7, Hc1_8, Hc1_9, Hc1_10, Hc1_11, Hc1_12, Hc1_13, Hc1_14, Hc1_15, Hc3_0, Hc3_1, Hc3_2, Hc3_3, Hc3_4, Hc3_5, Hc3_6, Hc3_7, Hc3_8, Hc3_9, Hc3_10, Hc3_11, Hc3_12, Hc3_13, Hc3_14, Hc3_15, Hs0, Hs1, Hs2, Hs3, Hs4, Hs5, Hs6, Hs7, Hs8, Hs9, Hs10, Hs11, Hs12, Hs13, Hs14, Hs15, Hs80, Hs81, Hs82, Hs83, Hs84, Hs85, Hs86, Hs87, Hs88, Hs89, Hs90, Hs91, Hs92, Hs93, Hs94, Hs95, Hs96, Hs97, Hs98, Hs99, Hs100, Hs101, Hs102, Hs103, Hs104, Hs105, Hs106, Hs107, Hs108, Hs109, Hs110, Hs111, Hs112, Hs113, Hs114, Hs115, Hs116, Hs117, Hs118, Hs119, Hs120, Hs121, Hs122, Hs123, Hs124, Hs125, Hs126, Hs127, Hxs0, Hxs1, Hxs2, Hxs3, Hxs4, Hxs5, Hxs6, Hxs7, Hxs8, Hxs9, Hxs10, Hxs11, Hxs12, Hxs13, Hxs14, Hxs15, Hxl0, Hxl1, Hxl2, Hxl3, Hxl4, Hxl5, Hxl6, Hxl7, Hvs0, Hvs1, Hvs2, Hvs3, Hvs4, Hvs5, Hvs6, Hvs7, Hvs8, Hvs9, Hvs10, Hvs11, Hvs12, Hvs13, Hvs14, Hvs15, Hr1own, Hr2own, Hst0, Hst1, Hst2, Hst3, Hst4, Hst5, Hst6, Hst7, Ho1_0, Ho1_1, Ho1_2, Ho1_3, Ho1_4, Ho1_5, Ho1_6, Ho1_7, Ho1_8, Ho1_9, Ho1_10, Ho1_11, Ho1_12, Ho1_13, Ho1_14, Ho1_15, Ho2_0, Ho2_1, Ho2_2, Ho2_3, Ho2_4, Ho2_5, Ho2_6, Ho2_7, Ho2_8, Ho2_9, Ho2_10, Ho2_11, Ho2_12, Ho2_13, Ho2_14, Ho2_15, Hol0, Hol1, Hol2, Hol3, Hol4, Hol5, Hol6, Hol7, Hk⟩
  have hmw := fun (sm : SemLoc sig) (h : lv ((c : Thread nD τ), sm) () ≤ 1) (a b : ℕ) => mayWait_low (F := F) c sm h a b
  unfold bodyAt0
  sl_unfold [cc0_body]
  sl_exec
  unfold O₀
  iapply (wp_sigX m K c _ (dev1_eq c) (O₁ c) W) $$ [$Hrec $HO $HtX $Hr1own]
  iintro HO
  sl_exec
  unfold O₁
  iapply (wp_sigY m K c _ (dev2_eq c) (owe1 c 0 + owe2 c 0) W) $$ [$Hrec $HO $HtY $Hr2own]
  iintro HO
  sl_exec
  iapply (wp_barwait m K c (wpE_semWait_eq 𝒱₀ (c : Thread nD τ) none Set.univ) 0 0 W) $$ [$Hrec $Hlev $HcB $HO $HatB]
  iintro ⟨HO, HatB, HpX, HpY⟩
  unfold barPayX barPayY
  ihave HpX' := (Entails.of_eq (bigSep_fin16 _)) $$ HpX
  ihave HpY' := (Entails.of_eq (bigSep_fin16 _)) $$ HpY
  icases HpX' with ⟨⟨%fx0, Hx1_0⟩, ⟨%fx1, Hx1_1⟩, ⟨%fx2, Hx1_2⟩, ⟨%fx3, Hx1_3⟩, ⟨%fx4, Hx1_4⟩, ⟨%fx5, Hx1_5⟩, ⟨%fx6, Hx1_6⟩, ⟨%fx7, Hx1_7⟩, ⟨%fx8, Hx1_8⟩, ⟨%fx9, Hx1_9⟩, ⟨%fx10, Hx1_10⟩, ⟨%fx11, Hx1_11⟩, ⟨%fx12, Hx1_12⟩, ⟨%fx13, Hx1_13⟩, ⟨%fx14, Hx1_14⟩, ⟨%fx15, Hx1_15⟩⟩
  icases HpY' with ⟨⟨%fy0, Hy2_0⟩, ⟨%fy1, Hy2_1⟩, ⟨%fy2, Hy2_2⟩, ⟨%fy3, Hy2_3⟩, ⟨%fy4, Hy2_4⟩, ⟨%fy5, Hy2_5⟩, ⟨%fy6, Hy2_6⟩, ⟨%fy7, Hy2_7⟩, ⟨%fy8, Hy2_8⟩, ⟨%fy9, Hy2_9⟩, ⟨%fy10, Hy2_10⟩, ⟨%fy11, Hy2_11⟩, ⟨%fy12, Hy2_12⟩, ⟨%fy13, Hy2_13⟩, ⟨%fy14, Hy2_14⟩, ⟨%fy15, Hy2_15⟩⟩
  sl_exec (disch := first | decide | omega)
  ihave HO := (Entails.of_eq (owes_peel1 c 0 0 1 rfl rfl 0 _)) $$ HO
  iapply (wp_p1 m K c _ (dev3_eq c) 0 _ rfl _ rfl _ _ rfl rfl _ fx0 (hop1_lands m 0 c fx0 _ (stage_lands m c 0 _)) (owe1 c 1 + owe2 c 0) _) $$ [$Hrec Hvs0 $Hx1_0 $HO $Ht1s0 $Ht1r0]
  · iexact Hvs0
  iintro ⟨Hc0_0, HO⟩
  sl_exec (disch := first | decide | omega)
  ihave HO := (Entails.of_eq (owes_peel1 c 1 1 2 rfl rfl 0 _)) $$ HO
  iapply (wp_p1 m K c _ (dev4_eq c) 1 _ rfl _ rfl _ _ rfl rfl _ fx1 (hop1_lands m 1 c fx1 _ (stage_lands m c 1 _)) (owe1 c 2 + owe2 c 0) _) $$ [$Hrec Hvs1 $Hx1_1 $HO $Ht1s1 $Ht1r1]
  · iexact Hvs1
  iintro ⟨Hc0_1, HO⟩
  sl_exec (disch := first | decide | omega)
  ihave HO := (Entails.of_eq (owes_peel1 c 2 2 3 rfl rfl 0 _)) $$ HO
  iapply (wp_p1 m K c _ (dev5_eq c) 2 _ rfl _ rfl _ _ rfl rfl _ fx2 (hop1_lands m 2 c fx2 _ (stage_lands m c 2 _)) (owe1 c 3 + owe2 c 0) _) $$ [$Hrec Hvs2 $Hx1_2 $HO $Ht1s2 $Ht1r2]
  · iexact Hvs2
  iintro ⟨Hc0_2, HO⟩
  sl_exec (disch := first | decide | omega)
  ihave HO := (Entails.of_eq (owes_peel1 c 3 3 4 rfl rfl 0 _)) $$ HO
  iapply (wp_p1 m K c _ (dev6_eq c) 3 _ rfl _ rfl _ _ rfl rfl _ fx3 (hop1_lands m 3 c fx3 _ (stage_lands m c 3 _)) (owe1 c 4 + owe2 c 0) _) $$ [$Hrec Hvs3 $Hx1_3 $HO $Ht1s3 $Ht1r3]
  · iexact Hvs3
  iintro ⟨Hc0_3, HO⟩
  sl_exec (disch := first | decide | omega)
  ihave HO := (Entails.of_eq (owes_peel1 c 4 4 5 rfl rfl 0 _)) $$ HO
  iapply (wp_p1 m K c _ (dev7_eq c) 4 _ rfl _ rfl _ _ rfl rfl _ fx4 (hop1_lands m 4 c fx4 _ (stage_lands m c 4 _)) (owe1 c 5 + owe2 c 0) _) $$ [$Hrec Hvs4 $Hx1_4 $HO $Ht1s4 $Ht1r4]
  · iexact Hvs4
  iintro ⟨Hc0_4, HO⟩
  sl_exec (disch := first | decide | omega)
  ihave HO := (Entails.of_eq (owes_peel1 c 5 5 6 rfl rfl 0 _)) $$ HO
  iapply (wp_p1 m K c _ (dev8_eq c) 5 _ rfl _ rfl _ _ rfl rfl _ fx5 (hop1_lands m 5 c fx5 _ (stage_lands m c 5 _)) (owe1 c 6 + owe2 c 0) _) $$ [$Hrec Hvs5 $Hx1_5 $HO $Ht1s5 $Ht1r5]
  · iexact Hvs5
  iintro ⟨Hc0_5, HO⟩
  sl_exec (disch := first | decide | omega)
  ihave HO := (Entails.of_eq (owes_peel1 c 6 6 7 rfl rfl 0 _)) $$ HO
  iapply (wp_p1 m K c _ (dev9_eq c) 6 _ rfl _ rfl _ _ rfl rfl _ fx6 (hop1_lands m 6 c fx6 _ (stage_lands m c 6 _)) (owe1 c 7 + owe2 c 0) _) $$ [$Hrec Hvs6 $Hx1_6 $HO $Ht1s6 $Ht1r6]
  · iexact Hvs6
  iintro ⟨Hc0_6, HO⟩
  sl_exec (disch := first | decide | omega)
  ihave HO := (Entails.of_eq (owes_peel1 c 7 7 8 rfl rfl 0 _)) $$ HO
  iapply (wp_p1 m K c _ (dev10_eq c) 7 _ rfl _ rfl _ _ rfl rfl _ fx7 (hop1_lands m 7 c fx7 _ (stage_lands m c 7 _)) (owe1 c 8 + owe2 c 0) _) $$ [$Hrec Hvs7 $Hx1_7 $HO $Ht1s7 $Ht1r7]
  · iexact Hvs7
  iintro ⟨Hc0_7, HO⟩
  sl_exec (disch := first | decide | omega)
  ihave HO := (Entails.of_eq (owes_peel1 c 8 8 9 rfl rfl 0 _)) $$ HO
  iapply (wp_p1 m K c _ (dev11_eq c) 8 _ rfl _ rfl _ _ rfl rfl _ fx8 (hop1_lands m 8 c fx8 _ (stage_lands m c 8 _)) (owe1 c 9 + owe2 c 0) _) $$ [$Hrec Hvs8 $Hx1_8 $HO $Ht1s8 $Ht1r8]
  · iexact Hvs8
  iintro ⟨Hc0_8, HO⟩
  sl_exec (disch := first | decide | omega)
  ihave HO := (Entails.of_eq (owes_peel1 c 9 9 10 rfl rfl 0 _)) $$ HO
  iapply (wp_p1 m K c _ (dev12_eq c) 9 _ rfl _ rfl _ _ rfl rfl _ fx9 (hop1_lands m 9 c fx9 _ (stage_lands m c 9 _)) (owe1 c 10 + owe2 c 0) _) $$ [$Hrec Hvs9 $Hx1_9 $HO $Ht1s9 $Ht1r9]
  · iexact Hvs9
  iintro ⟨Hc0_9, HO⟩
  sl_exec (disch := first | decide | omega)
  ihave HO := (Entails.of_eq (owes_peel1 c 10 10 11 rfl rfl 0 _)) $$ HO
  iapply (wp_p1 m K c _ (dev13_eq c) 10 _ rfl _ rfl _ _ rfl rfl _ fx10 (hop1_lands m 10 c fx10 _ (stage_lands m c 10 _)) (owe1 c 11 + owe2 c 0) _) $$ [$Hrec Hvs10 $Hx1_10 $HO $Ht1s10 $Ht1r10]
  · iexact Hvs10
  iintro ⟨Hc0_10, HO⟩
  sl_exec (disch := first | decide | omega)
  ihave HO := (Entails.of_eq (owes_peel1 c 11 11 12 rfl rfl 0 _)) $$ HO
  iapply (wp_p1 m K c _ (dev14_eq c) 11 _ rfl _ rfl _ _ rfl rfl _ fx11 (hop1_lands m 11 c fx11 _ (stage_lands m c 11 _)) (owe1 c 12 + owe2 c 0) _) $$ [$Hrec Hvs11 $Hx1_11 $HO $Ht1s11 $Ht1r11]
  · iexact Hvs11
  iintro ⟨Hc0_11, HO⟩
  sl_exec (disch := first | decide | omega)
  ihave HO := (Entails.of_eq (owes_peel1 c 12 12 13 rfl rfl 0 _)) $$ HO
  iapply (wp_p1 m K c _ (dev15_eq c) 12 _ rfl _ rfl _ _ rfl rfl _ fx12 (hop1_lands m 12 c fx12 _ (stage_lands m c 12 _)) (owe1 c 13 + owe2 c 0) _) $$ [$Hrec Hvs12 $Hx1_12 $HO $Ht1s12 $Ht1r12]
  · iexact Hvs12
  iintro ⟨Hc0_12, HO⟩
  sl_exec (disch := first | decide | omega)
  ihave HO := (Entails.of_eq (owes_peel1 c 13 13 14 rfl rfl 0 _)) $$ HO
  iapply (wp_p1 m K c _ (dev16_eq c) 13 _ rfl _ rfl _ _ rfl rfl _ fx13 (hop1_lands m 13 c fx13 _ (stage_lands m c 13 _)) (owe1 c 14 + owe2 c 0) _) $$ [$Hrec Hvs13 $Hx1_13 $HO $Ht1s13 $Ht1r13]
  · iexact Hvs13
  iintro ⟨Hc0_13, HO⟩
  sl_exec (disch := first | decide | omega)
  ihave HO := (Entails.of_eq (owes_peel1 c 14 14 15 rfl rfl 0 _)) $$ HO
  iapply (wp_p1 m K c _ (dev17_eq c) 14 _ rfl _ rfl _ _ rfl rfl _ fx14 (hop1_lands m 14 c fx14 _ (stage_lands m c 14 _)) (owe1 c 15 + owe2 c 0) _) $$ [$Hrec Hvs14 $Hx1_14 $HO $Ht1s14 $Ht1r14]
  · iexact Hvs14
  iintro ⟨Hc0_14, HO⟩
  sl_exec (disch := first | decide | omega)
  ihave HO := (Entails.of_eq (owes_peel1 c 15 15 16 rfl rfl 0 _)) $$ HO
  iapply (wp_p1 m K c _ (dev18_eq c) 15 _ rfl _ rfl _ _ rfl rfl _ fx15 (hop1_lands m 15 c fx15 _ (stage_lands m c 15 _)) (owe1 c 16 + owe2 c 0) _) $$ [$Hrec Hvs15 $Hx1_15 $HO $Ht1s15 $Ht1r15]
  · iexact Hvs15
  iintro ⟨Hc0_15, HO⟩
  sl_exec (disch := first | decide | omega)
  iapply (wp_wait_p1r m K c 0 rfl 0 _) $$ [$Hrec $Hlev $Hc1_0 $HO $Hat1_0]
  iintro ⟨HO, Hat1_0, Hr1_0⟩
  sl_exec (disch := first | decide | omega)
  ihave Hh := (pts_halve (r1M 0) c _).1 $$ Hr1_0
  icases Hh with ⟨Hr1L_0, Hr1R_0⟩
  ihave HO := (Entails.of_eq (owes_peel2 c 0 0 1 rfl rfl _)) $$ HO
  iapply (wp_p2 m K c _ (dev19_eq c) 0 _ rfl _ rfl _ _ rfl rfl fy0 (hop2_lands m 0 c fy0) (owe1 c 16 + owe2 c 1) _) $$ [$Hrec $Hr1L_0 $Hy2_0 $HO $Ht2s0 $Ht2r0]
  iintro ⟨Hc2_0, HO⟩
  sl_exec (disch := first | decide | omega)
  iapply (wp_wait_p1r m K c 1 rfl 1 _) $$ [$Hrec $Hlev $Hc1_1 $HO $Hat1_1]
  iintro ⟨HO, Hat1_1, Hr1_1⟩
  sl_exec (disch := first | decide | omega)
  ihave Hh := (pts_halve (r1M 1) c _).1 $$ Hr1_1
  icases Hh with ⟨Hr1L_1, Hr1R_1⟩
  ihave HO := (Entails.of_eq (owes_peel2 c 1 1 2 rfl rfl _)) $$ HO
  iapply (wp_p2 m K c _ (dev20_eq c) 1 _ rfl _ rfl _ _ rfl rfl fy1 (hop2_lands m 1 c fy1) (owe1 c 16 + owe2 c 2) _) $$ [$Hrec $Hr1L_1 $Hy2_1 $HO $Ht2s1 $Ht2r1]
  iintro ⟨Hc2_1, HO⟩
  sl_exec (disch := first | decide | omega)
  iapply (wp_wait_p1r m K c 2 rfl 2 _) $$ [$Hrec $Hlev $Hc1_2 $HO $Hat1_2]
  iintro ⟨HO, Hat1_2, Hr1_2⟩
  sl_exec (disch := first | decide | omega)
  ihave Hh := (pts_halve (r1M 2) c _).1 $$ Hr1_2
  icases Hh with ⟨Hr1L_2, Hr1R_2⟩
  ihave HO := (Entails.of_eq (owes_peel2 c 2 2 3 rfl rfl _)) $$ HO
  iapply (wp_p2 m K c _ (dev21_eq c) 2 _ rfl _ rfl _ _ rfl rfl fy2 (hop2_lands m 2 c fy2) (owe1 c 16 + owe2 c 3) _) $$ [$Hrec $Hr1L_2 $Hy2_2 $HO $Ht2s2 $Ht2r2]
  iintro ⟨Hc2_2, HO⟩
  sl_exec (disch := first | decide | omega)
  iapply (wp_wait_p1r m K c 3 rfl 3 _) $$ [$Hrec $Hlev $Hc1_3 $HO $Hat1_3]
  iintro ⟨HO, Hat1_3, Hr1_3⟩
  sl_exec (disch := first | decide | omega)
  ihave Hh := (pts_halve (r1M 3) c _).1 $$ Hr1_3
  icases Hh with ⟨Hr1L_3, Hr1R_3⟩
  ihave HO := (Entails.of_eq (owes_peel2 c 3 3 4 rfl rfl _)) $$ HO
  iapply (wp_p2 m K c _ (dev22_eq c) 3 _ rfl _ rfl _ _ rfl rfl fy3 (hop2_lands m 3 c fy3) (owe1 c 16 + owe2 c 4) _) $$ [$Hrec $Hr1L_3 $Hy2_3 $HO $Ht2s3 $Ht2r3]
  iintro ⟨Hc2_3, HO⟩
  sl_exec (disch := first | decide | omega)
  iapply (wp_wait_p1r m K c 4 rfl 4 _) $$ [$Hrec $Hlev $Hc1_4 $HO $Hat1_4]
  iintro ⟨HO, Hat1_4, Hr1_4⟩
  sl_exec (disch := first | decide | omega)
  ihave Hh := (pts_halve (r1M 4) c _).1 $$ Hr1_4
  icases Hh with ⟨Hr1L_4, Hr1R_4⟩
  ihave HO := (Entails.of_eq (owes_peel2 c 4 4 5 rfl rfl _)) $$ HO
  iapply (wp_p2 m K c _ (dev23_eq c) 4 _ rfl _ rfl _ _ rfl rfl fy4 (hop2_lands m 4 c fy4) (owe1 c 16 + owe2 c 5) _) $$ [$Hrec $Hr1L_4 $Hy2_4 $HO $Ht2s4 $Ht2r4]
  iintro ⟨Hc2_4, HO⟩
  sl_exec (disch := first | decide | omega)
  iapply (wp_wait_p1r m K c 5 rfl 5 _) $$ [$Hrec $Hlev $Hc1_5 $HO $Hat1_5]
  iintro ⟨HO, Hat1_5, Hr1_5⟩
  sl_exec (disch := first | decide | omega)
  ihave Hh := (pts_halve (r1M 5) c _).1 $$ Hr1_5
  icases Hh with ⟨Hr1L_5, Hr1R_5⟩
  ihave HO := (Entails.of_eq (owes_peel2 c 5 5 6 rfl rfl _)) $$ HO
  iapply (wp_p2 m K c _ (dev24_eq c) 5 _ rfl _ rfl _ _ rfl rfl fy5 (hop2_lands m 5 c fy5) (owe1 c 16 + owe2 c 6) _) $$ [$Hrec $Hr1L_5 $Hy2_5 $HO $Ht2s5 $Ht2r5]
  iintro ⟨Hc2_5, HO⟩
  sl_exec (disch := first | decide | omega)
  iapply (wp_wait_p1r m K c 6 rfl 6 _) $$ [$Hrec $Hlev $Hc1_6 $HO $Hat1_6]
  iintro ⟨HO, Hat1_6, Hr1_6⟩
  sl_exec (disch := first | decide | omega)
  ihave Hh := (pts_halve (r1M 6) c _).1 $$ Hr1_6
  icases Hh with ⟨Hr1L_6, Hr1R_6⟩
  ihave HO := (Entails.of_eq (owes_peel2 c 6 6 7 rfl rfl _)) $$ HO
  iapply (wp_p2 m K c _ (dev25_eq c) 6 _ rfl _ rfl _ _ rfl rfl fy6 (hop2_lands m 6 c fy6) (owe1 c 16 + owe2 c 7) _) $$ [$Hrec $Hr1L_6 $Hy2_6 $HO $Ht2s6 $Ht2r6]
  iintro ⟨Hc2_6, HO⟩
  sl_exec (disch := first | decide | omega)
  iapply (wp_wait_p1r m K c 7 rfl 7 _) $$ [$Hrec $Hlev $Hc1_7 $HO $Hat1_7]
  iintro ⟨HO, Hat1_7, Hr1_7⟩
  sl_exec (disch := first | decide | omega)
  ihave Hh := (pts_halve (r1M 7) c _).1 $$ Hr1_7
  icases Hh with ⟨Hr1L_7, Hr1R_7⟩
  ihave HO := (Entails.of_eq (owes_peel2 c 7 7 8 rfl rfl _)) $$ HO
  iapply (wp_p2 m K c _ (dev26_eq c) 7 _ rfl _ rfl _ _ rfl rfl fy7 (hop2_lands m 7 c fy7) (owe1 c 16 + owe2 c 8) _) $$ [$Hrec $Hr1L_7 $Hy2_7 $HO $Ht2s7 $Ht2r7]
  iintro ⟨Hc2_7, HO⟩
  sl_exec (disch := first | decide | omega)
  iapply (wp_wait_p1r m K c 8 rfl 8 _) $$ [$Hrec $Hlev $Hc1_8 $HO $Hat1_8]
  iintro ⟨HO, Hat1_8, Hr1_8⟩
  sl_exec (disch := first | decide | omega)
  ihave Hh := (pts_halve (r1M 8) c _).1 $$ Hr1_8
  icases Hh with ⟨Hr1L_8, Hr1R_8⟩
  ihave HO := (Entails.of_eq (owes_peel2 c 8 8 9 rfl rfl _)) $$ HO
  iapply (wp_p2 m K c _ (dev27_eq c) 8 _ rfl _ rfl _ _ rfl rfl fy8 (hop2_lands m 8 c fy8) (owe1 c 16 + owe2 c 9) _) $$ [$Hrec $Hr1L_8 $Hy2_8 $HO $Ht2s8 $Ht2r8]
  iintro ⟨Hc2_8, HO⟩
  sl_exec (disch := first | decide | omega)
  iapply (wp_wait_p1r m K c 9 rfl 9 _) $$ [$Hrec $Hlev $Hc1_9 $HO $Hat1_9]
  iintro ⟨HO, Hat1_9, Hr1_9⟩
  sl_exec (disch := first | decide | omega)
  ihave Hh := (pts_halve (r1M 9) c _).1 $$ Hr1_9
  icases Hh with ⟨Hr1L_9, Hr1R_9⟩
  ihave HO := (Entails.of_eq (owes_peel2 c 9 9 10 rfl rfl _)) $$ HO
  iapply (wp_p2 m K c _ (dev28_eq c) 9 _ rfl _ rfl _ _ rfl rfl fy9 (hop2_lands m 9 c fy9) (owe1 c 16 + owe2 c 10) _) $$ [$Hrec $Hr1L_9 $Hy2_9 $HO $Ht2s9 $Ht2r9]
  iintro ⟨Hc2_9, HO⟩
  sl_exec (disch := first | decide | omega)
  iapply (wp_wait_p1r m K c 10 rfl 10 _) $$ [$Hrec $Hlev $Hc1_10 $HO $Hat1_10]
  iintro ⟨HO, Hat1_10, Hr1_10⟩
  sl_exec (disch := first | decide | omega)
  ihave Hh := (pts_halve (r1M 10) c _).1 $$ Hr1_10
  icases Hh with ⟨Hr1L_10, Hr1R_10⟩
  ihave HO := (Entails.of_eq (owes_peel2 c 10 10 11 rfl rfl _)) $$ HO
  iapply (wp_p2 m K c _ (dev29_eq c) 10 _ rfl _ rfl _ _ rfl rfl fy10 (hop2_lands m 10 c fy10) (owe1 c 16 + owe2 c 11) _) $$ [$Hrec $Hr1L_10 $Hy2_10 $HO $Ht2s10 $Ht2r10]
  iintro ⟨Hc2_10, HO⟩
  sl_exec (disch := first | decide | omega)
  iapply (wp_wait_p1r m K c 11 rfl 11 _) $$ [$Hrec $Hlev $Hc1_11 $HO $Hat1_11]
  iintro ⟨HO, Hat1_11, Hr1_11⟩
  sl_exec (disch := first | decide | omega)
  ihave Hh := (pts_halve (r1M 11) c _).1 $$ Hr1_11
  icases Hh with ⟨Hr1L_11, Hr1R_11⟩
  ihave HO := (Entails.of_eq (owes_peel2 c 11 11 12 rfl rfl _)) $$ HO
  iapply (wp_p2 m K c _ (dev30_eq c) 11 _ rfl _ rfl _ _ rfl rfl fy11 (hop2_lands m 11 c fy11) (owe1 c 16 + owe2 c 12) _) $$ [$Hrec $Hr1L_11 $Hy2_11 $HO $Ht2s11 $Ht2r11]
  iintro ⟨Hc2_11, HO⟩
  sl_exec (disch := first | decide | omega)
  iapply (wp_wait_p1r m K c 12 rfl 12 _) $$ [$Hrec $Hlev $Hc1_12 $HO $Hat1_12]
  iintro ⟨HO, Hat1_12, Hr1_12⟩
  sl_exec (disch := first | decide | omega)
  ihave Hh := (pts_halve (r1M 12) c _).1 $$ Hr1_12
  icases Hh with ⟨Hr1L_12, Hr1R_12⟩
  ihave HO := (Entails.of_eq (owes_peel2 c 12 12 13 rfl rfl _)) $$ HO
  iapply (wp_p2 m K c _ (dev31_eq c) 12 _ rfl _ rfl _ _ rfl rfl fy12 (hop2_lands m 12 c fy12) (owe1 c 16 + owe2 c 13) _) $$ [$Hrec $Hr1L_12 $Hy2_12 $HO $Ht2s12 $Ht2r12]
  iintro ⟨Hc2_12, HO⟩
  sl_exec (disch := first | decide | omega)
  iapply (wp_wait_p1r m K c 13 rfl 13 _) $$ [$Hrec $Hlev $Hc1_13 $HO $Hat1_13]
  iintro ⟨HO, Hat1_13, Hr1_13⟩
  sl_exec (disch := first | decide | omega)
  ihave Hh := (pts_halve (r1M 13) c _).1 $$ Hr1_13
  icases Hh with ⟨Hr1L_13, Hr1R_13⟩
  ihave HO := (Entails.of_eq (owes_peel2 c 13 13 14 rfl rfl _)) $$ HO
  iapply (wp_p2 m K c _ (dev32_eq c) 13 _ rfl _ rfl _ _ rfl rfl fy13 (hop2_lands m 13 c fy13) (owe1 c 16 + owe2 c 14) _) $$ [$Hrec $Hr1L_13 $Hy2_13 $HO $Ht2s13 $Ht2r13]
  iintro ⟨Hc2_13, HO⟩
  sl_exec (disch := first | decide | omega)
  iapply (wp_wait_p1r m K c 14 rfl 14 _) $$ [$Hrec $Hlev $Hc1_14 $HO $Hat1_14]
  iintro ⟨HO, Hat1_14, Hr1_14⟩
  sl_exec (disch := first | decide | omega)
  ihave Hh := (pts_halve (r1M 14) c _).1 $$ Hr1_14
  icases Hh with ⟨Hr1L_14, Hr1R_14⟩
  ihave HO := (Entails.of_eq (owes_peel2 c 14 14 15 rfl rfl _)) $$ HO
  iapply (wp_p2 m K c _ (dev33_eq c) 14 _ rfl _ rfl _ _ rfl rfl fy14 (hop2_lands m 14 c fy14) (owe1 c 16 + owe2 c 15) _) $$ [$Hrec $Hr1L_14 $Hy2_14 $HO $Ht2s14 $Ht2r14]
  iintro ⟨Hc2_14, HO⟩
  sl_exec (disch := first | decide | omega)
  iapply (wp_wait_p1r m K c 15 rfl 15 _) $$ [$Hrec $Hlev $Hc1_15 $HO $Hat1_15]
  iintro ⟨HO, Hat1_15, Hr1_15⟩
  sl_exec (disch := first | decide | omega)
  ihave Hh := (pts_halve (r1M 15) c _).1 $$ Hr1_15
  icases Hh with ⟨Hr1L_15, Hr1R_15⟩
  ihave HO := (Entails.of_eq (owes_peel2 c 15 15 16 rfl rfl _)) $$ HO
  iapply (wp_p2 m K c _ (dev34_eq c) 15 _ rfl _ rfl _ _ rfl rfl fy15 (hop2_lands m 15 c fy15) (owe1 c 16 + owe2 c 16) _) $$ [$Hrec $Hr1L_15 $Hy2_15 $HO $Ht2s15 $Ht2r15]
  iintro ⟨Hc2_15, HO⟩
  sl_exec (disch := first | decide | omega)
  ihave HO := (Entails.of_eq (owes_done c _)) $$ HO
  iapply (wp_wait_p2r m K c 0 rfl _) $$ [$Hrec $Hlev $Hc3_0 $HO $Hat3_0]
  iintro ⟨HO, Hat3_0, Hr2_0⟩
  sl_exec (disch := first | decide | omega)
  iapply (wp_wait_p2r m K c 1 rfl _) $$ [$Hrec $Hlev $Hc3_1 $HO $Hat3_1]
  iintro ⟨HO, Hat3_1, Hr2_1⟩
  sl_exec (disch := first | decide | omega)
  iapply (wp_wait_p2r m K c 2 rfl _) $$ [$Hrec $Hlev $Hc3_2 $HO $Hat3_2]
  iintro ⟨HO, Hat3_2, Hr2_2⟩
  sl_exec (disch := first | decide | omega)
  iapply (wp_wait_p2r m K c 3 rfl _) $$ [$Hrec $Hlev $Hc3_3 $HO $Hat3_3]
  iintro ⟨HO, Hat3_3, Hr2_3⟩
  sl_exec (disch := first | decide | omega)
  iapply (wp_wait_p2r m K c 4 rfl _) $$ [$Hrec $Hlev $Hc3_4 $HO $Hat3_4]
  iintro ⟨HO, Hat3_4, Hr2_4⟩
  sl_exec (disch := first | decide | omega)
  iapply (wp_wait_p2r m K c 5 rfl _) $$ [$Hrec $Hlev $Hc3_5 $HO $Hat3_5]
  iintro ⟨HO, Hat3_5, Hr2_5⟩
  sl_exec (disch := first | decide | omega)
  iapply (wp_wait_p2r m K c 6 rfl _) $$ [$Hrec $Hlev $Hc3_6 $HO $Hat3_6]
  iintro ⟨HO, Hat3_6, Hr2_6⟩
  sl_exec (disch := first | decide | omega)
  iapply (wp_wait_p2r m K c 7 rfl _) $$ [$Hrec $Hlev $Hc3_7 $HO $Hat3_7]
  iintro ⟨HO, Hat3_7, Hr2_7⟩
  sl_exec (disch := first | decide | omega)
  iapply (wp_wait_p2r m K c 8 rfl _) $$ [$Hrec $Hlev $Hc3_8 $HO $Hat3_8]
  iintro ⟨HO, Hat3_8, Hr2_8⟩
  sl_exec (disch := first | decide | omega)
  iapply (wp_wait_p2r m K c 9 rfl _) $$ [$Hrec $Hlev $Hc3_9 $HO $Hat3_9]
  iintro ⟨HO, Hat3_9, Hr2_9⟩
  sl_exec (disch := first | decide | omega)
  iapply (wp_wait_p2r m K c 10 rfl _) $$ [$Hrec $Hlev $Hc3_10 $HO $Hat3_10]
  iintro ⟨HO, Hat3_10, Hr2_10⟩
  sl_exec (disch := first | decide | omega)
  iapply (wp_wait_p2r m K c 11 rfl _) $$ [$Hrec $Hlev $Hc3_11 $HO $Hat3_11]
  iintro ⟨HO, Hat3_11, Hr2_11⟩
  sl_exec (disch := first | decide | omega)
  iapply (wp_wait_p2r m K c 12 rfl _) $$ [$Hrec $Hlev $Hc3_12 $HO $Hat3_12]
  iintro ⟨HO, Hat3_12, Hr2_12⟩
  sl_exec (disch := first | decide | omega)
  iapply (wp_wait_p2r m K c 13 rfl _) $$ [$Hrec $Hlev $Hc3_13 $HO $Hat3_13]
  iintro ⟨HO, Hat3_13, Hr2_13⟩
  sl_exec (disch := first | decide | omega)
  iapply (wp_wait_p2r m K c 14 rfl _) $$ [$Hrec $Hlev $Hc3_14 $HO $Hat3_14]
  iintro ⟨HO, Hat3_14, Hr2_14⟩
  sl_exec (disch := first | decide | omega)
  iapply (wp_wait_p2r m K c 15 rfl _) $$ [$Hrec $Hlev $Hc3_15 $HO $Hat3_15]
  iintro ⟨HO, Hat3_15, Hr2_15⟩
  sl_exec (disch := first | decide | omega)
  iapply (wp_wait_p1s m K c 0 rfl _) $$ [$Hrec $Hlev $Hc0_0 $HO $Hat0_0]
  iintro ⟨HO, Hat0_0, Hvs0⟩
  sl_exec (disch := first | decide | omega)
  iapply (wp_wait_p2s m K c 0 rfl _) $$ [$Hrec $Hlev $Hc2_0 $HO $Hat2_0]
  iintro ⟨HO, Hat2_0, Hr1L_0⟩
  sl_exec (disch := first | decide | omega)
  iapply (wp_wait_p1s m K c 1 rfl _) $$ [$Hrec $Hlev $Hc0_1 $HO $Hat0_1]
  iintro ⟨HO, Hat0_1, Hvs1⟩
  sl_exec (disch := first | decide | omega)
  iapply (wp_wait_p2s m K c 1 rfl _) $$ [$Hrec $Hlev $Hc2_1 $HO $Hat2_1]
  iintro ⟨HO, Hat2_1, Hr1L_1⟩
  sl_exec (disch := first | decide | omega)
  iapply (wp_wait_p1s m K c 2 rfl _) $$ [$Hrec $Hlev $Hc0_2 $HO $Hat0_2]
  iintro ⟨HO, Hat0_2, Hvs2⟩
  sl_exec (disch := first | decide | omega)
  iapply (wp_wait_p2s m K c 2 rfl _) $$ [$Hrec $Hlev $Hc2_2 $HO $Hat2_2]
  iintro ⟨HO, Hat2_2, Hr1L_2⟩
  sl_exec (disch := first | decide | omega)
  iapply (wp_wait_p1s m K c 3 rfl _) $$ [$Hrec $Hlev $Hc0_3 $HO $Hat0_3]
  iintro ⟨HO, Hat0_3, Hvs3⟩
  sl_exec (disch := first | decide | omega)
  iapply (wp_wait_p2s m K c 3 rfl _) $$ [$Hrec $Hlev $Hc2_3 $HO $Hat2_3]
  iintro ⟨HO, Hat2_3, Hr1L_3⟩
  sl_exec (disch := first | decide | omega)
  iapply (wp_wait_p1s m K c 4 rfl _) $$ [$Hrec $Hlev $Hc0_4 $HO $Hat0_4]
  iintro ⟨HO, Hat0_4, Hvs4⟩
  sl_exec (disch := first | decide | omega)
  iapply (wp_wait_p2s m K c 4 rfl _) $$ [$Hrec $Hlev $Hc2_4 $HO $Hat2_4]
  iintro ⟨HO, Hat2_4, Hr1L_4⟩
  sl_exec (disch := first | decide | omega)
  iapply (wp_wait_p1s m K c 5 rfl _) $$ [$Hrec $Hlev $Hc0_5 $HO $Hat0_5]
  iintro ⟨HO, Hat0_5, Hvs5⟩
  sl_exec (disch := first | decide | omega)
  iapply (wp_wait_p2s m K c 5 rfl _) $$ [$Hrec $Hlev $Hc2_5 $HO $Hat2_5]
  iintro ⟨HO, Hat2_5, Hr1L_5⟩
  sl_exec (disch := first | decide | omega)
  iapply (wp_wait_p1s m K c 6 rfl _) $$ [$Hrec $Hlev $Hc0_6 $HO $Hat0_6]
  iintro ⟨HO, Hat0_6, Hvs6⟩
  sl_exec (disch := first | decide | omega)
  iapply (wp_wait_p2s m K c 6 rfl _) $$ [$Hrec $Hlev $Hc2_6 $HO $Hat2_6]
  iintro ⟨HO, Hat2_6, Hr1L_6⟩
  sl_exec (disch := first | decide | omega)
  iapply (wp_wait_p1s m K c 7 rfl _) $$ [$Hrec $Hlev $Hc0_7 $HO $Hat0_7]
  iintro ⟨HO, Hat0_7, Hvs7⟩
  sl_exec (disch := first | decide | omega)
  iapply (wp_wait_p2s m K c 7 rfl _) $$ [$Hrec $Hlev $Hc2_7 $HO $Hat2_7]
  iintro ⟨HO, Hat2_7, Hr1L_7⟩
  sl_exec (disch := first | decide | omega)
  iapply (wp_wait_p1s m K c 8 rfl _) $$ [$Hrec $Hlev $Hc0_8 $HO $Hat0_8]
  iintro ⟨HO, Hat0_8, Hvs8⟩
  sl_exec (disch := first | decide | omega)
  iapply (wp_wait_p2s m K c 8 rfl _) $$ [$Hrec $Hlev $Hc2_8 $HO $Hat2_8]
  iintro ⟨HO, Hat2_8, Hr1L_8⟩
  sl_exec (disch := first | decide | omega)
  iapply (wp_wait_p1s m K c 9 rfl _) $$ [$Hrec $Hlev $Hc0_9 $HO $Hat0_9]
  iintro ⟨HO, Hat0_9, Hvs9⟩
  sl_exec (disch := first | decide | omega)
  iapply (wp_wait_p2s m K c 9 rfl _) $$ [$Hrec $Hlev $Hc2_9 $HO $Hat2_9]
  iintro ⟨HO, Hat2_9, Hr1L_9⟩
  sl_exec (disch := first | decide | omega)
  iapply (wp_wait_p1s m K c 10 rfl _) $$ [$Hrec $Hlev $Hc0_10 $HO $Hat0_10]
  iintro ⟨HO, Hat0_10, Hvs10⟩
  sl_exec (disch := first | decide | omega)
  iapply (wp_wait_p2s m K c 10 rfl _) $$ [$Hrec $Hlev $Hc2_10 $HO $Hat2_10]
  iintro ⟨HO, Hat2_10, Hr1L_10⟩
  sl_exec (disch := first | decide | omega)
  iapply (wp_wait_p1s m K c 11 rfl _) $$ [$Hrec $Hlev $Hc0_11 $HO $Hat0_11]
  iintro ⟨HO, Hat0_11, Hvs11⟩
  sl_exec (disch := first | decide | omega)
  iapply (wp_wait_p2s m K c 11 rfl _) $$ [$Hrec $Hlev $Hc2_11 $HO $Hat2_11]
  iintro ⟨HO, Hat2_11, Hr1L_11⟩
  sl_exec (disch := first | decide | omega)
  iapply (wp_wait_p1s m K c 12 rfl _) $$ [$Hrec $Hlev $Hc0_12 $HO $Hat0_12]
  iintro ⟨HO, Hat0_12, Hvs12⟩
  sl_exec (disch := first | decide | omega)
  iapply (wp_wait_p2s m K c 12 rfl _) $$ [$Hrec $Hlev $Hc2_12 $HO $Hat2_12]
  iintro ⟨HO, Hat2_12, Hr1L_12⟩
  sl_exec (disch := first | decide | omega)
  iapply (wp_wait_p1s m K c 13 rfl _) $$ [$Hrec $Hlev $Hc0_13 $HO $Hat0_13]
  iintro ⟨HO, Hat0_13, Hvs13⟩
  sl_exec (disch := first | decide | omega)
  iapply (wp_wait_p2s m K c 13 rfl _) $$ [$Hrec $Hlev $Hc2_13 $HO $Hat2_13]
  iintro ⟨HO, Hat2_13, Hr1L_13⟩
  sl_exec (disch := first | decide | omega)
  iapply (wp_wait_p1s m K c 14 rfl _) $$ [$Hrec $Hlev $Hc0_14 $HO $Hat0_14]
  iintro ⟨HO, Hat0_14, Hvs14⟩
  sl_exec (disch := first | decide | omega)
  iapply (wp_wait_p2s m K c 14 rfl _) $$ [$Hrec $Hlev $Hc2_14 $HO $Hat2_14]
  iintro ⟨HO, Hat2_14, Hr1L_14⟩
  sl_exec (disch := first | decide | omega)
  iapply (wp_wait_p1s m K c 15 rfl _) $$ [$Hrec $Hlev $Hc0_15 $HO $Hat0_15]
  iintro ⟨HO, Hat0_15, Hvs15⟩
  sl_exec (disch := first | decide | omega)
  iapply (wp_wait_p2s m K c 15 rfl _) $$ [$Hrec $Hlev $Hc2_15 $HO $Hat2_15]
  iintro ⟨HO, Hat2_15, Hr1L_15⟩
  sl_exec (disch := first | decide | omega)
  imod (xclose m K c 0 0) $$ [$Hrec $Hat0_0] with Hz0_0
  imod (xclose m K c 0 1) $$ [$Hrec $Hat0_1] with Hz0_1
  imod (xclose m K c 0 2) $$ [$Hrec $Hat0_2] with Hz0_2
  imod (xclose m K c 0 3) $$ [$Hrec $Hat0_3] with Hz0_3
  imod (xclose m K c 0 4) $$ [$Hrec $Hat0_4] with Hz0_4
  imod (xclose m K c 0 5) $$ [$Hrec $Hat0_5] with Hz0_5
  imod (xclose m K c 0 6) $$ [$Hrec $Hat0_6] with Hz0_6
  imod (xclose m K c 0 7) $$ [$Hrec $Hat0_7] with Hz0_7
  imod (xclose m K c 0 8) $$ [$Hrec $Hat0_8] with Hz0_8
  imod (xclose m K c 0 9) $$ [$Hrec $Hat0_9] with Hz0_9
  imod (xclose m K c 0 10) $$ [$Hrec $Hat0_10] with Hz0_10
  imod (xclose m K c 0 11) $$ [$Hrec $Hat0_11] with Hz0_11
  imod (xclose m K c 0 12) $$ [$Hrec $Hat0_12] with Hz0_12
  imod (xclose m K c 0 13) $$ [$Hrec $Hat0_13] with Hz0_13
  imod (xclose m K c 0 14) $$ [$Hrec $Hat0_14] with Hz0_14
  imod (xclose m K c 0 15) $$ [$Hrec $Hat0_15] with Hz0_15
  imod (xclose m K c 1 0) $$ [$Hrec $Hat1_0] with Hz1_0
  imod (xclose m K c 1 1) $$ [$Hrec $Hat1_1] with Hz1_1
  imod (xclose m K c 1 2) $$ [$Hrec $Hat1_2] with Hz1_2
  imod (xclose m K c 1 3) $$ [$Hrec $Hat1_3] with Hz1_3
  imod (xclose m K c 1 4) $$ [$Hrec $Hat1_4] with Hz1_4
  imod (xclose m K c 1 5) $$ [$Hrec $Hat1_5] with Hz1_5
  imod (xclose m K c 1 6) $$ [$Hrec $Hat1_6] with Hz1_6
  imod (xclose m K c 1 7) $$ [$Hrec $Hat1_7] with Hz1_7
  imod (xclose m K c 1 8) $$ [$Hrec $Hat1_8] with Hz1_8
  imod (xclose m K c 1 9) $$ [$Hrec $Hat1_9] with Hz1_9
  imod (xclose m K c 1 10) $$ [$Hrec $Hat1_10] with Hz1_10
  imod (xclose m K c 1 11) $$ [$Hrec $Hat1_11] with Hz1_11
  imod (xclose m K c 1 12) $$ [$Hrec $Hat1_12] with Hz1_12
  imod (xclose m K c 1 13) $$ [$Hrec $Hat1_13] with Hz1_13
  imod (xclose m K c 1 14) $$ [$Hrec $Hat1_14] with Hz1_14
  imod (xclose m K c 1 15) $$ [$Hrec $Hat1_15] with Hz1_15
  imod (xclose m K c 2 0) $$ [$Hrec $Hat2_0] with Hz2_0
  imod (xclose m K c 2 1) $$ [$Hrec $Hat2_1] with Hz2_1
  imod (xclose m K c 2 2) $$ [$Hrec $Hat2_2] with Hz2_2
  imod (xclose m K c 2 3) $$ [$Hrec $Hat2_3] with Hz2_3
  imod (xclose m K c 2 4) $$ [$Hrec $Hat2_4] with Hz2_4
  imod (xclose m K c 2 5) $$ [$Hrec $Hat2_5] with Hz2_5
  imod (xclose m K c 2 6) $$ [$Hrec $Hat2_6] with Hz2_6
  imod (xclose m K c 2 7) $$ [$Hrec $Hat2_7] with Hz2_7
  imod (xclose m K c 2 8) $$ [$Hrec $Hat2_8] with Hz2_8
  imod (xclose m K c 2 9) $$ [$Hrec $Hat2_9] with Hz2_9
  imod (xclose m K c 2 10) $$ [$Hrec $Hat2_10] with Hz2_10
  imod (xclose m K c 2 11) $$ [$Hrec $Hat2_11] with Hz2_11
  imod (xclose m K c 2 12) $$ [$Hrec $Hat2_12] with Hz2_12
  imod (xclose m K c 2 13) $$ [$Hrec $Hat2_13] with Hz2_13
  imod (xclose m K c 2 14) $$ [$Hrec $Hat2_14] with Hz2_14
  imod (xclose m K c 2 15) $$ [$Hrec $Hat2_15] with Hz2_15
  imod (xclose m K c 3 0) $$ [$Hrec $Hat3_0] with Hz3_0
  imod (xclose m K c 3 1) $$ [$Hrec $Hat3_1] with Hz3_1
  imod (xclose m K c 3 2) $$ [$Hrec $Hat3_2] with Hz3_2
  imod (xclose m K c 3 3) $$ [$Hrec $Hat3_3] with Hz3_3
  imod (xclose m K c 3 4) $$ [$Hrec $Hat3_4] with Hz3_4
  imod (xclose m K c 3 5) $$ [$Hrec $Hat3_5] with Hz3_5
  imod (xclose m K c 3 6) $$ [$Hrec $Hat3_6] with Hz3_6
  imod (xclose m K c 3 7) $$ [$Hrec $Hat3_7] with Hz3_7
  imod (xclose m K c 3 8) $$ [$Hrec $Hat3_8] with Hz3_8
  imod (xclose m K c 3 9) $$ [$Hrec $Hat3_9] with Hz3_9
  imod (xclose m K c 3 10) $$ [$Hrec $Hat3_10] with Hz3_10
  imod (xclose m K c 3 11) $$ [$Hrec $Hat3_11] with Hz3_11
  imod (xclose m K c 3 12) $$ [$Hrec $Hat3_12] with Hz3_12
  imod (xclose m K c 3 13) $$ [$Hrec $Hat3_13] with Hz3_13
  imod (xclose m K c 3 14) $$ [$Hrec $Hat3_14] with Hz3_14
  imod (xclose m K c 3 15) $$ [$Hrec $Hat3_15] with Hz3_15
  ihave Hr1_0 := (pts_halve (r1M 0) c _).2 $$ [Hr1L_0 Hr1R_0]
  · isplitl [Hr1L_0] <;> iassumption
  ihave Hr1_1 := (pts_halve (r1M 1) c _).2 $$ [Hr1L_1 Hr1R_1]
  · isplitl [Hr1L_1] <;> iassumption
  ihave Hr1_2 := (pts_halve (r1M 2) c _).2 $$ [Hr1L_2 Hr1R_2]
  · isplitl [Hr1L_2] <;> iassumption
  ihave Hr1_3 := (pts_halve (r1M 3) c _).2 $$ [Hr1L_3 Hr1R_3]
  · isplitl [Hr1L_3] <;> iassumption
  ihave Hr1_4 := (pts_halve (r1M 4) c _).2 $$ [Hr1L_4 Hr1R_4]
  · isplitl [Hr1L_4] <;> iassumption
  ihave Hr1_5 := (pts_halve (r1M 5) c _).2 $$ [Hr1L_5 Hr1R_5]
  · isplitl [Hr1L_5] <;> iassumption
  ihave Hr1_6 := (pts_halve (r1M 6) c _).2 $$ [Hr1L_6 Hr1R_6]
  · isplitl [Hr1L_6] <;> iassumption
  ihave Hr1_7 := (pts_halve (r1M 7) c _).2 $$ [Hr1L_7 Hr1R_7]
  · isplitl [Hr1L_7] <;> iassumption
  ihave Hr1_8 := (pts_halve (r1M 8) c _).2 $$ [Hr1L_8 Hr1R_8]
  · isplitl [Hr1L_8] <;> iassumption
  ihave Hr1_9 := (pts_halve (r1M 9) c _).2 $$ [Hr1L_9 Hr1R_9]
  · isplitl [Hr1L_9] <;> iassumption
  ihave Hr1_10 := (pts_halve (r1M 10) c _).2 $$ [Hr1L_10 Hr1R_10]
  · isplitl [Hr1L_10] <;> iassumption
  ihave Hr1_11 := (pts_halve (r1M 11) c _).2 $$ [Hr1L_11 Hr1R_11]
  · isplitl [Hr1L_11] <;> iassumption
  ihave Hr1_12 := (pts_halve (r1M 12) c _).2 $$ [Hr1L_12 Hr1R_12]
  · isplitl [Hr1L_12] <;> iassumption
  ihave Hr1_13 := (pts_halve (r1M 13) c _).2 $$ [Hr1L_13 Hr1R_13]
  · isplitl [Hr1L_13] <;> iassumption
  ihave Hr1_14 := (pts_halve (r1M 14) c _).2 $$ [Hr1L_14 Hr1R_14]
  · isplitl [Hr1L_14] <;> iassumption
  ihave Hr1_15 := (pts_halve (r1M 15) c _).2 $$ [Hr1L_15 Hr1R_15]
  · isplitl [Hr1L_15] <;> iassumption
  sl_step
  iapply Hk
  isplitl [HO]; · iexists _; iexact HO
  isplitl [Hxs0]; · iexact Hxs0
  isplitl [Hxs1]; · iexact Hxs1
  isplitl [Hxs2]; · iexact Hxs2
  isplitl [Hxs3]; · iexact Hxs3
  isplitl [Hxs4]; · iexact Hxs4
  isplitl [Hxs5]; · iexact Hxs5
  isplitl [Hxs6]; · iexact Hxs6
  isplitl [Hxs7]; · iexact Hxs7
  isplitl [Hxs8]; · iexact Hxs8
  isplitl [Hxs9]; · iexact Hxs9
  isplitl [Hxs10]; · iexact Hxs10
  isplitl [Hxs11]; · iexact Hxs11
  isplitl [Hxs12]; · iexact Hxs12
  isplitl [Hxs13]; · iexact Hxs13
  isplitl [Hxs14]; · iexact Hxs14
  isplitl [Hxs15]; · iexact Hxs15
  isplitl [Hxl0]; · iexact Hxl0
  isplitl [Hxl1]; · iexact Hxl1
  isplitl [Hxl2]; · iexact Hxl2
  isplitl [Hxl3]; · iexact Hxl3
  isplitl [Hxl4]; · iexact Hxl4
  isplitl [Hxl5]; · iexact Hxl5
  isplitl [Hxl6]; · iexact Hxl6
  isplitl [Hxl7]; · iexact Hxl7
  isplitl [Hvs0]; · iexact Hvs0
  isplitl [Hvs1]; · iexact Hvs1
  isplitl [Hvs2]; · iexact Hvs2
  isplitl [Hvs3]; · iexact Hvs3
  isplitl [Hvs4]; · iexact Hvs4
  isplitl [Hvs5]; · iexact Hvs5
  isplitl [Hvs6]; · iexact Hvs6
  isplitl [Hvs7]; · iexact Hvs7
  isplitl [Hvs8]; · iexact Hvs8
  isplitl [Hvs9]; · iexact Hvs9
  isplitl [Hvs10]; · iexact Hvs10
  isplitl [Hvs11]; · iexact Hvs11
  isplitl [Hvs12]; · iexact Hvs12
  isplitl [Hvs13]; · iexact Hvs13
  isplitl [Hvs14]; · iexact Hvs14
  isplitl [Hvs15]; · iexact Hvs15
  isplitl [Hr1_0]; · iexists _; iexact Hr1_0
  isplitl [Hr1_1]; · iexists _; iexact Hr1_1
  isplitl [Hr1_2]; · iexists _; iexact Hr1_2
  isplitl [Hr1_3]; · iexists _; iexact Hr1_3
  isplitl [Hr1_4]; · iexists _; iexact Hr1_4
  isplitl [Hr1_5]; · iexists _; iexact Hr1_5
  isplitl [Hr1_6]; · iexists _; iexact Hr1_6
  isplitl [Hr1_7]; · iexists _; iexact Hr1_7
  isplitl [Hr1_8]; · iexists _; iexact Hr1_8
  isplitl [Hr1_9]; · iexists _; iexact Hr1_9
  isplitl [Hr1_10]; · iexists _; iexact Hr1_10
  isplitl [Hr1_11]; · iexists _; iexact Hr1_11
  isplitl [Hr1_12]; · iexists _; iexact Hr1_12
  isplitl [Hr1_13]; · iexists _; iexact Hr1_13
  isplitl [Hr1_14]; · iexists _; iexact Hr1_14
  isplitl [Hr1_15]; · iexists _; iexact Hr1_15
  isplitl [Hr2_0]; · iexists _; iexact Hr2_0
  isplitl [Hr2_1]; · iexists _; iexact Hr2_1
  isplitl [Hr2_2]; · iexists _; iexact Hr2_2
  isplitl [Hr2_3]; · iexists _; iexact Hr2_3
  isplitl [Hr2_4]; · iexists _; iexact Hr2_4
  isplitl [Hr2_5]; · iexists _; iexact Hr2_5
  isplitl [Hr2_6]; · iexists _; iexact Hr2_6
  isplitl [Hr2_7]; · iexists _; iexact Hr2_7
  isplitl [Hr2_8]; · iexists _; iexact Hr2_8
  isplitl [Hr2_9]; · iexists _; iexact Hr2_9
  isplitl [Hr2_10]; · iexists _; iexact Hr2_10
  isplitl [Hr2_11]; · iexists _; iexact Hr2_11
  isplitl [Hr2_12]; · iexists _; iexact Hr2_12
  isplitl [Hr2_13]; · iexists _; iexact Hr2_13
  isplitl [Hr2_14]; · iexists _; iexact Hr2_14
  isplitl [Hr2_15]; · iexists _; iexact Hr2_15
  isplitl [Hst0]; · iexists _; iexact Hst0
  isplitl [Hst1]; · iexists _; iexact Hst1
  isplitl [Hst2]; · iexists _; iexact Hst2
  isplitl [Hst3]; · iexists _; iexact Hst3
  isplitl [Hst4]; · iexists _; iexact Hst4
  isplitl [Hst5]; · iexists _; iexact Hst5
  isplitl [Hst6]; · iexists _; iexact Hst6
  isplitl [Hst7]; · iexists _; iexact Hst7
  isplitl [Ho1_0]; · iapply (Entails.of_eq (chunk_congr (o1M c 0) c fullShare _ _ (st1_lands m c 0 _))); iexact Ho1_0
  isplitl [Ho1_1]; · iapply (Entails.of_eq (chunk_congr (o1M c 1) c fullShare _ _ (st1_lands m c 1 _))); iexact Ho1_1
  isplitl [Ho1_2]; · iapply (Entails.of_eq (chunk_congr (o1M c 2) c fullShare _ _ (st1_lands m c 2 _))); iexact Ho1_2
  isplitl [Ho1_3]; · iapply (Entails.of_eq (chunk_congr (o1M c 3) c fullShare _ _ (st1_lands m c 3 _))); iexact Ho1_3
  isplitl [Ho1_4]; · iapply (Entails.of_eq (chunk_congr (o1M c 4) c fullShare _ _ (st1_lands m c 4 _))); iexact Ho1_4
  isplitl [Ho1_5]; · iapply (Entails.of_eq (chunk_congr (o1M c 5) c fullShare _ _ (st1_lands m c 5 _))); iexact Ho1_5
  isplitl [Ho1_6]; · iapply (Entails.of_eq (chunk_congr (o1M c 6) c fullShare _ _ (st1_lands m c 6 _))); iexact Ho1_6
  isplitl [Ho1_7]; · iapply (Entails.of_eq (chunk_congr (o1M c 7) c fullShare _ _ (st1_lands m c 7 _))); iexact Ho1_7
  isplitl [Ho1_8]; · iapply (Entails.of_eq (chunk_congr (o1M c 8) c fullShare _ _ (st1_lands m c 8 _))); iexact Ho1_8
  isplitl [Ho1_9]; · iapply (Entails.of_eq (chunk_congr (o1M c 9) c fullShare _ _ (st1_lands m c 9 _))); iexact Ho1_9
  isplitl [Ho1_10]; · iapply (Entails.of_eq (chunk_congr (o1M c 10) c fullShare _ _ (st1_lands m c 10 _))); iexact Ho1_10
  isplitl [Ho1_11]; · iapply (Entails.of_eq (chunk_congr (o1M c 11) c fullShare _ _ (st1_lands m c 11 _))); iexact Ho1_11
  isplitl [Ho1_12]; · iapply (Entails.of_eq (chunk_congr (o1M c 12) c fullShare _ _ (st1_lands m c 12 _))); iexact Ho1_12
  isplitl [Ho1_13]; · iapply (Entails.of_eq (chunk_congr (o1M c 13) c fullShare _ _ (st1_lands m c 13 _))); iexact Ho1_13
  isplitl [Ho1_14]; · iapply (Entails.of_eq (chunk_congr (o1M c 14) c fullShare _ _ (st1_lands m c 14 _))); iexact Ho1_14
  isplitl [Ho1_15]; · iapply (Entails.of_eq (chunk_congr (o1M c 15) c fullShare _ _ (st1_lands m c 15 _))); iexact Ho1_15
  isplitl [Ho2_0]; · iapply (Entails.of_eq (chunk_congr (o2M c 0) c fullShare _ _ (st2_lands m c 0 _))); iexact Ho2_0
  isplitl [Ho2_1]; · iapply (Entails.of_eq (chunk_congr (o2M c 1) c fullShare _ _ (st2_lands m c 1 _))); iexact Ho2_1
  isplitl [Ho2_2]; · iapply (Entails.of_eq (chunk_congr (o2M c 2) c fullShare _ _ (st2_lands m c 2 _))); iexact Ho2_2
  isplitl [Ho2_3]; · iapply (Entails.of_eq (chunk_congr (o2M c 3) c fullShare _ _ (st2_lands m c 3 _))); iexact Ho2_3
  isplitl [Ho2_4]; · iapply (Entails.of_eq (chunk_congr (o2M c 4) c fullShare _ _ (st2_lands m c 4 _))); iexact Ho2_4
  isplitl [Ho2_5]; · iapply (Entails.of_eq (chunk_congr (o2M c 5) c fullShare _ _ (st2_lands m c 5 _))); iexact Ho2_5
  isplitl [Ho2_6]; · iapply (Entails.of_eq (chunk_congr (o2M c 6) c fullShare _ _ (st2_lands m c 6 _))); iexact Ho2_6
  isplitl [Ho2_7]; · iapply (Entails.of_eq (chunk_congr (o2M c 7) c fullShare _ _ (st2_lands m c 7 _))); iexact Ho2_7
  isplitl [Ho2_8]; · iapply (Entails.of_eq (chunk_congr (o2M c 8) c fullShare _ _ (st2_lands m c 8 _))); iexact Ho2_8
  isplitl [Ho2_9]; · iapply (Entails.of_eq (chunk_congr (o2M c 9) c fullShare _ _ (st2_lands m c 9 _))); iexact Ho2_9
  isplitl [Ho2_10]; · iapply (Entails.of_eq (chunk_congr (o2M c 10) c fullShare _ _ (st2_lands m c 10 _))); iexact Ho2_10
  isplitl [Ho2_11]; · iapply (Entails.of_eq (chunk_congr (o2M c 11) c fullShare _ _ (st2_lands m c 11 _))); iexact Ho2_11
  isplitl [Ho2_12]; · iapply (Entails.of_eq (chunk_congr (o2M c 12) c fullShare _ _ (st2_lands m c 12 _))); iexact Ho2_12
  isplitl [Ho2_13]; · iapply (Entails.of_eq (chunk_congr (o2M c 13) c fullShare _ _ (st2_lands m c 13 _))); iexact Ho2_13
  isplitl [Ho2_14]; · iapply (Entails.of_eq (chunk_congr (o2M c 14) c fullShare _ _ (st2_lands m c 14 _))); iexact Ho2_14
  isplitl [Ho2_15]; · iapply (Entails.of_eq (chunk_congr (o2M c 15) c fullShare _ _ (st2_lands m c 15 _))); iexact Ho2_15
  isplitl [Hol0]; · iapply (Entails.of_eq (chunk_congr (olM c 0) c fullShare _ _ (lcout_lands m c 0 _ _ (lcin_lands m c 0 _)))); iexact Hol0
  isplitl [Hol1]; · iapply (Entails.of_eq (chunk_congr (olM c 1) c fullShare _ _ (lcout_lands m c 1 _ _ (lcin_lands m c 1 _)))); iexact Hol1
  isplitl [Hol2]; · iapply (Entails.of_eq (chunk_congr (olM c 2) c fullShare _ _ (lcout_lands m c 2 _ _ (lcin_lands m c 2 _)))); iexact Hol2
  isplitl [Hol3]; · iapply (Entails.of_eq (chunk_congr (olM c 3) c fullShare _ _ (lcout_lands m c 3 _ _ (lcin_lands m c 3 _)))); iexact Hol3
  isplitl [Hol4]; · iapply (Entails.of_eq (chunk_congr (olM c 4) c fullShare _ _ (lcout_lands m c 4 _ _ (lcin_lands m c 4 _)))); iexact Hol4
  isplitl [Hol5]; · iapply (Entails.of_eq (chunk_congr (olM c 5) c fullShare _ _ (lcout_lands m c 5 _ _ (lcin_lands m c 5 _)))); iexact Hol5
  isplitl [Hol6]; · iapply (Entails.of_eq (chunk_congr (olM c 6) c fullShare _ _ (lcout_lands m c 6 _ _ (lcin_lands m c 6 _)))); iexact Hol6
  isplitl [Hol7]; · iapply (Entails.of_eq (chunk_congr (olM c 7) c fullShare _ _ (lcout_lands m c 7 _ _ (lcin_lands m c 7 _)))); iexact Hol7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs80]; · iexact Hs80
  isplitl [Hs81]; · iexact Hs81
  isplitl [Hs82]; · iexact Hs82
  isplitl [Hs83]; · iexact Hs83
  isplitl [Hs84]; · iexact Hs84
  isplitl [Hs85]; · iexact Hs85
  isplitl [Hs86]; · iexact Hs86
  isplitl [Hs87]; · iexact Hs87
  isplitl [Hs88]; · iexact Hs88
  isplitl [Hs89]; · iexact Hs89
  isplitl [Hs90]; · iexact Hs90
  isplitl [Hs91]; · iexact Hs91
  isplitl [Hs92]; · iexact Hs92
  isplitl [Hs93]; · iexact Hs93
  isplitl [Hs94]; · iexact Hs94
  isplitl [Hs95]; · iexact Hs95
  isplitl [Hs96]; · iexact Hs96
  isplitl [Hs97]; · iexact Hs97
  isplitl [Hs98]; · iexact Hs98
  isplitl [Hs99]; · iexact Hs99
  isplitl [Hs100]; · iexact Hs100
  isplitl [Hs101]; · iexact Hs101
  isplitl [Hs102]; · iexact Hs102
  isplitl [Hs103]; · iexact Hs103
  isplitl [Hs104]; · iexact Hs104
  isplitl [Hs105]; · iexact Hs105
  isplitl [Hs106]; · iexact Hs106
  isplitl [Hs107]; · iexact Hs107
  isplitl [Hs108]; · iexact Hs108
  isplitl [Hs109]; · iexact Hs109
  isplitl [Hs110]; · iexact Hs110
  isplitl [Hs111]; · iexact Hs111
  isplitl [Hs112]; · iexact Hs112
  isplitl [Hs113]; · iexact Hs113
  isplitl [Hs114]; · iexact Hs114
  isplitl [Hs115]; · iexact Hs115
  isplitl [Hs116]; · iexact Hs116
  isplitl [Hs117]; · iexact Hs117
  isplitl [Hs118]; · iexact Hs118
  isplitl [Hs119]; · iexact Hs119
  isplitl [Hs120]; · iexact Hs120
  isplitl [Hs121]; · iexact Hs121
  isplitl [Hs122]; · iexact Hs122
  isplitl [Hs123]; · iexact Hs123
  isplitl [Hs124]; · iexact Hs124
  isplitl [Hs125]; · iexact Hs125
  isplitl [Hs126]; · iexact Hs126
  isplitl [Hs127]; · iexact Hs127
  isplitl [Hz0_0]; · iexact Hz0_0
  isplitl [Hz0_1]; · iexact Hz0_1
  isplitl [Hz0_2]; · iexact Hz0_2
  isplitl [Hz0_3]; · iexact Hz0_3
  isplitl [Hz0_4]; · iexact Hz0_4
  isplitl [Hz0_5]; · iexact Hz0_5
  isplitl [Hz0_6]; · iexact Hz0_6
  isplitl [Hz0_7]; · iexact Hz0_7
  isplitl [Hz0_8]; · iexact Hz0_8
  isplitl [Hz0_9]; · iexact Hz0_9
  isplitl [Hz0_10]; · iexact Hz0_10
  isplitl [Hz0_11]; · iexact Hz0_11
  isplitl [Hz0_12]; · iexact Hz0_12
  isplitl [Hz0_13]; · iexact Hz0_13
  isplitl [Hz0_14]; · iexact Hz0_14
  isplitl [Hz0_15]; · iexact Hz0_15
  isplitl [Hz1_0]; · iexact Hz1_0
  isplitl [Hz1_1]; · iexact Hz1_1
  isplitl [Hz1_2]; · iexact Hz1_2
  isplitl [Hz1_3]; · iexact Hz1_3
  isplitl [Hz1_4]; · iexact Hz1_4
  isplitl [Hz1_5]; · iexact Hz1_5
  isplitl [Hz1_6]; · iexact Hz1_6
  isplitl [Hz1_7]; · iexact Hz1_7
  isplitl [Hz1_8]; · iexact Hz1_8
  isplitl [Hz1_9]; · iexact Hz1_9
  isplitl [Hz1_10]; · iexact Hz1_10
  isplitl [Hz1_11]; · iexact Hz1_11
  isplitl [Hz1_12]; · iexact Hz1_12
  isplitl [Hz1_13]; · iexact Hz1_13
  isplitl [Hz1_14]; · iexact Hz1_14
  isplitl [Hz1_15]; · iexact Hz1_15
  isplitl [Hz2_0]; · iexact Hz2_0
  isplitl [Hz2_1]; · iexact Hz2_1
  isplitl [Hz2_2]; · iexact Hz2_2
  isplitl [Hz2_3]; · iexact Hz2_3
  isplitl [Hz2_4]; · iexact Hz2_4
  isplitl [Hz2_5]; · iexact Hz2_5
  isplitl [Hz2_6]; · iexact Hz2_6
  isplitl [Hz2_7]; · iexact Hz2_7
  isplitl [Hz2_8]; · iexact Hz2_8
  isplitl [Hz2_9]; · iexact Hz2_9
  isplitl [Hz2_10]; · iexact Hz2_10
  isplitl [Hz2_11]; · iexact Hz2_11
  isplitl [Hz2_12]; · iexact Hz2_12
  isplitl [Hz2_13]; · iexact Hz2_13
  isplitl [Hz2_14]; · iexact Hz2_14
  isplitl [Hz2_15]; · iexact Hz2_15
  isplitl [Hz3_0]; · iexact Hz3_0
  isplitl [Hz3_1]; · iexact Hz3_1
  isplitl [Hz3_2]; · iexact Hz3_2
  isplitl [Hz3_3]; · iexact Hz3_3
  isplitl [Hz3_4]; · iexact Hz3_4
  isplitl [Hz3_5]; · iexact Hz3_5
  isplitl [Hz3_6]; · iexact Hz3_6
  isplitl [Hz3_7]; · iexact Hz3_7
  isplitl [Hz3_8]; · iexact Hz3_8
  isplitl [Hz3_9]; · iexact Hz3_9
  isplitl [Hz3_10]; · iexact Hz3_10
  isplitl [Hz3_11]; · iexact Hz3_11
  isplitl [Hz3_12]; · iexact Hz3_12
  isplitl [Hz3_13]; · iexact Hz3_13
  isplitl [Hz3_14]; · iexact Hz3_14
  iexact Hz3_15

/-- info: 'Cert.KernelIdeal.A2A.sound_body' depends on axioms: [propext, Classical.choice, Quot.sound] -/
#guard_msgs in #print axioms sound_body

end Cert.KernelIdeal.A2A
end
-- ==== Proof.KernelIdealJoin.lean ====
import proofs.«900019_g7700000000000020_dist_a2a_v7x_xy2x2_x_m4096_n1024_f32_1_alg».proof.Proof.KernelIdealRegions
import Idealize.SL.ProofMode.BigOp

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def rowChunk (i : S2048x1024.Idx) : Fin 16 := ⟨(i 0).val / 128, by have h : (i 0).val < 2048 := (i 0).isLt; omega⟩

theorem rowChunk_of_mem (k : Fin 16) (i : S2048x1024.Idx) (hi : i ∈ (rows16 k).set) : rowChunk i = k := by
  rw [mem_unit2] at hi
  have h1 : 128 * k.val ≤ (i 0).val := hi.1.1
  have h2 : (i 0).val < 128 * k.val + 128 := hi.1.2
  exact Fin.ext (by show (i 0).val / 128 = k.val; omega)

def slabOf (i : S8x512x1024.Idx) : Fin 8 := ⟨(i 0).val, (i 0).isLt⟩

theorem slabOf_of_mem (k : Fin 8) (i : S8x512x1024.Idx) (hi : i ∈ (slab8 k).set) : slabOf i = k := by
  have h := (Rect.mem_set_unit.mp hi) 0
  have h1 : k.val ≤ (i 0).val := h.1
  have h2 : (i 0).val < k.val + 1 := h.2
  exact Fin.ext (by show (i 0).val = k.val; omega)

theorem vs_join (c : Dev nD) : (bigSep Finset.univ fun k : Fin 16 => iprop(∃ f, pts (vsM k) c fullShare f) : sProp 𝕄)
    ⊢ iprop(∃ f : Buf (Elt F) ((c : Thread nD τ).loc cc0_scratch0), ((c : Thread nD τ).loc cc0_scratch0) ↦{fullShare} f) := by
  refine (bigSep_exists_pi (Y := fun _ : Fin 16 => Buf (Elt F) ((c : Thread nD τ).loc cc0_scratch0)) Finset.univ
      (fun k f => pts (vsM k) c fullShare f)).trans ?_
  refine exists_elim fun f => ?_
  have e : (bigSep Finset.univ fun k : Fin 16 => (pts (vsM k) c fullShare (f k) : sProp 𝕄))
      = bigSep Finset.univ fun k : Fin 16 => pts (vsM k) c fullShare (fun i : S2048x1024.Idx => f (rowChunk i) i) :=
    bigSep_congr fun k _ => chunk_congr (vsM k) c fullShare _ _ fun i hi => by
      rw [vs_set] at hi
      show f k i = f (rowChunk i) i
      rw [rowChunk_of_mem k i hi]
  rw [e]
  exact (vs_chunks c _).2.trans (exists_intro (Φ := fun f : Buf (Elt F) ((c : Thread nD τ).loc cc0_scratch0) => (((c : Thread nD τ).loc cc0_scratch0) ↦{fullShare} f : sProp 𝕄)) _)

theorem r1_join (c : Dev nD) : (bigSep Finset.univ fun k : Fin 16 => iprop(∃ f, pts (r1M k) c fullShare f) : sProp 𝕄)
    ⊢ iprop(∃ f : Buf (Elt F) ((c : Thread nD τ).loc cc0_scratch1), ((c : Thread nD τ).loc cc0_scratch1) ↦{fullShare} f) := by
  refine (bigSep_exists_pi (Y := fun _ : Fin 16 => Buf (Elt F) ((c : Thread nD τ).loc cc0_scratch1)) Finset.univ
      (fun k f => pts (r1M k) c fullShare f)).trans ?_
  refine exists_elim fun f => ?_
  have e : (bigSep Finset.univ fun k : Fin 16 => (pts (r1M k) c fullShare (f k) : sProp 𝕄))
      = bigSep Finset.univ fun k : Fin 16 => pts (r1M k) c fullShare (fun i : S2048x1024.Idx => f (rowChunk i) i) :=
    bigSep_congr fun k _ => chunk_congr (r1M k) c fullShare _ _ fun i hi => by
      rw [r1_set] at hi
      show f k i = f (rowChunk i) i
      rw [rowChunk_of_mem k i hi]
  rw [e]
  exact (r1_chunks c _).2.trans (exists_intro (Φ := fun f : Buf (Elt F) ((c : Thread nD τ).loc cc0_scratch1) => (((c : Thread nD τ).loc cc0_scratch1) ↦{fullShare} f : sProp 𝕄)) _)

theorem r2_join (c : Dev nD) : (bigSep Finset.univ fun k : Fin 16 => iprop(∃ f, pts (r2M k) c fullShare f) : sProp 𝕄)
    ⊢ iprop(∃ f : Buf (Elt F) ((c : Thread nD τ).loc cc0_scratch2), ((c : Thread nD τ).loc cc0_scratch2) ↦{fullShare} f) := by
  refine (bigSep_exists_pi (Y := fun _ : Fin 16 => Buf (Elt F) ((c : Thread nD τ).loc cc0_scratch2)) Finset.univ
      (fun k f => pts (r2M k) c fullShare f)).trans ?_
  refine exists_elim fun f => ?_
  have e : (bigSep Finset.univ fun k : Fin 16 => (pts (r2M k) c fullShare (f k) : sProp 𝕄))
      = bigSep Finset.univ fun k : Fin 16 => pts (r2M k) c fullShare (fun i : S2048x1024.Idx => f (rowChunk i) i) :=
    bigSep_congr fun k _ => chunk_congr (r2M k) c fullShare _ _ fun i hi => by
      rw [r2_set] at hi
      show f k i = f (rowChunk i) i
      rw [rowChunk_of_mem k i hi]
  rw [e]
  exact (r2_chunks c _).2.trans (exists_intro (Φ := fun f : Buf (Elt F) ((c : Thread nD τ).loc cc0_scratch2) => (((c : Thread nD τ).loc cc0_scratch2) ↦{fullShare} f : sProp 𝕄)) _)

theorem st_join (c : Dev nD) : (bigSep Finset.univ fun k : Fin 8 => iprop(∃ f, pts (stM k) c fullShare f) : sProp 𝕄)
    ⊢ iprop(∃ f : Buf (Elt F) ((c : Thread nD τ).loc cc0_scratch3), ((c : Thread nD τ).loc cc0_scratch3) ↦{fullShare} f) := by
  refine (bigSep_exists_pi (Y := fun _ : Fin 8 => Buf (Elt F) ((c : Thread nD τ).loc cc0_scratch3)) Finset.univ
      (fun k f => pts (stM k) c fullShare f)).trans ?_
  refine exists_elim fun f => ?_
  have e : (bigSep Finset.univ fun k : Fin 8 => (pts (stM k) c fullShare (f k) : sProp 𝕄))
      = bigSep Finset.univ fun k : Fin 8 => pts (stM k) c fullShare (fun i : S8x512x1024.Idx => f (slabOf i) i) :=
    bigSep_congr fun k _ => chunk_congr (stM k) c fullShare _ _ fun i hi => by
      rw [st_set] at hi
      show f k i = f (slabOf i) i
      rw [slabOf_of_mem k i hi]
  rw [e]
  exact (st_chunks c _).2.trans (exists_intro (Φ := fun f : Buf (Elt F) ((c : Thread nD τ).loc cc0_scratch3) => (((c : Thread nD τ).loc cc0_scratch3) ↦{fullShare} f : sProp 𝕄)) _)

end Cert.KernelIdeal.A2A
end
-- ==== Proof.KernelIdealObligation.lean ====
import proofs.«900019_g7700000000000020_dist_a2a_v7x_xy2x2_x_m4096_n1024_f32_1_alg».proof.Proof.KernelIdealBody
import proofs.«900019_g7700000000000020_dist_a2a_v7x_xy2x2_x_m4096_n1024_f32_1_alg».proof.Proof.KernelIdealInv
import proofs.«900019_g7700000000000020_dist_a2a_v7x_xy2x2_x_m4096_n1024_f32_1_alg».proof.Proof.KernelIdealRegions
import proofs.«900019_g7700000000000020_dist_a2a_v7x_xy2x2_x_m4096_n1024_f32_1_alg».proof.Proof.KernelIdealJoin

noncomputable section

namespace Cert.KernelIdeal.A2A

open Cert.KernelIdeal Cert.KernelIdeal.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
theorem post_back (c : Dev nD) :
    iprop((((c : Thread nD τ).loc main_arg0) ↦[xRest c]{fullShare} m ((c : Thread nD τ).loc main_arg0)) ∗ postGrouped m c)
      ⊢ iprop(Φ₁ m c ∗ (dats (F := F) m 0 c).owesAt () t0_0.succ) := by
  unfold postGrouped
  unfold Φ₁ scratchAny Dat.owesAt Pipeline.owesWithin
  rw [show (dats (F := F) m 0 c).owed t0_0.succ = 0 from rfl]
  iintro ⟨Hxr, ⟨%W', HO⟩, ⟨Hxs, Hxl⟩, Hvs, Hr1, Hr2, Hst, Ho, Hloc, Hsem⟩
  isplitr [HO]
  · isplitl [Hxr Hxs Hxl]
    · iapply (x_chunks c _).2
      isplitl [Hxs]; · iexact Hxs
      isplitl [Hxl]; · iexact Hxl
      iexact Hxr
    isplitl [Ho]
    · iapply (o_chunks c _).2; iexact Ho
    isplitl [Hvs Hr1 Hr2 Hst]
    · isplitl [Hvs]; · iapply (vs_join c); iexact Hvs
      isplitl [Hr1]; · iapply (r1_join c); iexact Hr1
      isplitl [Hr2]; · iapply (r2_join c); iexact Hr2
      iapply (st_join c); iexact Hst
    isplitl [Hloc] <;> iassumption
  · iexists W'
    isplitr; · ipureintro; exact fun _ _ => Or.inl trivial
    iexact HO

set_option maxRecDepth 65536 in
/-- The library's body obligation on device `c`: going in the buffers are cut into their chunks, coming back the chunks are joined. -/
theorem body_obligation (c : Dev nD) : BodyObligation (dats (F := F) m 0 c) (defs₀ (F := F)) 𝒱₀ () Set.univ := fun t => by
  rw [Gen.fin_N0 t]
  have hW0 (Φ : Fin cfg0.W → sProp 𝕄) : bigSep Finset.univ Φ = iprop(emp) := by
    rw [show (Finset.univ : Finset (Fin cfg0.W)) = ∅ from Finset.eq_empty_of_forall_notMem fun w => w.elim0]; rfl
  simp only [hW0]
  show iprop(Φ₀ m c ∗ (dats (F := F) m 0 c).owesAt () t0_0.castSucc ∗ emp)
    ⊢ wp frame (wpE (defs₀ (F := F)) 𝒱₀ c none) Set.univ (bodyAt0 (F := F) t0_0)
        (fun _ => iprop(Φ₁ m c ∗ (dats (F := F) m 0 c).owesAt () t0_0.succ ∗ emp))
  unfold Φ₀ start ghost linear scratchAny
  unfold Dat.owesAt Pipeline.owesWithin
  rw [show (dats (F := F) m 0 c).owed t0_0.castSucc = O₀ c from rfl]
  iintro ⟨⟨⟨⟨%K, #Hrec, Hat, Htok⟩, Hloc, Hcred, #Hlev⟩, Hx, ⟨%g, Hg⟩, ⟨%fvs, Hvs⟩, ⟨%f1, Hr1⟩, ⟨%f2, Hr2⟩, ⟨%fst, Hst⟩⟩, ⟨%W, %hW, HO⟩, -⟩
  ihave Hx' := (x_chunks c _).1 $$ Hx
  icases Hx' with ⟨Hxs, Hxl, Hxr⟩
  ihave Hg' := (o_chunks c g).1 $$ Hg
  ihave Hvs' := (vs_chunks c fvs).1 $$ Hvs
  ihave Hr1' := ((r1_chunks c f1).1.trans (bigSep_mono fun k _ =>
      show (pts (r1M k) c fullShare f1 : sProp 𝕄) ⊢ iprop(∃ f, pts (r1M k) c fullShare f) from by iintro H; iexists f1; iexact H)) $$ Hr1
  ihave Hr2' := ((r2_chunks c f2).1.trans (bigSep_mono fun k _ =>
      show (pts (r2M k) c fullShare f2 : sProp 𝕄) ⊢ iprop(∃ f, pts (r2M k) c fullShare f) from by iintro H; iexists f2; iexact H)) $$ Hr2
  ihave Hst' := (st_chunks c fst).1 $$ Hst
  iapply (sound_body m K c (fun _ => iprop(Φ₁ m c ∗ (dats (F := F) m 0 c).owesAt () t0_0.succ ∗ emp)) W fvs fst g _ _ _ rfl rfl rfl)
  isplitr; · iexact Hrec
  isplitr; · iexact Hlev
  isplitl [HO]; · iexact HO
  isplitl [Htok]; · iexact Htok
  isplitl [Hat]; · iexact Hat
  isplitl [Hcred]; · iexact Hcred
  isplitl [Hloc]; · iexact Hloc
  isplitl [Hxs Hxl]; · isplitl [Hxs] <;> iassumption
  isplitl [Hvs']; · iexact Hvs'
  isplitl [Hr1']; · iexact Hr1'
  isplitl [Hr2']; · iexact Hr2'
  isplitl [Hst']; · iexact Hst'
  isplitl [Hg']; · iexact Hg'
  iintro Hpost
  ihave H := (post_back m c) $$ [Hxr Hpost]
  · isplitl [Hxr] <;> iassumption
  icases H with ⟨H1, H2⟩
  isplitl [H1]; · iexact H1
  isplitl [H2]; · iexact H2
  iempintro

/-- info: 'Cert.KernelIdeal.A2A.body_obligation' depends on axioms: [propext, Classical.choice, Quot.sound] -/
#guard_msgs in #print axioms body_obligation

end Cert.KernelIdeal.A2A
end
-- ==== Proof.KernelIdealRun.lean ====
import proofs.«900019_g7700000000000020_dist_a2a_v7x_xy2x2_x_m4096_n1024_f32_1_alg».proof.Proof.KernelIdealLaunch
import proofs.«900019_g7700000000000020_dist_a2a_v7x_xy2x2_x_m4096_n1024_f32_1_alg».proof.Proof.KernelIdealGhost
import proofs.«900019_g7700000000000020_dist_a2a_v7x_xy2x2_x_m4096_n1024_f32_1_alg».proof.Proof.KernelIdealObligation

noncomputable section

namespace Cert.KernelIdeal.A2A

open Cert.KernelIdeal Cert.KernelIdeal.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every fair execution of the kernel on the four devices ends, each device's result block at the contents the specification names
    and its argument block unchanged. -/
theorem run_main : θ_run defs (onTc (τ := τ) (main (F := F))) ⟨m, fun _ => 0, ρ⟩ (fun r => ∀ c : Dev nD,
    r.2.mem ((c.tc : Thread nD τ).loc main_v1) = (Cert.A2ASpec.outF (xsOf m) c : Buf (Elt F) ((c.tc : Thread nD τ).loc main_v1))
    ∧ r.2.mem ((c.tc : Thread nD τ).loc main_arg0) = m ((c.tc : Thread nD τ).loc main_arg0)) :=
  run_main_of m ρ (G m) (G' m) u₀ (fun _ => rfl) (hu₀ m) (glob m) creds ownSemFacts ownSems0_of (body_obligation m)

/-- info: 'Cert.KernelIdeal.A2A.run_main' depends on axioms: [propext, Classical.choice, Quot.sound] -/
#guard_msgs in #print axioms run_main

end Cert.KernelIdeal.A2A
end
-- ==== Proof.KernelProto.lean ====
import proofs.«900019_g7700000000000020_dist_a2a_v7x_xy2x2_x_m4096_n1024_f32_1_alg».proof.Proof.Gen.Kernel.Frame
import proofs.«900019_g7700000000000020_dist_a2a_v7x_xy2x2_x_m4096_n1024_f32_1_alg».proof.Proof.Spec
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

variable (m : (ℓ : Loc nD τ sig) → Buf (Elt F) ℓ) (ρ : Dev nD → PrngReg)

def s₀ : MemSt nD τ sig (Elt F) := ⟨m, fun _ => 0, ρ⟩

abbrev xsOf : Fin 4 → Cert.A2ASpec.XS.Idx → Elt F .f32 := fun c => m (((c : Dev nD) : Thread nD τ).loc main_arg0)

theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = py c := Fin.ext (k0_dev2_eq c)
theorem dev3_eq (c : Dev nD) : (⟨k0_dev3 c, k0_dev3_lt c⟩ : Dev nD) = px c := Fin.ext (k0_dev3_eq c)
theorem dev4_eq (c : Dev nD) : (⟨k0_dev4 c, k0_dev4_lt c⟩ : Dev nD) = px c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = px c := Fin.ext (k0_dev6_eq c)
theorem dev7_eq (c : Dev nD) : (⟨k0_dev7 c, k0_dev7_lt c⟩ : Dev nD) = px c := Fin.ext (k0_dev7_eq c)
theorem dev8_eq (c : Dev nD) : (⟨k0_dev8 c, k0_dev8_lt c⟩ : Dev nD) = px c := Fin.ext (k0_dev8_eq c)
theorem dev9_eq (c : Dev nD) : (⟨k0_dev9 c, k0_dev9_lt c⟩ : Dev nD) = px c := Fin.ext (k0_dev9_eq c)
theorem dev10_eq (c : Dev nD) : (⟨k0_dev10 c, k0_dev10_lt c⟩ : Dev nD) = px c := Fin.ext (k0_dev10_eq c)
theorem dev11_eq (c : Dev nD) : (⟨k0_dev11 c, k0_dev11_lt c⟩ : Dev nD) = px c := Fin.ext (k0_dev11_eq c)
theorem dev12_eq (c : Dev nD) : (⟨k0_dev12 c, k0_dev12_lt c⟩ : Dev nD) = px c := Fin.ext (k0_dev12_eq c)
theorem dev13_eq (c : Dev nD) : (⟨k0_dev13 c, k0_dev13_lt c⟩ : Dev nD) = px c := Fin.ext (k0_dev13_eq c)
theorem dev14_eq (c : Dev nD) : (⟨k0_dev14 c, k0_dev14_lt c⟩ : Dev nD) = px c := Fin.ext (k0_dev14_eq c)
theorem dev15_eq (c : Dev nD) : (⟨k0_dev15 c, k0_dev15_lt c⟩ : Dev nD) = px c := Fin.ext (k0_dev15_eq c)
theorem dev16_eq (c : Dev nD) : (⟨k0_dev16 c, k0_dev16_lt c⟩ : Dev nD) = px c := Fin.ext (k0_dev16_eq c)
theorem dev17_eq (c : Dev nD) : (⟨k0_dev17 c, k0_dev17_lt c⟩ : Dev nD) = px c := Fin.ext (k0_dev17_eq c)
theorem dev18_eq (c : Dev nD) : (⟨k0_dev18 c, k0_dev18_lt c⟩ : Dev nD) = px c := Fin.ext (k0_dev18_eq c)
theorem dev19_eq (c : Dev nD) : (⟨k0_dev19 c, k0_dev19_lt c⟩ : Dev nD) = py c := Fin.ext (k0_dev19_eq c)
theorem dev20_eq (c : Dev nD) : (⟨k0_dev20 c, k0_dev20_lt c⟩ : Dev nD) = py c := Fin.ext (k0_dev20_eq c)
theorem dev21_eq (c : Dev nD) : (⟨k0_dev21 c, k0_dev21_lt c⟩ : Dev nD) = py c := Fin.ext (k0_dev21_eq c)
theorem dev22_eq (c : Dev nD) : (⟨k0_dev22 c, k0_dev22_lt c⟩ : Dev nD) = py c := Fin.ext (k0_dev22_eq c)
theorem dev23_eq (c : Dev nD) : (⟨k0_dev23 c, k0_dev23_lt c⟩ : Dev nD) = py c := Fin.ext (k0_dev23_eq c)
theorem dev24_eq (c : Dev nD) : (⟨k0_dev24 c, k0_dev24_lt c⟩ : Dev nD) = py c := Fin.ext (k0_dev24_eq c)
theorem dev25_eq (c : Dev nD) : (⟨k0_dev25 c, k0_dev25_lt c⟩ : Dev nD) = py c := Fin.ext (k0_dev25_eq c)
theorem dev26_eq (c : Dev nD) : (⟨k0_dev26 c, k0_dev26_lt c⟩ : Dev nD) = py c := Fin.ext (k0_dev26_eq c)
theorem dev27_eq (c : Dev nD) : (⟨k0_dev27 c, k0_dev27_lt c⟩ : Dev nD) = py c := Fin.ext (k0_dev27_eq c)
theorem dev28_eq (c : Dev nD) : (⟨k0_dev28 c, k0_dev28_lt c⟩ : Dev nD) = py c := Fin.ext (k0_dev28_eq c)
theorem dev29_eq (c : Dev nD) : (⟨k0_dev29 c, k0_dev29_lt c⟩ : Dev nD) = py c := Fin.ext (k0_dev29_eq c)
theorem dev30_eq (c : Dev nD) : (⟨k0_dev30 c, k0_dev30_lt c⟩ : Dev nD) = py c := Fin.ext (k0_dev30_eq c)
theorem dev31_eq (c : Dev nD) : (⟨k0_dev31 c, k0_dev31_lt c⟩ : Dev nD) = py c := Fin.ext (k0_dev31_eq c)
theorem dev32_eq (c : Dev nD) : (⟨k0_dev32 c, k0_dev32_lt c⟩ : Dev nD) = py c := Fin.ext (k0_dev32_eq c)
theorem dev33_eq (c : Dev nD) : (⟨k0_dev33 c, k0_dev33_lt c⟩ : Dev nD) = py c := Fin.ext (k0_dev33_eq c)
theorem dev34_eq (c : Dev nD) : (⟨k0_dev34 c, k0_dev34_lt c⟩ : Dev nD) = py c := Fin.ext (k0_dev34_eq c)

theorem inb16 (k : Fin 16) : ∀ a, (![128 * k.val, 0] : Fin 2 → Nat) a + S128x1024.size a ≤ S2048x1024.size a := by
  intro a; have := k.isLt; fin_cases a
  · show 128 * k.val + 128 ≤ 2048; omega
  · show 0 + 1024 ≤ 1024; omega
theorem inb8 (k : Fin 8) : ∀ a, (![k.val, 0, 0] : Fin 3 → Nat) a + S1x512x1024.size a ≤ S8x512x1024.size a := by
  intro a; have := k.isLt; fin_cases a
  · show k.val + 1 ≤ 8; omega
  · show 0 + 512 ≤ 512; omega
  · show 0 + 1024 ≤ 1024; omega

abbrev vsM (k : Fin 16) : Memref sig .tc .vmem S128x1024 .f32 :=
  (Memref.whole cc0_scratch0).slice (Rect.unit (s := S2048x1024) ![128 * k.val, 0] S128x1024.size (inb16 k)) (fun _ => rfl)
abbrev r1M (k : Fin 16) : Memref sig .tc .vmem S128x1024 .f32 :=
  (Memref.whole cc0_scratch1).slice (Rect.unit (s := S2048x1024) ![128 * k.val, 0] S128x1024.size (inb16 k)) (fun _ => rfl)
abbrev r2M (k : Fin 16) : Memref sig .tc .vmem S128x1024 .f32 :=
  (Memref.whole cc0_scratch2).slice (Rect.unit (s := S2048x1024) ![128 * k.val, 0] S128x1024.size (inb16 k)) (fun _ => rfl)

abbrev stM (k : Fin 8) : Memref sig .tc .vmem S512x1024 .f32 :=
  ((Memref.whole cc0_scratch3).slice (Rect.unit (s := S8x512x1024) ![k.val, 0, 0] S1x512x1024.size (inb8 k)) (fun _ => rfl)).squeeze S512x1024 squeezes_S1x512x1024_S512x1024

abbrev xsM (c : Dev nD) (k : Fin 16) : Memref sig .tc .hbm S128x1024 .f32 :=
  (Memref.whole main_arg0).slice (Rect.unit (s := S4096x2048) (k0_off1 c (BitVec.ofNat 32 (128 * k.val))) S128x1024.size (k0_off1_inb c k)) (fun _ => rfl)

abbrev xlM (c : Dev nD) : Fin 8 → Memref sig .tc .hbm S512x1024 .f32
  | 0 => (Memref.whole main_arg0).slice (Rect.unit (s := S4096x2048) (k0_off2 c) S512x1024.size (k0_off2_inb c)) (fun _ => rfl)
  | 1 => (Memref.whole main_arg0).slice (Rect.unit (s := S4096x2048) (k0_off3 c) S512x1024.size (k0_off3_inb c)) (fun _ => rfl)
  | 2 => (Memref.whole main_arg0).slice (Rect.unit (s := S4096x2048) (k0_off4 c) S512x1024.size (k0_off4_inb c)) (fun _ => rfl)
  | 3 => (Memref.whole main_arg0).slice (Rect.unit (s := S4096x2048) (k0_off5 c) S512x1024.size (k0_off5_inb c)) (fun _ => rfl)
  | 4 => (Memref.whole main_arg0).slice (Rect.unit (s := S4096x2048) (k0_off6 c) S512x1024.size (k0_off6_inb c)) (fun _ => rfl)
  | 5 => (Memref.whole main_arg0).slice (Rect.unit (s := S4096x2048) (k0_off7 c) S512x1024.size (k0_off7_inb c)) (fun _ => rfl)
  | 6 => (Memref.whole main_arg0).slice (Rect.unit (s := S4096x2048) (k0_off8 c) S512x1024.size (k0_off8_inb c)) (fun _ => rfl)
  | 7 => (Memref.whole main_arg0).slice (Rect.unit (s := S4096x2048) (k0_off9 c) S512x1024.size (k0_off9_inb c)) (fun _ => rfl)

abbrev o1M (c : Dev nD) (k : Fin 16) : Memref sig .tc .hbm S128x1024 .f32 :=
  (Memref.whole main_v1).slice (Rect.unit (s := S8192x1024) (k0_off10 c (BitVec.ofNat 32 (128 * k.val))) S128x1024.size (k0_off10_inb c k)) (fun _ => rfl)
abbrev o2M (c : Dev nD) (k : Fin 16) : Memref sig .tc .hbm S128x1024 .f32 :=
  (Memref.whole main_v1).slice (Rect.unit (s := S8192x1024) (k0_off12 c (BitVec.ofNat 32 (128 * k.val))) S128x1024.size (k0_off12_inb c k)) (fun _ => rfl)
abbrev olM (c : Dev nD) (k : Fin 8) : Memref sig .tc .hbm S512x1024 .f32 :=
  (Memref.whole main_v1).slice (Rect.unit (s := S8192x1024) (k0_off11 c (BitVec.ofNat 32 (512 * k.val))) S512x1024.size (k0_off11_inb c k)) (fun _ => rfl)

abbrev pts {sp : Space} {s : Shape} (M : Memref sig .tc sp s .f32) (c : Dev nD) (q : PosShare TreeShare) (f : Buf (Elt F) (M.view.loc (c : Thread nD τ))) : sProp 𝕄 :=
  M.view.loc (c : Thread nD τ) ↦[M.view.set]{q} f

abbrev barS : Sem sig := (SemArray.scalar (sig.barrier 0 rfl) : Sems sig S_).sem
abbrev barCell (c : Dev nD) : GSem nD τ sig := ((c : Thread nD τ), .reg barS)

abbrev dS (i : Nat) (h : i < 128) : DmaSem sig := ⟨i, h⟩
abbrev dcell (c : Dev nD) (i : Nat) (h : i < 128) : GSem nD τ sig := ((c : Thread nD τ), .dma (dS i h))

abbrev xS (j : Fin 4) (k : Fin 16) : DmaSem sig := ⟨16 + 16 * j.val + k.val, by have := j.isLt; have := k.isLt; show _ < 128; omega⟩
abbrev xcell (c : Dev nD) (j : Fin 4) (k : Fin 16) : GSem nD τ sig := ((c : Thread nD τ), .dma (xS j k))

abbrev N : ℕ := (vsM 0 : Memref sig .tc .vmem S128x1024 .f32).view.dmaCredit
theorem N_pos : 0 < N := View.dmaCredit_pos _ (by decide)

abbrev hL : PosShare TreeShare := fullShare.left
abbrev hR : PosShare TreeShare := fullShare.right

def barPayX (c : Dev nD) : sProp 𝕄 := bigSep Finset.univ fun k : Fin 16 => iprop(∃ f, pts (r1M k) (px c) fullShare f)

def barPayY (c : Dev nD) : sProp 𝕄 := bigSep Finset.univ fun k : Fin 16 => iprop(∃ f, pts (r2M k) (py c) fullShare f)

def xPay (c : Dev nD) (j : Fin 4) (k : Fin 16) : sProp 𝕄 :=
  match j with
  | 0 => iprop(∃ f, pts (vsM k) c fullShare f)
  | 1 => pts (r1M k) c fullShare (recv1F (xsOf m) c)
  | 2 => pts (r1M k) c hL (recv1F (xsOf m) c)
  | 3 => pts (r2M k) c fullShare (recv2F (xsOf m) c)

def jOf (i : Nat) (h : i < 80) : Fin 4 := ⟨(i - 16) / 16, by omega⟩
def kOf (i : Nat) : Fin 16 := ⟨i % 16, Nat.mod_lt _ (by decide)⟩

def sched : Rounds.Schedule (GSem nD τ sig) Bool 𝕄 where
  duties g r :=
    if r = 0 ∧ g.1.2 = .tc then
      match g.2 with
      | .reg _ => Finset.univ
      | .dma q => if 16 ≤ q.val ∧ q.val < 80 then {false} else ∅
    else ∅
  unitless _ := False
  amount g _ _ := match g.2 with | .reg _ => 1 | .dma _ => N
  payload g _ d :=
    match g.2 with
    | .reg _ => if d then barPayY g.1.1 else barPayX g.1.1
    | .dma q => if h : 16 ≤ q.val ∧ q.val < 80 then xPay m g.1.1 (jOf q.val h.2) (kOf q.val) else iprop(emp)
  amount_pos g _ _ _ := by
    cases g.2 with
    | reg _ => exact Nat.one_pos
    | dma _ => exact N_pos

instance sched_payload_storable (g : GSem nD τ sig) (r : ℕ) (d : Bool) :
    BI.Storable (upEmb : UEmb _ 𝕄) ((sched (F := F) m).payload g r d) := by
  show BI.Storable upEmb (match g.2 with
    | .reg _ => if d then barPayY g.1.1 else barPayX g.1.1
    | .dma q => if h : 16 ≤ q.val ∧ q.val < 80 then xPay m g.1.1 (jOf q.val h.2) (kOf q.val) else iprop(emp))
  unfold barPayX barPayY xPay
  (repeat' split) <;> infer_instance

section Tables
variable (c : Dev nD) (j : Fin 4) (k : Fin 16)

omit [FloatOps F] in
theorem xS_range : 16 ≤ (xS j k).val ∧ (xS j k).val < 80 := by
  have := j.isLt; have := k.isLt
  exact ⟨by show 16 ≤ 16 + 16 * j.val + k.val; omega, by show 16 + 16 * j.val + k.val < 80; omega⟩
omit [FloatOps F] in
theorem jOf_xS : jOf (xS j k).val (xS_range j k).2 = j := by
  have := j.isLt; have := k.isLt
  exact Fin.ext (by show (16 + 16 * j.val + k.val - 16) / 16 = j.val; omega)
omit [FloatOps F] in
theorem kOf_xS : kOf (xS j k).val = k := by
  have := j.isLt; have := k.isLt
  exact Fin.ext (by show (16 + 16 * j.val + k.val) % 16 = k.val; omega)

omit [FloatOps F] in
theorem duties_bar : (sched (F := F) m).duties (barCell c) 0 = Finset.univ := by
  dsimp only [sched]; rw [if_pos ⟨rfl, rfl⟩]
omit [FloatOps F] in
theorem duties_x : (sched (F := F) m).duties (xcell c j k) 0 = {false} := by
  dsimp only [sched]; rw [if_pos ⟨rfl, rfl⟩]; exact if_pos (xS_range j k)
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Bool) : (sched (F := F) m).amount (barCell c) 0 d = 1 := rfl
omit [FloatOps F] in
theorem amount_x (d : Bool) : (sched (F := F) m).amount (xcell c j k) 0 d = N := rfl

omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_x : (sched (F := F) m).expect (xcell c j k) 0 = N := by
  unfold Schedule.expect Schedule.amountOf; rw [duties_x, Finset.sum_singleton, amount_x]

omit [FloatOps F] in
theorem payload_bar_true : (sched (F := F) m).payload (barCell c) 0 true = barPayY c := by dsimp only [sched]; rw [if_pos rfl]
omit [FloatOps F] in
theorem payload_bar_false : (sched (F := F) m).payload (barCell c) 0 false = barPayX c := by
  dsimp only [sched]; exact if_neg Bool.false_ne_true
omit [FloatOps F] in
theorem payload_x (d : Bool) : (sched (F := F) m).payload (xcell c j k) 0 d = xPay m c j k := by
  dsimp only [sched]; rw [dif_pos (xS_range j k), jOf_xS, kOf_xS]

omit [FloatOps F] in

theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
omit [FloatOps F] in
theorem rest_x : bigSep ((sched (F := F) m).duties (xcell c j k) 0 \ ∅) (fun d => (sched (F := F) m).payload (xcell c j k) 0 d) = xPay m c j k := by
  rw [Finset.sdiff_empty, duties_x, bigSep_singleton, payload_x]

end Tables

def owe1 (c : Dev nD) (a : ℕ) : CellTallies nD τ sig Unit :=
  ∑ k ∈ (Finset.univ : Finset (Fin 16)).filter (fun k => a ≤ k.val), tallyAt (xcell (px c) 1 k) () N

def owe2 (c : Dev nD) (b : ℕ) : CellTallies nD τ sig Unit :=
  ∑ k ∈ (Finset.univ : Finset (Fin 16)).filter (fun k => b ≤ k.val), tallyAt (xcell (py c) 3 k) () N

def O₁ (c : Dev nD) : CellTallies nD τ sig Unit := (owe1 c 0 + owe2 c 0) + tallyAt (barCell (py c)) () 1
def O₀ (c : Dev nD) : CellTallies nD τ sig Unit := O₁ c + tallyAt (barCell (px c)) () 1

def L (g : GSem nD τ sig) : Finset Unit := if g.1.2 = .tc then {()} else ∅

def lv (g : GSem nD τ sig) (_ : Unit) : ℕ :=
  match g.2 with
  | .reg _ => 1
  | .dma q => if 32 ≤ q.val ∧ q.val < 48 then 2 else if 64 ≤ q.val ∧ q.val < 80 then 3 else 0

theorem L_of_ne (g : GSem nD τ sig) (h : g.1.2 ≠ .tc) : L g = ∅ := if_neg h
theorem L_tc (c : Dev nD) (sm : SemLoc sig) : L ((c : Thread nD τ), sm) = {()} := if_pos rfl

abbrev CIx : Type := Option (Fin 4 × Fin 16)
abbrev kcell (ck : Dev nD × CIx) : GSem nD τ sig :=
  match ck.2 with
  | none => barCell ck.1
  | some jk => xcell ck.1 jk.1 jk.2

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

def payToks (c : Dev nD) : sProp 𝕄 :=
  iprop(dutyTok ER (barCell (px c)) 0 false ∗ dutyTok ER (barCell (py c)) 0 true
    ∗ (bigSep Finset.univ fun k : Fin 16 => dutyTok ER (xcell (px c) 1 k) 0 false)
    ∗ (bigSep Finset.univ fun k : Fin 16 => dutyTok ER (xcell (py c) 3 k) 0 false)
    ∗ (bigSep Finset.univ fun k : Fin 16 => dutyTok ER (xcell c 0 k) 0 false)
    ∗ (bigSep Finset.univ fun k : Fin 16 => dutyTok ER (xcell c 2 k) 0 false))

def linear (c : Dev nD) : sProp 𝕄 :=
  iprop((atPos ER (barCell c) 0 ∅ 0 ∗ bigSep Finset.univ fun jk : Fin 4 × Fin 16 => atPos ER (xcell c jk.1 jk.2) 0 ∅ 0) ∗ payToks c)
def ghost (K : Dev nD × CIx → ℕ) (c : Dev nD) : sProp 𝕄 := iprop(records m K ∗ linear c)

def creds0 (c : Dev nD) : sProp 𝕄 :=
  iprop(cred (tallyAt (barCell c) () 2) ∗ (bigSep Finset.univ fun k : Fin 16 => cred (tallyAt (xcell c 1 k) () N))
    ∗ (bigSep Finset.univ fun k : Fin 16 => cred (tallyAt (xcell c 3 k) () N)))

abbrev osem : Fin 128 → SemLoc sig := fun i => .dma i

def localSems (c : Dev nD) : sProp 𝕄 :=
  bigSep ((Finset.univ : Finset (Fin 128)).filter fun i => i.val < 16 ∨ 80 ≤ i.val) fun i => semVal ((c : Thread nD τ), SemLoc.dma i) 0

def start (c : Dev nD) : sProp 𝕄 := iprop((∃ K, ghost m K c) ∗ localSems c ∗ creds0 c ∗ levAts L lv)

end Cert.Kernel.A2A
end
-- ==== Proof.KernelInv.lean ====
import proofs.«900019_g7700000000000020_dist_a2a_v7x_xy2x2_x_m4096_n1024_f32_1_alg».proof.Proof.KernelProto

noncomputable section

namespace Cert.Kernel.A2A

open Cert.Kernel Cert.Kernel.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The four scratch buffers at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What a device holds before its body -/
def Φ₀ (c : Dev nD) : sProp 𝕄 :=
  iprop(start m c ∗ (((c : Thread nD τ).loc main_arg0) ↦{fullShare} m ((c : Thread nD τ).loc main_arg0))
    ∗ (∃ g : Buf (Elt F) ((c : Thread nD τ).loc main_v1), ((c : Thread nD τ).loc main_v1) ↦{fullShare} g) ∗ scratchAny c)

/-- and after it: the result block at the specification's contents, its 128 DMA semaphores at zero. -/
def Φ₁ (c : Dev nD) : sProp 𝕄 :=
  iprop((((c : Thread nD τ).loc main_arg0) ↦{fullShare} m ((c : Thread nD τ).loc main_arg0))
    ∗ (((c : Thread nD τ).loc main_v1) ↦{fullShare} (outF (xsOf m) c : Buf (Elt F) ((c : Thread nD τ).loc main_v1)))
    ∗ scratchAny c ∗ localSems c ∗ bigSep Finset.univ fun jk : Fin 4 × Fin 16 => semVal (xcell c jk.1 jk.2) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.A2A
end
-- ==== Proof.KernelLaunch.lean ====
import proofs.«900019_g7700000000000020_dist_a2a_v7x_xy2x2_x_m4096_n1024_f32_1_alg».proof.Proof.KernelInv
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

def Y (c : Dev nD) : sProp 𝕄 :=
  iprop((((c : Thread nD τ).loc main_arg0) ↦{fullShare} m ((c : Thread nD τ).loc main_arg0))
    ∗ (((c : Thread nD τ).loc main_v1) ↦{fullShare} (outF (xsOf m) c : Buf (Elt F) ((c : Thread nD τ).loc main_v1))))

def QY (c : Dev nD) (s : MemSt nD τ sig (Elt F)) : Prop :=
  s.mem ((c.tc : Thread nD τ).loc main_v1) = (outF (xsOf m) c : Buf (Elt F) ((c.tc : Thread nD τ).loc main_v1))
    ∧ s.mem ((c.tc : Thread nD τ).loc main_arg0) = m ((c.tc : Thread nD τ).loc main_arg0)

theorem start_intro (G' : Dev nD → sProp 𝕄) (hG' : ∀ c, G' c = iprop((∃ K, ghost m K c) ∗ localSems c))
    (hcreds : ∀ c, (Pipeline.launchCred O₀ c : sProp 𝕄) ⊢ creds0 c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(X m c ∗ emp) := by
  rw [Pipeline.unscopedRestP_none, unscopedRest0_eq, hG' c]
  iintro ⟨⟨Ha, Hv⟩, Hlev, Hcr, -, ⟨Hg, Hls⟩⟩
  ihave Hc := (hcreds c) $$ Hcr
  imodintro
  unfold X start
  isplitl
  · isplitr [Ha Hv]
    · isplitl [Hg]; · iexact Hg
      isplitl [Hls]; · iexact Hls
      isplitl [Hc]; · iexact Hc
      iexact Hlev
    · isplitl [Ha]; · iexact Ha
      iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratchAny
  iintro ⟨⟨Hs, Ha, Hv⟩, -, Hr⟩
  isplitl [Hs]; · iexact Hs
  isplitl [Ha]; · iexact Ha
  isplitl [Hv]
  · iexists (m ((c : Thread nD τ).loc main_v1)); iexact Hv
  iexact Hr

theorem phi1_exit
    (hown0 : ∀ c, iprop(localSems c ∗ bigSep Finset.univ fun jk : Fin 4 × Fin 16 => semVal (xcell c jk.1 jk.2) 0) ⊢ (Pipeline.ownSems0 (Ix := Unit) (Name := ℕ) (U := UU) (Lvl := ℕ) (Val := Elt F) (τ := τ) osem c : sProp 𝕄))
    (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scratchAny
  iintro ⟨Ha, Hv, Hr, Hls, Hx⟩
  isplitl [Ha Hv]
  · isplitl [Ha]; · iexact Ha
    iexact Hv
  isplitl [Hls Hx]
  · iapply (hown0 c)
    isplitl [Hls]; · iexact Hls
    iexact Hx
  iexact Hr

theorem waits (c : Dev nD) : (levAts L lv : sProp 𝕄) ⊢ Pipeline.cellsWaits cfgs (dats m) () 0 c :=
  Pipeline.cellsWaits_intro cfgs (dats m) () 0 c fun w s t => w.elim0

theorem read_final (c : Dev nD) (s' : Phys nD τ sig (Elt F)) :
    iprop(Y m c ∗ (emp : sProp 𝕄) ∗ SI s') ⊢ |={Set.univ}=> iprop(⌜QY m c s'.mem⌝ ∗ SI s') := by
  unfold Y
  iintro ⟨⟨Ha, Hv⟩, -, HSI⟩
  icombine HSI Ha gives %ha
  icombine HSI Hv gives %hv
  have h2 := Buf.eq_of_forall_mem_univ ha
  have h1 := Buf.eq_of_forall_mem_univ hv
  imodintro
  isplitr
  · ipureintro; exact ⟨h1, h2⟩
  iexact HSI

set_option maxRecDepth 16384 in

theorem run_main_of
    (G G' : Dev nD → sProp 𝕄) (u₀ : UU)
    (hG' : ∀ c, G' c = iprop((∃ K, ghost m K c) ∗ localSems c))
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ G')
    (hcreds : ∀ c, (Pipeline.launchCred O₀ c : sProp 𝕄) ⊢ creds0 c)
    (hosf : Pipeline.OwnSemFacts cfg0.spec osem)
    (hown0 : ∀ c, iprop(localSems c ∗ bigSep Finset.univ fun jk : Fin 4 × Fin 16 => semVal (xcell c jk.1 jk.2) 0) ⊢ (Pipeline.ownSems0 (Ix := Unit) (Name := ℕ) (U := UU) (Lvl := ℕ) (Val := Elt F) (τ := τ) osem c : sProp 𝕄))
    (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = (Cert.A2ASpec.outF (xsOf m) c : Buf (Elt F) ((c.tc : Thread nD τ).loc main_v1))
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hosf (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := G') (u₀ := u₀)
    (hu₀ := hu₀)
    (hglob := hglob)
    (hA := fun _ w => w.elim0) (hpf := fun _ k => k.elim0)
    (X := X m) (Y := Y m) (Z := fun _ => iprop(emp))
    (hX := start_intro m ρ G' hG' hcreds) (hin := phi0_intro m) (hout := phi1_exit m hown0)
    (QY := QY m)
    (hY := read_final m)
    (hQ := fun _ h c => (h c).2.2)

end Cert.Kernel.A2A
end
-- ==== Proof.KernelGhost.lean ====
import proofs.«900019_g7700000000000020_dist_a2a_v7x_xy2x2_x_m4096_n1024_f32_1_alg».proof.Proof.KernelProto

noncomputable section

namespace Cert.Kernel.A2A

open Cert.Kernel Cert.Kernel.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem xS_eq {j j' : Fin 4} {k k' : Fin 16} (h : (xS j k : DmaSem sig) = xS j' k') : j = j' ∧ k = k' := by
  have h' : 16 + 16 * j.val + k.val = 16 + 16 * j'.val + k'.val := congrArg (fun q : DmaSem sig => q.val) h
  have := k.isLt; have := k'.isLt
  exact ⟨Fin.ext (by omega), Fin.ext (by omega)⟩

omit [FloatOps F] in
theorem kcell_injective : Function.Injective (kcell : Dev nD × CIx → GSem nD τ sig) := by
  rintro ⟨c, i⟩ ⟨c', i'⟩ h
  have h1 : c = c' := by
    have := congrArg (fun g : GSem nD τ sig => g.1.1) h
    cases i <;> cases i' <;> exact this
  subst h1
  have h2 : (kcell (c, i)).2 = (kcell (c, i')).2 := congrArg Prod.snd h
  cases i with
  | none => cases i' with
    | none => rfl
    | some jk' => exact absurd h2 (fun h' => by cases h')
  | some jk => cases i' with
    | none => exact absurd h2 (fun h' => by cases h')
    | some jk' =>
      obtain ⟨hj, hk⟩ := xS_eq (SemLoc.dma.inj h2)
      rw [Prod.ext hj hk]

def ringCells : Finset (GSem nD τ sig) := Finset.univ.map ⟨kcell, kcell_injective⟩

abbrev TIx : Type := Bool ⊕ (Fin 4 × Fin 16)
abbrev tokOf (ct : Dev nD × TIx) : GSem nD τ sig × ℕ × Bool := match ct.2 with
  | .inl d => (barCell ct.1, 0, d)
  | .inr jk => (xcell ct.1 jk.1 jk.2, 0, false)

omit [FloatOps F] in
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    cases t <;> cases t' <;> exact this
  subst h1
  have h2 : (tokOf (c, t)).1.2 = (tokOf (c, t')).1.2 := congrArg (fun x : GSem nD τ sig × ℕ × Bool => x.1.2) h
  cases t with
  | inl d => cases t' with
    | inl d' =>
      have h3 : d = d' := congrArg (fun x : GSem nD τ sig × ℕ × Bool => x.2.2) h
      rw [h3]
    | inr jk' => exact absurd h2 (fun h' => by cases h')
  | inr jk => cases t' with
    | inl d' => exact absurd h2 (fun h' => by cases h')
    | inr jk' =>
      obtain ⟨hj, hk⟩ := xS_eq (SemLoc.dma.inj h2)
      rw [Prod.ext hj hk]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ (bigSep Finset.univ fun k : Fin 16 => dutyTok ER (xcell c 0 k) 0 false)
    ∗ (bigSep Finset.univ fun k : Fin 16 => dutyTok ER (xcell c 1 k) 0 false)
    ∗ (bigSep Finset.univ fun k : Fin 16 => dutyTok ER (xcell c 2 k) 0 false)
    ∗ (bigSep Finset.univ fun k : Fin 16 => dutyTok ER (xcell c 3 k) 0 false))

def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop((∃ K, ghost m K c) ∗ localSems c)

omit [FloatOps F] in
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]; rfl
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl
omit [FloatOps F] in
theorem bigSep_hops4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_prod, bigSep_hops4]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem xS_injective : Function.Injective (fun jk : Fin 4 × Fin 16 => (xS jk.1 jk.2 : Fin 128)) :=
  fun jk jk' h => by obtain ⟨hj, hk⟩ := xS_eq (j := jk.1) (k := jk.2) (j' := jk'.1) (k' := jk'.2) h; exact Prod.ext hj hk

omit [FloatOps F] in

theorem hop_positions : (Finset.univ : Finset (Fin 128)).filter (fun i => ¬ (i.val < 16 ∨ 80 ≤ i.val)) = Finset.univ.map ⟨_, xS_injective⟩ := by
  ext i
  rw [Finset.mem_filter, Finset.mem_map]
  constructor
  · rintro ⟨-, hi⟩
    have := i.isLt
    refine ⟨(⟨(i.val - 16) / 16, by omega⟩, ⟨i.val % 16, Nat.mod_lt _ (by decide)⟩), Finset.mem_univ _, Fin.ext ?_⟩
    show 16 + 16 * ((i.val - 16) / 16) + i.val % 16 = i.val
    omega
  · rintro ⟨jk, -, rfl⟩
    have hr := xS_range jk.1 jk.2
    refine ⟨Finset.mem_univ _, fun h => ?_⟩
    have h' : (xS jk.1 jk.2).val < 16 ∨ 80 ≤ (xS jk.1 jk.2).val := h
    omega

omit [FloatOps F] in

theorem ownSems0_split (c : Dev nD) : (Pipeline.ownSems0 (Ix := Unit) (Name := ℕ) (U := UU) (Lvl := ℕ) (Val := Elt F) (τ := τ) osem c : sProp 𝕄)
    = iprop(localSems c ∗ bigSep Finset.univ fun jk : Fin 4 × Fin 16 => semVal (xcell c jk.1 jk.2) 0) := by
  unfold Pipeline.ownSems0 localSems
  rw [bigSep_filter_split Finset.univ (fun i : Fin 128 => i.val < 16 ∨ 80 ≤ i.val), hop_positions, bigSep_map]; rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun i : CIx => semVal (kcell (c, i)) 0) : sProp 𝕄) := by
  rw [ownSems0_split, unscopedSems0_eq, bigSep_univ_option]
  iintro ⟨⟨HL, HX⟩, HB⟩
  isplitl [HL]; · iexact HL
  isplitl [HB] <;> iassumption

omit [FloatOps F] in
theorem ownSemFacts : Pipeline.OwnSemFacts cfg0.spec osem :=
  ⟨by decide, fun a b h => SemLoc.dma.inj h, fun k w s => w.elim0⟩

omit [FloatOps F] in

theorem ownSems0_of (c : Dev nD) :
    iprop(localSems c ∗ bigSep Finset.univ fun jk : Fin 4 × Fin 16 => semVal (xcell c jk.1 jk.2) 0)
      ⊢ (Pipeline.ownSems0 (Ix := Unit) (Name := ℕ) (U := UU) (Lvl := ℕ) (Val := Elt F) (τ := τ) osem c : sProp 𝕄) :=
  Entails.of_eq (ownSems0_split c).symm

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hloc, Hv⟩
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
theorem ghost_intro (K : Dev nD × CIx → ℕ) (c : Dev nD) : iprop(records m K ∗ linear c ∗ localSems c) ⊢ G' m c := by
  unfold G' ghost
  iintro ⟨#HR, HL, Hloc⟩
  isplitl [HL]
  · iexists K
    isplitr; · iexact HR
    iexact HL
  iexact Hloc

def pxE : Dev nD ≃ Dev nD := ⟨px, px, px_px, px_px⟩
def pyE : Dev nD ≃ Dev nD := ⟨py, py, py_py, py_py⟩

omit [FloatOps F] in

theorem toks_around : (bigSep Finset.univ fun c : Dev nD => (toks c : sProp 𝕄)) ⊢ bigSep Finset.univ fun c : Dev nD => payToks c := by
  unfold toks payToks
  simp only [bigSep_sep']
  rw [bigSep_univ_equiv pxE (fun c : Dev nD => (dutyTok ER (barCell c) 0 false : sProp 𝕄)),
    bigSep_univ_equiv pyE (fun c : Dev nD => (dutyTok ER (barCell c) 0 true : sProp 𝕄)),
    bigSep_univ_equiv pxE (fun c : Dev nD => (bigSep Finset.univ fun k : Fin 16 => dutyTok ER (xcell c 1 k) 0 false : sProp 𝕄)),
    bigSep_univ_equiv pyE (fun c : Dev nD => (bigSep Finset.univ fun k : Fin 16 => dutyTok ER (xcell c 3 k) 0 false : sProp 𝕄))]
  iintro ⟨⟨HF, HT⟩, H0, H1, H2, H3⟩
  isplitl [HF]; · iexact HF
  isplitl [HT]; · iexact HT
  isplitl [H1]; · iexact H1
  isplitl [H3]; · iexact H3
  isplitl [H0]; · iexact H0
  iexact H2

omit [FloatOps F] in
theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ localSems c) : sProp 𝕄)
      ⊢ bigSep Finset.univ (G' m) := by
  rw [bigSep_sep', bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok, Hloc⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (show iprop((bigSep Finset.univ fun c : Dev nD => bigSep Finset.univ fun i : CIx => (atPos ER (kcell (c, i)) 0 ∅ 0 : sProp 𝕄))
          ∗ (bigSep Finset.univ fun c : Dev nD => (payToks c : sProp 𝕄)) ∗ bigSep Finset.univ fun c : Dev nD => (localSems c : sProp 𝕄))
        ⊢ (bigSep Finset.univ fun c : Dev nD => iprop(linear c ∗ localSems c) : sProp 𝕄) from by
      rw [← bigSep_sep', ← bigSep_sep']
      exact bigSep_mono fun c _ => show iprop((bigSep Finset.univ fun i : CIx => (atPos ER (kcell (c, i)) 0 ∅ 0 : sProp 𝕄)) ∗ payToks c ∗ localSems c)
          ⊢ (iprop(linear c ∗ localSems c) : sProp 𝕄) from by
        unfold linear; rw [bigSep_univ_option]
        iintro ⟨⟨HB, HX⟩, HT, HL⟩
        isplitl [HB HX HT]
        · isplitl [HB HX]
          · isplitl [HB] <;> iassumption
          · iexact HT
        · iexact HL)
    isplitl [Hat]; · iexact Hat
    isplitl [Htk] <;> iassumption

omit [FloatOps F] in

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) (MT nD τ sig Unit (Elt F) ℕ UU ℕ)) _ _) $$ HX
  icases H2 with ⟨HR, -⟩
  imod (fund_ring m) $$ HR with HG
  imodintro
  isplitl [HP] <;> iassumption

omit [FloatOps F] in

theorem cred_two (g : GSem nD τ sig) : iprop(cred (tallyAt g () 1) ∗ cred (tallyAt g () 1)) ⊢ (cred (tallyAt g () 2) : sProp 𝕄) := by
  rw [← tallyAt_add g () 1 1]; exact (cred_add _ _).2

omit [FloatOps F] in

theorem launch_hop (f : Dev nD → Dev nD) (hf : ∀ c, f (f c) = c) (j : Fin 4) (a : ℕ) (ha : a = 0) (c : Dev nD) :
    (Pipeline.launchCred (fun d => ∑ k ∈ (Finset.univ : Finset (Fin 16)).filter (fun k => a ≤ k.val), tallyAt (xcell (f d) j k) () N) c : sProp 𝕄)
      ⊢ bigSep Finset.univ fun k : Fin 16 => cred (tallyAt (xcell c j k) () N) := by
  subst ha
  rw [Finset.filter_true_of_mem (fun k _ => Nat.zero_le _), Pipeline.launchCred_sum]
  exact bigSep_mono fun k _ => Pipeline.launchCred_tallyAt (SemLoc.dma (xS j k)) f f hf hf () N c

omit [FloatOps F] in
theorem creds (c : Dev nD) : (Pipeline.launchCred O₀ c : sProp 𝕄) ⊢ creds0 c := by
  have e : (Pipeline.launchCred O₀ c : sProp 𝕄)
      = iprop(((Pipeline.launchCred (fun d => owe1 d 0) c ∗ Pipeline.launchCred (fun d => owe2 d 0) c)
          ∗ Pipeline.launchCred (fun d => tallyAt (barCell (py d)) () 1) c) ∗ Pipeline.launchCred (fun d => tallyAt (barCell (px d)) () 1) c) := by
    rw [← Pipeline.launchCred_add, ← Pipeline.launchCred_add, ← Pipeline.launchCred_add]; rfl
  rw [e]; unfold creds0
  iintro ⟨⟨⟨H1, H2⟩, HY⟩, HX⟩
  isplitl [HX HY]
  · iapply (cred_two (F := F) (barCell c))
    isplitl [HX]
    · iapply (Pipeline.launchCred_tallyAt (SemLoc.reg barS) px px px_px px_px () 1 c); iexact HX
    · iapply (Pipeline.launchCred_tallyAt (SemLoc.reg barS) py py py_py py_py () 1 c); iexact HY
  isplitl [H1]
  · iapply (launch_hop (F := F) px px_px 1 0 rfl c); iexact H1
  · iapply (launch_hop (F := F) py py_py 3 0 rfl c); iexact H2

/-- info: 'Cert.Kernel.A2A.hu₀' depends on axioms: [propext, Classical.choice, Quot.sound] -/
#guard_msgs in #print axioms hu₀
/-- info: 'Cert.Kernel.A2A.glob' depends on axioms: [propext, Classical.choice, Quot.sound] -/
#guard_msgs in #print axioms glob
/-- info: 'Cert.Kernel.A2A.creds' depends on axioms: [propext, Classical.choice, Quot.sound] -/
#guard_msgs in #print axioms creds
/-- info: 'Cert.Kernel.A2A.ownSemFacts' depends on axioms: [propext, Classical.choice, Quot.sound] -/
#guard_msgs in #print axioms ownSemFacts
/-- info: 'Cert.Kernel.A2A.ownSems0_of' depends on axioms: [propext, Classical.choice, Quot.sound] -/
#guard_msgs in #print axioms ownSems0_of

end Cert.Kernel.A2A
end
-- ==== Proof.KernelLevels.lean ====
import proofs.«900019_g7700000000000020_dist_a2a_v7x_xy2x2_x_m4096_n1024_f32_1_alg».proof.Proof.KernelProto
import Idealize.ShloMosaic.Lib.Pipeline.Launch
import Idealize.ShloMosaic.Lib.Rounds

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem filter_peel (a : Fin 16) :
    (Finset.univ : Finset (Fin 16)).filter (fun k => a.val ≤ k.val)
      = insert a ((Finset.univ : Finset (Fin 16)).filter (fun k => a.val + 1 ≤ k.val)) := by
  ext k
  simp only [Finset.mem_filter, Finset.mem_univ, true_and, Finset.mem_insert]
  constructor
  · intro h
    by_cases hk : k = a
    · exact Or.inl hk
    · have hne : k.val ≠ a.val := fun e => hk (Fin.ext e)
      exact Or.inr (by omega)
  · rintro (rfl | h)
    · exact le_refl _
    · omega

theorem not_mem_peel (a : Fin 16) : a ∉ (Finset.univ : Finset (Fin 16)).filter (fun k => a.val + 1 ≤ k.val) := by
  simp only [Finset.mem_filter, Finset.mem_univ, true_and]; omega

theorem filter_done : (Finset.univ : Finset (Fin 16)).filter (fun k => 16 ≤ k.val) = ∅ :=
  Finset.filter_false_of_mem fun k _ => by have := k.isLt; omega

theorem owe1_peel (c : Dev nD) (a : Fin 16) : owe1 c a.val = owe1 c (a.val + 1) + tallyAt (xcell (px c) 1 a) () N := by
  unfold owe1
  rw [filter_peel a, Finset.sum_insert (not_mem_peel a), add_comm]

theorem owe2_peel (c : Dev nD) (a : Fin 16) : owe2 c a.val = owe2 c (a.val + 1) + tallyAt (xcell (py c) 3 a) () N := by
  unfold owe2
  rw [filter_peel a, Finset.sum_insert (not_mem_peel a), add_comm]

theorem owe1_done (c : Dev nD) : owe1 c 16 = 0 := by
  unfold owe1; rw [filter_done, Finset.sum_empty]

theorem owe2_done (c : Dev nD) : owe2 c 16 = 0 := by
  unfold owe2; rw [filter_done, Finset.sum_empty]

theorem tallyAt_pos {g₀ g : GSem nD τ sig} {u : Unit} {n : ℕ} (h : 0 < tallyAt g₀ () n g u) : g = g₀ := by
  rw [tallyAt_apply] at h
  by_contra hn
  rw [if_neg fun h' => hn h'.1] at h
  exact Nat.lt_irrefl 0 h

theorem owe1_pos {c : Dev nD} {a : ℕ} {g : GSem nD τ sig} {u : Unit} (h : 0 < owe1 c a g u) :
    ∃ k : Fin 16, a ≤ k.val ∧ g = xcell (px c) 1 k := by
  unfold owe1 at h
  obtain ⟨k, hk, hpos⟩ := Pipeline.sum_pos_exists h
  exact ⟨k, (Finset.mem_filter.mp hk).2, tallyAt_pos hpos⟩

theorem owe2_pos {c : Dev nD} {b : ℕ} {g : GSem nD τ sig} {u : Unit} (h : 0 < owe2 c b g u) :
    ∃ k : Fin 16, b ≤ k.val ∧ g = xcell (py c) 3 k := by
  unfold owe2 at h
  obtain ⟨k, hk, hpos⟩ := Pipeline.sum_pos_exists h
  exact ⟨k, (Finset.mem_filter.mp hk).2, tallyAt_pos hpos⟩

theorem owe_pos {c : Dev nD} {a b : ℕ} {g : GSem nD τ sig} {u : Unit} (h : 0 < (owe1 c a + owe2 c b) g u) :
    (∃ k : Fin 16, a ≤ k.val ∧ g = xcell (px c) 1 k) ∨ (∃ k : Fin 16, b ≤ k.val ∧ g = xcell (py c) 3 k) :=
  (Pipeline.add_pos_cases h).imp owe1_pos owe2_pos

theorem lv_x1 (d : Dev nD) (k : Fin 16) (u : Unit) : lv (xcell d 1 k) u = 2 := by
  have hk := k.isLt
  dsimp only [lv]
  exact if_pos ⟨by show 32 ≤ 16 + 16 * 1 + k.val; omega, by show 16 + 16 * 1 + k.val < 48; omega⟩

theorem lv_x3 (d : Dev nD) (k : Fin 16) (u : Unit) : lv (xcell d 3 k) u = 3 := by
  have hk := k.isLt
  dsimp only [lv]
  rw [if_neg (fun h => by have h2 : 16 + 16 * 3 + k.val < 48 := h.2; omega)]
  exact if_pos ⟨by show 64 ≤ 16 + 16 * 3 + k.val; omega, by show 16 + 16 * 3 + k.val < 80; omega⟩

omit [FloatOps F] in

theorem mayWait_low (c : Dev nD) (sm : SemLoc sig) (hsm : lv ((c : Thread nD τ), sm) () ≤ 1) (a b : ℕ) :
    (levAts L lv : sProp 𝕄) ⊢ MayWait (c : Thread nD τ) sm () (owe1 c a + owe2 c b) :=
  MayOwe.of_cut (L := L) (lev := lv) 1
    (fun p hp => by rw [Finset.mem_singleton.mp hp, L_tc]; exact Finset.mem_singleton_self _)
    (fun g u hg => by
      rcases owe_pos hg with ⟨k, _, rfl⟩ | ⟨k, _, rfl⟩ <;> (rw [L_tc]; exact Finset.mem_singleton_self _))
    (fun p hp => by rw [Finset.mem_singleton.mp hp]; exact hsm)
    (fun g u hg => by
      rcases owe_pos hg with ⟨k, _, rfl⟩ | ⟨k, _, rfl⟩
      · rw [lv_x1]; decide
      · rw [lv_x3]; decide)

omit [FloatOps F] in

theorem mayWait_recv1 (c : Dev nD) (k : Fin 16) (b : ℕ) :
    (levAts L lv : sProp 𝕄) ⊢ MayWait (c : Thread nD τ) (.dma (xS 1 k)) () (owe1 c 16 + owe2 c b) := by
  rw [owe1_done, zero_add]
  exact MayOwe.of_cut (L := L) (lev := lv) 2
    (fun p hp => by rw [Finset.mem_singleton.mp hp, L_tc]; exact Finset.mem_singleton_self _)
    (fun g u hg => by obtain ⟨k', _, rfl⟩ := owe2_pos hg; rw [L_tc]; exact Finset.mem_singleton_self _)
    (fun p hp => by rw [Finset.mem_singleton.mp hp]; exact le_of_eq (lv_x1 c k ()))
    (fun g u hg => by obtain ⟨k', _, rfl⟩ := owe2_pos hg; rw [lv_x3]; decide)

end Cert.Kernel.A2A
end
-- ==== Proof.KernelSteps.lean ====
import proofs.«900019_g7700000000000020_dist_a2a_v7x_xy2x2_x_m4096_n1024_f32_1_alg».proof.Proof.KernelProto
import proofs.«900019_g7700000000000020_dist_a2a_v7x_xy2x2_x_m4096_n1024_f32_1_alg».proof.Proof.KernelLevels

noncomputable section

namespace Cert.Kernel.A2A

open Cert.Kernel Cert.Kernel.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem inv_at (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem owes_peel1 (c : Dev nD) (k : Fin 16) (a a' : ℕ) (ha : a = k.val) (ha' : a' = a + 1) (b : ℕ) (W : Waits sig Unit) :
    (owes (c : Thread nD τ) (owe1 c a + owe2 c b) W : sProp 𝕄)
      = owes (c : Thread nD τ) ((owe1 c a' + owe2 c b) + tallyAt (xcell (px c) 1 k) () N) W := by
  subst ha; subst ha'; rw [owe1_peel c k, add_right_comm]
omit [FloatOps F] in
theorem owes_peel2 (c : Dev nD) (k : Fin 16) (b b' : ℕ) (hb : b = k.val) (hb' : b' = b + 1) (W : Waits sig Unit) :
    (owes (c : Thread nD τ) (owe1 c 16 + owe2 c b) W : sProp 𝕄)
      = owes (c : Thread nD τ) ((owe1 c 16 + owe2 c b') + tallyAt (xcell (py c) 3 k) () N) W := by
  subst hb; subst hb'; rw [owe2_peel c k, add_assoc]
omit [FloatOps F] in
theorem owes_done (c : Dev nD) (W : Waits sig Unit) :
    (owes (c : Thread nD τ) (owe1 c 16 + owe2 c 16) W : sProp 𝕄) = owes (c : Thread nD τ) 0 W := by
  rw [owe1_done, owe2_done, add_zero]

omit [FloatOps F] in
theorem pts_halve {sp : Space} {s : Shape} (M : Memref sig .tc sp s .f32) (c : Dev nD) (f : Buf (Elt F) (M.view.loc (c : Thread nD τ))) :
    (pts M c fullShare f : sProp 𝕄) ⊣⊢ iprop(pts M c hL f ∗ pts M c hR f) :=
  BI.Region.is_share (PosShare.mem_left_op_right fullShare)

omit [FloatOps F] in
theorem mayWait_zero (c : Dev nD) (sm : SemLoc sig) : (levAts L lv : sProp 𝕄) ⊢ MayWait (c : Thread nD τ) sm () 0 := by
  rw [MayWait_zero]; iintro #H; iempintro

/-- The four waits a chunk meets, and the clause that says what each consumes. -/
abbrev w1s (k : Fin 16) : TpuEff nD τ sig (Elt F) Λ₀ .tc PUnit := .waitDma2 (xS 0 k) (r1M k) (vsM k) (View.wordExact_bits rfl) (View.wordExact_bits rfl)
abbrev w1r (k : Fin 16) : TpuEff nD τ sig (Elt F) Λ₀ .tc PUnit := .waitDma2 (xS 1 k) (vsM k) (r1M k) (View.wordExact_bits rfl) (View.wordExact_bits rfl)
abbrev w2s (k : Fin 16) : TpuEff nD τ sig (Elt F) Λ₀ .tc PUnit := .waitDma2 (xS 2 k) (r2M k) (r1M k) (View.wordExact_bits rfl) (View.wordExact_bits rfl)
abbrev w2r (k : Fin 16) : TpuEff nD τ sig (Elt F) Λ₀ .tc PUnit := .waitDma2 (xS 3 k) (r1M k) (r2M k) (View.wordExact_bits rfl) (View.wordExact_bits rfl)

section Steps
variable (K : Dev nD × CIx → ℕ)

theorem with_inv (ck : Dev nD × CIx) (P : sProp 𝕄) : iprop(records m K ∗ P) ⊢ iprop(cellInv ER (sched m) (K ck) (kcell ck) ∗ P) := by
  unfold records; iintro ⟨⟨#HI, #HR⟩, HP⟩
  isplitr; · iapply (inv_at m K ck); iexact HI
  iexact HP

/-- What a send rule wants of the two cells it pays, drawn from the records beside the buffers, the debt and the tokens. -/
theorem send_pre (ck1 ck2 : Dev nD × CIx) (A B C T1 T2 : sProp 𝕄) :
    iprop(records m K ∗ A ∗ B ∗ C ∗ T1 ∗ T2)
      ⊢ iprop(cellInv ER (sched m) (K ck1) (kcell ck1) ∗ cellInv ER (sched m) (K ck2) (kcell ck2) ∗ A ∗ B ∗ C
          ∗ T1 ∗ reached ER (kcell ck1) 0 ∗ T2 ∗ reached ER (kcell ck2) 0) := by
  unfold records
  iintro ⟨⟨#HI, #HR⟩, HA, HB, HC, H1, H2⟩
  isplitr; · iapply (inv_at m K ck1); iexact HI
  isplitr; · iapply (inv_at m K ck2); iexact HI
  isplitl [HA]; · iexact HA
  isplitl [HB]; · iexact HB
  isplitl [HC]; · iexact HC
  isplitl [H1]; · iexact H1
  isplitr; · iapply (reached_at (F := F) ck1); iexact HR
  isplitl [H2]; · iexact H2
  iapply (reached_at (F := F) ck2); iexact HR

theorem sig_pre (ck : Dev nD × CIx) (A T R : sProp 𝕄) :
    iprop(records m K ∗ A ∗ T ∗ R) ⊢ iprop(cellInv ER (sched m) (K ck) (kcell ck) ∗ A ∗ T ∗ R ∗ reached ER (kcell ck) 0) := by
  unfold records
  iintro ⟨⟨#HI, #HR⟩, HA, HT, HP⟩
  isplitr; · iapply (inv_at m K ck); iexact HI
  isplitl [HA]; · iexact HA
  isplitl [HT]; · iexact HT
  isplitl [HP]; · iexact HP
  iapply (reached_at (F := F) ck); iexact HR

theorem wp_sigX (c n : Dev nD) (hn : n = px c) {α : Type} {Q : α → sProp 𝕄} {kk : PUnit → Prog (TpuEff nD τ sig (Elt F) Λ₀ .tc) α}
    (O : CellTallies nD τ sig Unit) (W : Waits sig Unit) :
    iprop(records m K ∗ owes (c : Thread nD τ) (O + tallyAt (barCell (px c)) () 1) W ∗ dutyTok ER (barCell (px c)) 0 false
        ∗ (bigSep Finset.univ fun k : Fin 16 => iprop(∃ f, pts (r1M k) c fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS 1) kk) Q) := by
  subst hn
  refine (sig_pre m K (px c, none) _ _ _).trans ((sep_mono_right (sep_mono_right (sep_mono_right (sep_mono_left ?_)))).trans
    (Rounds.wp_signal 𝒱₀ ER (sched m) (c : Thread nD τ) none (dst := ((px c : Dev nD) : Thread nD τ)) (κ := K (px c, none))
      (d := false) (by rw [duties_bar]; exact Finset.mem_univ _) (amount_bar m (px c) false) () O rfl))
  rw [payload_bar_false]; unfold barPayX; rw [px_px]

theorem wp_sigY (c n : Dev nD) (hn : n = py c) {α : Type} {Q : α → sProp 𝕄} {kk : PUnit → Prog (TpuEff nD τ sig (Elt F) Λ₀ .tc) α}
    (O : CellTallies nD τ sig Unit) (W : Waits sig Unit) :
    iprop(records m K ∗ owes (c : Thread nD τ) (O + tallyAt (barCell (py c)) () 1) W ∗ dutyTok ER (barCell (py c)) 0 true
        ∗ (bigSep Finset.univ fun k : Fin 16 => iprop(∃ f, pts (r2M k) c fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS 1) kk) Q) := by
  subst hn
  refine (sig_pre m K (py c, none) _ _ _).trans ((sep_mono_right (sep_mono_right (sep_mono_right (sep_mono_left ?_)))).trans
    (Rounds.wp_signal 𝒱₀ ER (sched m) (c : Thread nD τ) none (dst := ((py c : Dev nD) : Thread nD τ)) (κ := K (py c, none))
      (d := true) (by rw [duties_bar]; exact Finset.mem_univ _) (amount_bar m (py c) true) () O rfl))
  rw [payload_bar_true]; unfold barPayY; rw [py_py]

theorem wp_p1 (c n : Dev nD) (hn : n = px c) (k : Fin 16)
    (src : Memref sig .tc .vmem S128x1024 .f32) (hs : src = vsM k)
    (dst : Memref sig (Dev.tc n : Thread nD τ).2.kind .vmem S128x1024 .f32) (hd : dst = r1M k)
    (sS sR : DmaSem sig) (hsS : sS = xS 0 k) (hsR : sR = xS 1 k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (fs : Buf (Elt F) ((vsM k).view.loc (c : Thread nD τ))) (fd : Buf (Elt F) ((r1M k).view.loc ((px c : Dev nD) : Thread nD τ)))
    (hland : ∀ i ∈ (r1M k).view.set, ((r1M k).view.write (Elt F) fd ((vsM k).view.read (Elt F) fs) Finset.univ) i = recv1F (xsOf m) (px c) i)
    (O : CellTallies nD τ sig Unit) (W : Waits sig Unit) :
    iprop(records m K ∗ pts (vsM k) c fullShare fs ∗ pts (r1M k) (px c) fullShare fd
        ∗ owes (c : Thread nD τ) (O + tallyAt (xcell (px c) 1 k) () N) W
        ∗ dutyTok ER (xcell c 0 k) 0 false ∗ dutyTok ER (xcell (px c) 1 k) 0 false)
      ⊢ iprop(((cred (tallyAt (xcell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn; subst hs; subst hd; subst hsS; subst hsR
  refine BI.Entails.trans ?_ (Rounds.wp_send_pointsTo 𝒱₀ ER (sched m) (c : Thread nD τ) none (κ₁ := K (c, some (0, k))) (κ₂ := K (px c, some (1, k)))
    (r₁ := 0) (r₂ := 0) (d₁ := false) (d₂ := false) (fd := fd)
    (by rw [duties_x]; exact Finset.mem_singleton_self _) (by rw [duties_x]; exact Finset.mem_singleton_self _)
    () () N rfl (amount_x m c 0 k false) (amount_x m (px c) 1 k false) O rfl (W := W)
    (by rw [payload_x]; exact BI.BIClass.exists_intro fs)
    (by rw [payload_x]; exact Entails.of_eq (BI.Region.is_congr hland)))
  exact send_pre m K (c, some (0, k)) (px c, some (1, k)) _ _ _ _ _

theorem wp_p2 (c n : Dev nD) (hn : n = py c) (k : Fin 16)
    (src : Memref sig .tc .vmem S128x1024 .f32) (hs : src = r1M k)
    (dst : Memref sig (Dev.tc n : Thread nD τ).2.kind .vmem S128x1024 .f32) (hd : dst = r2M k)
    (sS sR : DmaSem sig) (hsS : sS = xS 2 k) (hsR : sR = xS 3 k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (fd : Buf (Elt F) ((r2M k).view.loc ((py c : Dev nD) : Thread nD τ)))
    (hland : ∀ i ∈ (r2M k).view.set, ((r2M k).view.write (Elt F) fd ((r1M k).view.read (Elt F) (recv1F (xsOf m) c)) Finset.univ) i = recv2F (xsOf m) (py c) i)
    (O : CellTallies nD τ sig Unit) (W : Waits sig Unit) :
    iprop(records m K ∗ pts (r1M k) c hL (recv1F (xsOf m) c) ∗ pts (r2M k) (py c) fullShare fd
        ∗ owes (c : Thread nD τ) (O + tallyAt (xcell (py c) 3 k) () N) W
        ∗ dutyTok ER (xcell c 2 k) 0 false ∗ dutyTok ER (xcell (py c) 3 k) 0 false)
      ⊢ iprop(((cred (tallyAt (xcell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn; subst hs; subst hd; subst hsS; subst hsR
  refine BI.Entails.trans ?_ (Rounds.wp_send_pointsTo 𝒱₀ ER (sched m) (c : Thread nD τ) none (κ₁ := K (c, some (2, k))) (κ₂ := K (py c, some (3, k)))
    (r₁ := 0) (r₂ := 0) (d₁ := false) (d₂ := false) (fd := fd)
    (by rw [duties_x]; exact Finset.mem_singleton_self _) (by rw [duties_x]; exact Finset.mem_singleton_self _)
    () () N rfl (amount_x m c 2 k false) (amount_x m (py c) 3 k false) O rfl (W := W)
    (by rw [payload_x]; exact BI.Entails.refl _)
    (by rw [payload_x]; exact Entails.of_eq (BI.Region.is_congr hland)))
  exact send_pre m K (c, some (2, k)) (py c, some (3, k)) _ _ _ _ _

theorem wp_barwait (c : Dev nD) {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 2 Kk)
    {α : Type} {Q : α → sProp 𝕄} {kk : PUnit → Prog (TpuEff nD τ sig (Elt F) Λ₀ .tc) α} (a b : ℕ) (W : Waits sig Unit) :
    iprop(records m K ∗ levAts L lv ∗ cred (tallyAt (barCell c) () 2) ∗ owes (c : Thread nD τ) (owe1 c a + owe2 c b) W ∗ atPos ER (barCell c) 0 ∅ 0)
      ⊢ iprop(((owes (c : Thread nD τ) (owe1 c a + owe2 c b) (insert (SemLoc.reg barS, ()) W) ∗ atPos ER (barCell c) 1 ∅ 0 ∗ barPayX c ∗ barPayY c)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold records
  iintro ⟨⟨#HI, #HR⟩, #Hlev, Hc, HO, Hat⟩ Hk
  iapply (Rounds.wp_wait_rest_token 𝒱₀ ER (sched m) (c : Thread nD τ) none (κ := K (c, none)) hw (Set.mem_univ _) ()
      (O := owe1 c a + owe2 c b) (W := W) (R := 0) (m := 0) (T := ∅) (by rw [expect_bar])) $$ [Hc HO Hat]
  · isplitr; · iapply (inv_at m K (c, none)); iexact HI
    isplitl [Hc]; · iexact Hc
    isplitl [HO]; · iexact HO
    isplitr; · iapply (mayWait_low c (.reg barS) (Nat.le_refl 1) a b); iexact Hlev
    iexact Hat
  iintro ⟨HO, Hat, -, Hpay⟩
  ihave Hp := (Entails.of_eq (rest_bar m c)) $$ Hpay
  icases Hp with ⟨HpX, HpY⟩
  iapply Hk
  isplitl [HO]; · iexact HO
  isplitl [Hat]; · iexact Hat
  isplitl [HpX] <;> iassumption

/-- Waiting on one of the device's own hop cells, where the levels allow it at the present debt, yields what the cell's payer handed over. -/
theorem wp_xwait (c : Dev nD) (j : Fin 4) (k : Fin 16) {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (xS j k)) N Kk)
    {α : Type} {Q : α → sProp 𝕄} {kk : PUnit → Prog (TpuEff nD τ sig (Elt F) Λ₀ .tc) α} (O : CellTallies nD τ sig Unit) (W : Waits sig Unit)
    (hmw : (levAts L lv : sProp 𝕄) ⊢ MayWait (c : Thread nD τ) (.dma (xS j k)) () O) :
    iprop(records m K ∗ levAts L lv ∗ cred (tallyAt (xcell c j k) () N) ∗ owes (c : Thread nD τ) O W ∗ atPos ER (xcell c j k) 0 ∅ 0)
      ⊢ iprop(((owes (c : Thread nD τ) O (insert (SemLoc.dma (xS j k), ()) W) ∗ atPos ER (xcell c j k) 1 ∅ 0 ∗ xPay m c j k)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold records
  iintro ⟨⟨#HI, #HR⟩, #Hlev, Hc, HO, Hat⟩ Hk
  iapply (Rounds.wp_wait_rest_token 𝒱₀ ER (sched m) (c : Thread nD τ) none (κ := K (c, some (j, k))) hw (Set.mem_univ _) ()
      (O := O) (W := W) (R := 0) (m := 0) (T := ∅) (by rw [Nat.zero_add, expect_x])) $$ [Hc HO Hat]
  · isplitr; · iapply (inv_at m K (c, some (j, k))); iexact HI
    isplitl [Hc]; · iexact Hc
    isplitl [HO]; · iexact HO
    isplitr; · iapply hmw; iexact Hlev
    iexact Hat
  iintro ⟨HO, Hat, -, Hpay⟩
  ihave Hp := (Entails.of_eq (rest_x m c j k)) $$ Hpay
  iapply Hk
  isplitl [HO]; · iexact HO
  isplitl [Hat] <;> iassumption

theorem wp_wait_p1s (c : Dev nD) (k : Fin 16) (hN : (vsM k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 0 k) () N) ∗ owes (c : Thread nD τ) 0 W ∗ atPos ER (xcell c 0 k) 0 ∅ 0)
      ⊢ iprop(((owes (c : Thread nD τ) 0 (insert (SemLoc.dma (xS 0 k), ()) W) ∗ atPos ER (xcell c 0 k) 1 ∅ 0 ∗ (∃ f, pts (vsM k) c fullShare f))
            -∗ wp frame (wpE (defs₀ (F := F)) 𝒱₀ (c : Thread nD τ) none) Set.univ (kk ⟨⟩) Q)
          -∗ wp frame (wpE (defs₀ (F := F)) 𝒱₀ (c : Thread nD τ) none) Set.univ (.op (w1s k) kk) Q) :=
  wp_xwait m K c 0 k (fun Kk => hN ▸ wpE_waitDma2_eq 𝒱₀ (c : Thread nD τ) none Set.univ Kk) 0 W (mayWait_zero c _)
theorem wp_wait_p1r (c : Dev nD) (k : Fin 16) (hN : (r1M k).view.dmaCredit = N)
    {α : Type} {Q : α → sProp 𝕄} {kk : PUnit → Prog (TpuEff nD τ sig (Elt F) Λ₀ .tc) α} (b : ℕ) (W : Waits sig Unit) :
    iprop(records m K ∗ levAts L lv ∗ cred (tallyAt (xcell c 1 k) () N) ∗ owes (c : Thread nD τ) (owe1 c 16 + owe2 c b) W ∗ atPos ER (xcell c 1 k) 0 ∅ 0)
      ⊢ iprop(((owes (c : Thread nD τ) (owe1 c 16 + owe2 c b) (insert (SemLoc.dma (xS 1 k), ()) W) ∗ atPos ER (xcell c 1 k) 1 ∅ 0 ∗ pts (r1M k) c fullShare (recv1F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w1r k) kk) Q) :=
  wp_xwait m K c 1 k (fun Kk => hN ▸ wpE_waitDma2_eq 𝒱₀ (c : Thread nD τ) none Set.univ Kk) (owe1 c 16 + owe2 c b) W (mayWait_recv1 c k b)
theorem wp_wait_p2s (c : Dev nD) (k : Fin 16) (hN : (r1M k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 2 k) () N) ∗ owes (c : Thread nD τ) 0 W ∗ atPos ER (xcell c 2 k) 0 ∅ 0)
      ⊢ iprop(((owes (c : Thread nD τ) 0 (insert (SemLoc.dma (xS 2 k), ()) W) ∗ atPos ER (xcell c 2 k) 1 ∅ 0 ∗ pts (r1M k) c hL (recv1F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w2s k) kk) Q) :=
  wp_xwait m K c 2 k (fun Kk => hN ▸ wpE_waitDma2_eq 𝒱₀ (c : Thread nD τ) none Set.univ Kk) 0 W (mayWait_zero c _)
theorem wp_wait_p2r (c : Dev nD) (k : Fin 16) (hN : (r2M k).view.dmaCredit = N)
    {α : Type} {Q : α → sProp 𝕄} {kk : PUnit → Prog (TpuEff nD τ sig (Elt F) Λ₀ .tc) α} (W : Waits sig Unit) :
    iprop(records m K ∗ levAts L lv ∗ cred (tallyAt (xcell c 3 k) () N) ∗ owes (c : Thread nD τ) 0 W ∗ atPos ER (xcell c 3 k) 0 ∅ 0)
      ⊢ iprop(((owes (c : Thread nD τ) 0 (insert (SemLoc.dma (xS 3 k), ()) W) ∗ atPos ER (xcell c 3 k) 1 ∅ 0 ∗ pts (r2M k) c fullShare (recv2F (xsOf m) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (w2r k) kk) Q) :=
  wp_xwait m K c 3 k (fun Kk => hN ▸ wpE_waitDma2_eq 𝒱₀ (c : Thread nD τ) none Set.univ Kk) 0 W (mayWait_zero c _)
/-- Once its single round has been consumed a hop cell is closed, which returns its semaphore at zero. -/
theorem xclose (c : Dev nD) (j : Fin 4) (k : Fin 16) :
    iprop(records m K ∗ atPos ER (xcell c j k) 1 ∅ 0) ⊢ (|={Set.univ}=> semVal (xcell c j k) 0 : sProp 𝕄) :=
  (with_inv m K (c, some (j, k)) _).trans
    (Rounds.cell_close ER (sched m) (Set.mem_univ (K (c, some (j, k)))) (fun h => h) (R := 0 + 1) (duties_later m (xcell c j k)))

end Steps

end Cert.Kernel.A2A
end
-- ==== Proof.KernelLanding.lean ====
import proofs.«900019_g7700000000000020_dist_a2a_v7x_xy2x2_x_m4096_n1024_f32_1_alg».proof.Proof.KernelProto
import Idealize.ShloMosaic.Lib.Pipeline.Value
import Idealize.ShloMosaic.Lib.ValueLayout
import Idealize.ShloMosaic.Lib.ValueIdx
import Idealize.ShloMosaic.Lib.Writes

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem writes_whole_emb {sig' : RefSig} {κ : Kind} {sp : Space} {s : Shape} {e : EltTy} {Val : EltTy → Type}
    (v : View sig' κ sp s e) (f : v.ty.Contents Val) (w : s.Idx → Val e) (y : s.Idx) :
    v.writes Val f [⟨Rect.whole s, w⟩] (v.emb y) = _root_.cast (congrArg Val v.elt_eq.symm) (w y) := by
  rw [← View.write_univ_eq_writes_whole v f [] w, View.writes_nil, View.write_emb_of_mem _ _ (Finset.mem_univ y)]

theorem idx2_ext {d : Fin 2 → Nat} (i j : (⟨2, d⟩ : Shape).Idx) (h0 : (i 0).val = (j 0).val) (h1 : (i 1).val = (j 1).val) : i = j :=
  funext (Fin.forall_fin_two.mpr ⟨Fin.ext h0, Fin.ext h1⟩)

section Coordinates
variable (c : Dev nD) (k : Fin 16) (y : S128x1024.Idx) (k' : Fin 8) (z : S512x1024.Idx)

theorem vsM_row : (((vsM k).view.emb y) 0).val = 128 * k.val + (y 0).val := by
  show 128 * k.val + 1 * (y 0).val = _; omega
theorem vsM_col : (((vsM k).view.emb y) 1).val = (y 1).val := by
  show 0 + 1 * (y 1).val = _; omega
theorem r1M_row : (((r1M k).view.emb y) 0).val = 128 * k.val + (y 0).val := by
  show 128 * k.val + 1 * (y 0).val = _; omega
theorem r1M_col : (((r1M k).view.emb y) 1).val = (y 1).val := by
  show 0 + 1 * (y 1).val = _; omega
theorem r2M_row : (((r2M k).view.emb y) 0).val = 128 * k.val + (y 0).val := by
  show 128 * k.val + 1 * (y 0).val = _; omega
theorem r2M_col : (((r2M k).view.emb y) 1).val = (y 1).val := by
  show 0 + 1 * (y 1).val = _; omega

theorem xsM_row : (((xsM c k).view.emb y) 0).val = 2048 * (c.val % 2) + 128 * k.val + (y 0).val := by
  show (k0_off1 c (BitVec.ofNat 32 (128 * k.val))) 0 + 1 * (y 0).val = _
  rw [k0_off1_eq c k]
  show (2048 * (c.val % 2) + 128 * k.val) + 1 * (y 0).val = _; omega
theorem xsM_col : (((xsM c k).view.emb y) 1).val = (1024 - 1024 * (c.val / 2)) + (y 1).val := by
  show (k0_off1 c (BitVec.ofNat 32 (128 * k.val))) 1 + 1 * (y 1).val = _
  rw [k0_off1_eq c k]
  show (1024 - 1024 * (c.val / 2)) + 1 * (y 1).val = _; omega

theorem o1M_row : (((o1M c k).view.emb y) 0).val = (2048 * (c.val % 2) + 128 * k.val + 4096) - 4096 * (c.val / 2) + (y 0).val := by
  show (k0_off10 c (BitVec.ofNat 32 (128 * k.val))) 0 + 1 * (y 0).val = _
  rw [k0_off10_eq c k]
  show ((2048 * (c.val % 2) + 128 * k.val + 4096) - 4096 * (c.val / 2)) + 1 * (y 0).val = _; omega
theorem o1M_col : (((o1M c k).view.emb y) 1).val = (y 1).val := by
  show (k0_off10 c (BitVec.ofNat 32 (128 * k.val))) 1 + 1 * (y 1).val = _
  rw [k0_off10_eq c k]
  show 0 + 1 * (y 1).val = _; omega

theorem o2M_row : (((o2M c k).view.emb y) 0).val = (128 * k.val + 6144) - (4096 * (c.val / 2) + 2048 * (c.val % 2)) + (y 0).val := by
  show (k0_off12 c (BitVec.ofNat 32 (128 * k.val))) 0 + 1 * (y 0).val = _
  rw [k0_off12_eq c k]
  show ((128 * k.val + 6144) - (4096 * (c.val / 2) + 2048 * (c.val % 2))) + 1 * (y 0).val = _; omega
theorem o2M_col : (((o2M c k).view.emb y) 1).val = (y 1).val := by
  show (k0_off12 c (BitVec.ofNat 32 (128 * k.val))) 1 + 1 * (y 1).val = _
  rw [k0_off12_eq c k]
  show 0 + 1 * (y 1).val = _; omega

theorem olM_row : (((olM c k').view.emb z) 0).val = 4096 * (c.val / 2) + 512 * k'.val + (z 0).val := by
  show (k0_off11 c (BitVec.ofNat 32 (512 * k'.val))) 0 + 1 * (z 0).val = _
  rw [k0_off11_eq c k']
  show (4096 * (c.val / 2) + 512 * k'.val) + 1 * (z 0).val = _; omega
theorem olM_col : (((olM c k').view.emb z) 1).val = (z 1).val := by
  show (k0_off11 c (BitVec.ofNat 32 (512 * k'.val))) 1 + 1 * (z 1).val = _
  rw [k0_off11_eq c k']
  show 0 + 1 * (z 1).val = _; omega

end Coordinates

section Spec
variable {α : Type} (xs : Fin 4 → Cert.A2ASpec.XS.Idx → α) (c : Fin 4)

theorem sendF_of (x : Cert.A2ASpec.XS.Idx) (j : Cert.A2ASpec.VS.Idx)
    (h0 : (x 0).val = 2048 * (c.val % 2) + (j 0).val) (h1 : (x 1).val = (1024 - 1024 * (c.val / 2)) + (j 1).val) :
    xs c x = sendF xs c j :=
  congrArg (xs c) (idx2_ext _ _ h0 h1)

theorem stageF_of (x : Cert.A2ASpec.XS.Idx) (t : Cert.A2ASpec.TS.Idx)
    (h0 : (x 0).val = 512 * (t 0).val + (t 1).val) (h1 : (x 1).val = 1024 * (c.val / 2) + (t 2).val) :
    xs c x = stageF xs c t :=
  congrArg (xs c) (idx2_ext _ _ h0 h1)

theorem outF_hop1 (i : Cert.A2ASpec.OS.Idx) (j : Cert.A2ASpec.VS.Idx)
    (h0 : (i 0).val = (2048 * (c.val % 2) + (j 0).val + 4096) - 4096 * (c.val / 2)) (h1 : (i 1).val = (j 1).val) :
    outF xs c i = recv1F xs c j := by
  have hc := c.isLt
  have hj0 : (j 0).val < 2048 := (j 0).isLt
  have hpx : (px c).val = (c.val % 2 + 2) - 2 * (c.val / 2) := rfl
  have hn : ¬ ((i 0).val / 4096 = c.val / 2) := by omega
  have hp : ((i 0).val % 4096) / 2048 = c.val % 2 := by omega
  have hs : Cert.A2ASpec.srcDev c i = px c := by
    unfold Cert.A2ASpec.srcDev; rw [if_neg hn, if_pos hp]
  unfold outF recv1F sendF
  rw [hs]
  refine congrArg (xs (px c)) (idx2_ext _ _ ?_ ?_)
  · show (i 0).val % 4096 = 2048 * ((px c).val % 2) + (j 0).val
    omega
  · show 1024 * (c.val / 2) + (i 1).val = (1024 - 1024 * ((px c).val / 2)) + (j 1).val
    omega

theorem outF_hop2 (i : Cert.A2ASpec.OS.Idx) (j : Cert.A2ASpec.VS.Idx)
    (h0 : (i 0).val = ((j 0).val + 6144) - (4096 * (c.val / 2) + 2048 * (c.val % 2))) (h1 : (i 1).val = (j 1).val) :
    outF xs c i = recv2F xs c j := by
  have hc := c.isLt
  have hj0 : (j 0).val < 2048 := (j 0).isLt
  have hpy : (py c).val = (2 * (c.val / 2) + 1) - c.val % 2 := rfl
  have hpx : (px (py c)).val = ((py c).val % 2 + 2) - 2 * ((py c).val / 2) := rfl
  have hn : ¬ ((i 0).val / 4096 = c.val / 2) := by omega
  have hp : ¬ (((i 0).val % 4096) / 2048 = c.val % 2) := by omega
  have hs : Cert.A2ASpec.srcDev c i = px (py c) := by
    unfold Cert.A2ASpec.srcDev; rw [if_neg hn, if_neg hp]
  unfold outF recv2F recv1F sendF
  rw [hs]
  refine congrArg (xs (px (py c))) (idx2_ext _ _ ?_ ?_)
  · show (i 0).val % 4096 = 2048 * ((px (py c)).val % 2) + (j 0).val
    omega
  · show 1024 * (c.val / 2) + (i 1).val = (1024 - 1024 * ((px (py c)).val / 2)) + (j 1).val
    omega

theorem outF_local (i : Cert.A2ASpec.OS.Idx) (t : Cert.A2ASpec.TS.Idx)
    (h0 : (i 0).val = 4096 * (c.val / 2) + 512 * (t 0).val + (t 1).val) (h1 : (i 1).val = (t 2).val) :
    outF xs c i = stageF xs c t := by
  have hc := c.isLt
  have ht0 : (t 0).val < 8 := (t 0).isLt
  have ht1 : (t 1).val < 512 := (t 1).isLt
  have hp : (i 0).val / 4096 = c.val / 2 := by omega
  have hs : Cert.A2ASpec.srcDev c i = c := by
    unfold Cert.A2ASpec.srcDev; rw [if_pos hp]
  unfold outF stageF
  rw [hs]
  refine congrArg (xs c) (idx2_ext _ _ ?_ ?_)
  · show (i 0).val % 4096 = 512 * (t 0).val + (t 1).val
    omega
  · show 1024 * (c.val / 2) + (i 1).val = 1024 * (c.val / 2) + (t 2).val
    omega

end Spec

omit [FloatOps F] in

theorem stM_emb (k : Fin 8) (a : Fin 512) (b : Fin 1024) :
    (stM k).view.emb (ValueIdx.ix2 a b) = ValueIdx.ix3 k a b := by
  have e : (stM k).view.emb (ValueIdx.ix2 a b)
      = (Rect.unit (s := S8x512x1024) ![k.val, 0, 0] S1x512x1024.size (inb8 k)).emb
          (Shape.reshapeEquiv (squeezes_S1x512x1024_S512x1024).numel_eq (ValueIdx.ix2 a b)) := rfl
  rw [e, ValueIdx.reshapeEquiv_ix2_1ab]
  funext d; apply Fin.ext
  match d with
  | ⟨0, _⟩ => show k.val + 1 * 0 = k.val; omega
  | ⟨1, _⟩ => show 0 + 1 * a.val = a.val; omega
  | ⟨2, _⟩ => show 0 + 1 * b.val = b.val; omega

theorem stage_lands (c : Dev nD) (k : Fin 16) (f0) :
    ∀ i ∈ (vsM k).view.set, ((vsM k).view.writes (Elt F) f0 [⟨Rect.whole S128x1024, ReadAs.same.apply (View.read (Elt F) (xsM c k).view (m ((c : Thread nD τ).loc main_arg0)))⟩]) i = sendF (xsOf m) c i := by
  intro i hi
  obtain ⟨y, rfl⟩ := View.exists_emb_of_mem_set _ hi
  rw [writes_whole_emb]
  refine Eq.trans (b := xsOf m c ((xsM c k).view.emb y)) rfl ?_
  refine sendF_of (xsOf m) c _ _ ?_ ?_
  · rw [xsM_row, vsM_row]; omega
  · rw [xsM_col, vsM_col]

theorem hop1_lands (k : Fin 16) (c : Dev nD) (fd) (fs) (hfs : ∀ i ∈ (vsM k).view.set, fs i = sendF (xsOf m) c i) :
    ∀ i ∈ (r1M k).view.set, ((r1M k).view.write (Elt F) fd ((vsM k).view.read (Elt F) fs) Finset.univ) i = recv1F (xsOf m) (px c) i := by
  intro i hi
  obtain ⟨y, rfl⟩ := View.exists_emb_of_mem_set _ hi
  rw [View.write_emb_of_mem _ _ (Finset.mem_univ y), View.read_apply, hfs _ (View.emb_mem_set _ y)]
  unfold recv1F; rw [Cert.A2ASpec.px_px]
  rfl

theorem hop2_lands (k : Fin 16) (c : Dev nD) (fd) :
    ∀ i ∈ (r2M k).view.set, ((r2M k).view.write (Elt F) fd ((r1M k).view.read (Elt F) (recv1F (xsOf m) c)) Finset.univ) i = recv2F (xsOf m) (py c) i := by
  intro i hi
  obtain ⟨y, rfl⟩ := View.exists_emb_of_mem_set _ hi
  rw [View.write_emb_of_mem _ _ (Finset.mem_univ y), View.read_apply]
  unfold recv2F; rw [Cert.A2ASpec.py_py]
  rfl

theorem st1_lands (c : Dev nD) (k : Fin 16) (g0) :
    ∀ i ∈ (o1M c k).view.set, ((o1M c k).view.writes (Elt F) g0 [⟨Rect.whole S128x1024, ReadAs.same.apply (View.read (Elt F) (r1M k).view (recv1F (xsOf m) c))⟩]) i = outF (xsOf m) c i := by
  intro i hi
  obtain ⟨y, rfl⟩ := View.exists_emb_of_mem_set _ hi
  rw [writes_whole_emb]
  refine Eq.trans (b := recv1F (xsOf m) c ((r1M k).view.emb y)) rfl ?_
  refine (outF_hop1 (xsOf m) c _ _ ?_ ?_).symm
  · have hc : c.val < 4 := c.isLt
    rw [o1M_row, r1M_row]; omega
  · rw [o1M_col, r1M_col]

theorem st2_lands (c : Dev nD) (k : Fin 16) (g0) :
    ∀ i ∈ (o2M c k).view.set, ((o2M c k).view.writes (Elt F) g0 [⟨Rect.whole S128x1024, ReadAs.same.apply (View.read (Elt F) (r2M k).view (recv2F (xsOf m) c))⟩]) i = outF (xsOf m) c i := by
  intro i hi
  obtain ⟨y, rfl⟩ := View.exists_emb_of_mem_set _ hi
  rw [writes_whole_emb]
  refine Eq.trans (b := recv2F (xsOf m) c ((r2M k).view.emb y)) rfl ?_
  refine (outF_hop2 (xsOf m) c _ _ ?_ ?_).symm
  · have hc : c.val < 4 := c.isLt
    rw [o2M_row, r2M_row]; omega
  · rw [o2M_col, r2M_col]

theorem lcin_lands_of (c : Dev nD) (k : Fin 8) (f0) (off : Fin 2 → Nat) (inb : ∀ a, off a + S512x1024.size a ≤ S4096x2048.size a)
    (hoff : off = ![512 * k.val, 1024 * (c.val / 2)]) :
    ∀ i ∈ (stM k).view.set, ((stM k).view.writes (Elt F) f0 [⟨Rect.whole S512x1024, ReadAs.same.apply (View.read (Elt F)
      ((Memref.whole main_arg0).slice (Rect.unit (s := S4096x2048) off S512x1024.size inb) (fun _ => rfl)).view (m ((c : Thread nD τ).loc main_arg0)))⟩]) i
      = stageF (xsOf m) c i := by
  subst hoff
  intro i hi
  obtain ⟨z, rfl⟩ := View.exists_emb_of_mem_set _ hi
  obtain ⟨a, b, rfl⟩ : ∃ a b, z = ValueIdx.ix2 (n0 := 512) (n1 := 1024) a b := ⟨z 0, z 1, ValueIdx.eq_ix2 z⟩
  rw [writes_whole_emb, stM_emb]
  refine Eq.trans (b := xsOf m c ((Rect.unit (s := S4096x2048) ![512 * k.val, 1024 * (c.val / 2)] S512x1024.size inb).emb (ValueIdx.ix2 a b))) rfl ?_
  refine stageF_of (xsOf m) c _ _ ?_ ?_
  · show 512 * k.val + 1 * a.val = 512 * k.val + a.val; omega
  · show 1024 * (c.val / 2) + 1 * b.val = 1024 * (c.val / 2) + b.val; omega

theorem lcout_lands (c : Dev nD) (k : Fin 8) (g0) (fs) (hfs : ∀ i ∈ (stM k).view.set, fs i = stageF (xsOf m) c i) :
    ∀ i ∈ (olM c k).view.set, ((olM c k).view.writes (Elt F) g0 [⟨Rect.whole S512x1024, ReadAs.same.apply (View.read (Elt F) (stM k).view fs)⟩]) i = outF (xsOf m) c i := by
  intro i hi
  obtain ⟨z, rfl⟩ := View.exists_emb_of_mem_set _ hi
  obtain ⟨a, b, rfl⟩ : ∃ a b, z = ValueIdx.ix2 (n0 := 512) (n1 := 1024) a b := ⟨z 0, z 1, ValueIdx.eq_ix2 z⟩
  rw [writes_whole_emb]
  refine Eq.trans (b := fs ((stM k).view.emb (ValueIdx.ix2 a b))) rfl ?_
  rw [hfs _ (View.emb_mem_set _ _), stM_emb]
  refine (outF_local (xsOf m) c _ _ ?_ ?_).symm
  · rw [olM_row]
  · rw [olM_col]

def LcinAt (c : Dev nD) (k : Fin 8) (off : Fin 2 → Nat) (inb : ∀ a, off a + S512x1024.size a ≤ S4096x2048.size a) : Prop :=
  ∀ f0, ∀ i ∈ (stM k).view.set, ((stM k).view.writes (Elt F) f0 [⟨Rect.whole S512x1024, ReadAs.same.apply (View.read (Elt F)
      ((Memref.whole main_arg0).slice (Rect.unit (s := S4096x2048) off S512x1024.size inb) (fun _ => rfl)).view (m ((c : Thread nD τ).loc main_arg0)))⟩]) i
      = stageF (xsOf m) c i

def LcinLands (c : Dev nD) : Fin 8 → Prop
  | 0 => LcinAt m c 0 (k0_off2 c) (k0_off2_inb c)
  | 1 => LcinAt m c 1 (k0_off3 c) (k0_off3_inb c)
  | 2 => LcinAt m c 2 (k0_off4 c) (k0_off4_inb c)
  | 3 => LcinAt m c 3 (k0_off5 c) (k0_off5_inb c)
  | 4 => LcinAt m c 4 (k0_off6 c) (k0_off6_inb c)
  | 5 => LcinAt m c 5 (k0_off7 c) (k0_off7_inb c)
  | 6 => LcinAt m c 6 (k0_off8 c) (k0_off8_inb c)
  | 7 => LcinAt m c 7 (k0_off9 c) (k0_off9_inb c)

theorem lcin_lands (c : Dev nD) : ∀ k : Fin 8, LcinLands m c k
  | 0 => fun f0 => lcin_lands_of m c 0 f0 (k0_off2 c) (k0_off2_inb c) ((k0_off2_eq c).trans rfl)
  | 1 => fun f0 => lcin_lands_of m c 1 f0 (k0_off3 c) (k0_off3_inb c) ((k0_off3_eq c).trans rfl)
  | 2 => fun f0 => lcin_lands_of m c 2 f0 (k0_off4 c) (k0_off4_inb c) ((k0_off4_eq c).trans rfl)
  | 3 => fun f0 => lcin_lands_of m c 3 f0 (k0_off5 c) (k0_off5_inb c) ((k0_off5_eq c).trans rfl)
  | 4 => fun f0 => lcin_lands_of m c 4 f0 (k0_off6 c) (k0_off6_inb c) ((k0_off6_eq c).trans rfl)
  | 5 => fun f0 => lcin_lands_of m c 5 f0 (k0_off7 c) (k0_off7_inb c) ((k0_off7_eq c).trans rfl)
  | 6 => fun f0 => lcin_lands_of m c 6 f0 (k0_off8 c) (k0_off8_inb c) ((k0_off8_eq c).trans rfl)
  | 7 => fun f0 => lcin_lands_of m c 7 f0 (k0_off9 c) (k0_off9_inb c) ((k0_off9_eq c).trans rfl)

end Cert.Kernel.A2A
end
-- ==== Proof.KernelRegions.lean ====
import proofs.«900019_g7700000000000020_dist_a2a_v7x_xy2x2_x_m4096_n1024_f32_1_alg».proof.Proof.KernelProto
import Idealize.ShloMosaic.Lib.Ring

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem chunk_congr {sp : Space} {s : Shape} (M : Memref sig .tc sp s .f32) (c : Dev nD) (q : PosShare TreeShare)
    (f g : Buf (Elt F) (M.view.loc (c : Thread nD τ))) (h : ∀ i ∈ M.view.set, f i = g i) :
    (pts M c q f : sProp 𝕄) = pts M c q g := pointsTo_congr h

abbrev rows16 (k : Fin 16) : Rect S2048x1024 := Rect.unit (s := S2048x1024) ![128 * k.val, 0] S128x1024.size (inb16 k)

theorem rows16_disjoint (k k' : Fin 16) (h : k ≠ k') : Disjoint (rows16 k).set (rows16 k').set :=
  Ring.lead_disjoint (s := S2048x1024) (0 : Fin 2) 128 (fun k : Fin 16 => ![128 * k.val, 0]) S128x1024.size inb16 (fun _ => rfl) rfl k k' h

theorem rows16_cover : (Finset.univ : Finset (Fin 16)).biUnion (fun k => (rows16 k).set) = Finset.univ :=
  Ring.lead_cover (s := S2048x1024) (0 : Fin 2) 128 (fun k : Fin 16 => ![128 * k.val, 0]) S128x1024.size inb16 (fun _ => rfl)
    (fun b a ha => by fin_cases a; · exact absurd rfl ha
                      · rfl)
    rfl
    (fun a ha => by fin_cases a; · exact absurd rfl ha
                    · rfl)
    rfl

theorem vs_set (k : Fin 16) : (vsM k).view.set = (rows16 k).set := View.set_slice_whole _ _
theorem r1_set (k : Fin 16) : (r1M k).view.set = (rows16 k).set := View.set_slice_whole _ _
theorem r2_set (k : Fin 16) : (r2M k).view.set = (rows16 k).set := View.set_slice_whole _ _

theorem vs_pts (k : Fin 16) (c : Dev nD) (q : PosShare TreeShare) (f : Buf (Elt F) ((c : Thread nD τ).loc cc0_scratch0)) :
    (pts (vsM k) c q f : sProp 𝕄) = (((c : Thread nD τ).loc cc0_scratch0) ↦[(rows16 k).set]{q} f : sProp 𝕄) := by
  show (((vsM k).view.loc (c : Thread nD τ)) ↦[(vsM k).view.set]{q} f : sProp 𝕄) = _
  rw [vs_set]
theorem r1_pts (k : Fin 16) (c : Dev nD) (q : PosShare TreeShare) (f : Buf (Elt F) ((c : Thread nD τ).loc cc0_scratch1)) :
    (pts (r1M k) c q f : sProp 𝕄) = (((c : Thread nD τ).loc cc0_scratch1) ↦[(rows16 k).set]{q} f : sProp 𝕄) := by
  show (((r1M k).view.loc (c : Thread nD τ)) ↦[(r1M k).view.set]{q} f : sProp 𝕄) = _
  rw [r1_set]
theorem r2_pts (k : Fin 16) (c : Dev nD) (q : PosShare TreeShare) (f : Buf (Elt F) ((c : Thread nD τ).loc cc0_scratch2)) :
    (pts (r2M k) c q f : sProp 𝕄) = (((c : Thread nD τ).loc cc0_scratch2) ↦[(rows16 k).set]{q} f : sProp 𝕄) := by
  show (((r2M k).view.loc (c : Thread nD τ)) ↦[(r2M k).view.set]{q} f : sProp 𝕄) = _
  rw [r2_set]

theorem vs_chunks (c : Dev nD) (f : Buf (Elt F) ((c : Thread nD τ).loc cc0_scratch0)) :
    ((((c : Thread nD τ).loc cc0_scratch0) ↦{fullShare} f : sProp 𝕄)) ⊣⊢ bigSep Finset.univ fun k : Fin 16 => pts (vsM k) c fullShare f :=
  .of_eq ((Ring.pointsTo_blocks (ℓ := (c : Thread nD τ).loc cc0_scratch0) (fun k : Fin 16 => (rows16 k).set) rows16_disjoint rows16_cover f).trans
    (bigSep_congr fun k _ => (vs_pts k c fullShare f).symm))

theorem r1_chunks (c : Dev nD) (f : Buf (Elt F) ((c : Thread nD τ).loc cc0_scratch1)) :
    ((((c : Thread nD τ).loc cc0_scratch1) ↦{fullShare} f : sProp 𝕄)) ⊣⊢ bigSep Finset.univ fun k : Fin 16 => pts (r1M k) c fullShare f :=
  .of_eq ((Ring.pointsTo_blocks (ℓ := (c : Thread nD τ).loc cc0_scratch1) (fun k : Fin 16 => (rows16 k).set) rows16_disjoint rows16_cover f).trans
    (bigSep_congr fun k _ => (r1_pts k c fullShare f).symm))

theorem r2_chunks (c : Dev nD) (f : Buf (Elt F) ((c : Thread nD τ).loc cc0_scratch2)) :
    ((((c : Thread nD τ).loc cc0_scratch2) ↦{fullShare} f : sProp 𝕄)) ⊣⊢ bigSep Finset.univ fun k : Fin 16 => pts (r2M k) c fullShare f :=
  .of_eq ((Ring.pointsTo_blocks (ℓ := (c : Thread nD τ).loc cc0_scratch2) (fun k : Fin 16 => (rows16 k).set) rows16_disjoint rows16_cover f).trans
    (bigSep_congr fun k _ => (r2_pts k c fullShare f).symm))

abbrev slab8 (k : Fin 8) : Rect S8x512x1024 := Rect.unit (s := S8x512x1024) ![k.val, 0, 0] S1x512x1024.size (inb8 k)

theorem slab8_disjoint (k k' : Fin 8) (h : k ≠ k') : Disjoint (slab8 k).set (slab8 k').set :=
  Ring.lead_disjoint (s := S8x512x1024) (0 : Fin 3) 1 (fun k : Fin 8 => ![k.val, 0, 0]) S1x512x1024.size inb8
    (fun b => (Nat.one_mul _).symm) rfl k k' h

theorem slab8_cover : (Finset.univ : Finset (Fin 8)).biUnion (fun k => (slab8 k).set) = Finset.univ :=
  Ring.lead_cover (s := S8x512x1024) (0 : Fin 3) 1 (fun k : Fin 8 => ![k.val, 0, 0]) S1x512x1024.size inb8
    (fun b => (Nat.one_mul _).symm)
    (fun b a ha => by fin_cases a
                      · exact absurd rfl ha
                      · rfl
                      · rfl)
    rfl
    (fun a ha => by fin_cases a
                    · exact absurd rfl ha
                    · rfl
                    · rfl)
    rfl

theorem st_set (k : Fin 8) : (stM k).view.set = (slab8 k).set :=
  (View.set_reshape _ _).trans (View.set_slice_whole _ _)

theorem st_pts (k : Fin 8) (c : Dev nD) (q : PosShare TreeShare) (f : Buf (Elt F) ((c : Thread nD τ).loc cc0_scratch3)) :
    (pts (stM k) c q f : sProp 𝕄) = (((c : Thread nD τ).loc cc0_scratch3) ↦[(slab8 k).set]{q} f : sProp 𝕄) := by
  show (((stM k).view.loc (c : Thread nD τ)) ↦[(stM k).view.set]{q} f : sProp 𝕄) = _
  rw [st_set]

theorem st_chunks (c : Dev nD) (f : Buf (Elt F) ((c : Thread nD τ).loc cc0_scratch3)) :
    ((((c : Thread nD τ).loc cc0_scratch3) ↦{fullShare} f : sProp 𝕄)) ⊣⊢ bigSep Finset.univ fun k : Fin 8 => pts (stM k) c fullShare f :=
  .of_eq ((Ring.pointsTo_blocks (ℓ := (c : Thread nD τ).loc cc0_scratch3) (fun k : Fin 8 => (slab8 k).set) slab8_disjoint slab8_cover f).trans
    (bigSep_congr fun k _ => (st_pts k c fullShare f).symm))

theorem mem_unit2 {d off size : Fin 2 → ℕ} {inb : ∀ a, off a + size a ≤ (⟨2, d⟩ : Shape).size a} {i : (⟨2, d⟩ : Shape).Idx} :
    i ∈ (Rect.unit (s := ⟨2, d⟩) off size inb).set
      ↔ (off 0 ≤ (i 0).val ∧ (i 0).val < off 0 + size 0) ∧ (off 1 ≤ (i 1).val ∧ (i 1).val < off 1 + size 1) := by
  rw [Rect.mem_set_unit]; exact Fin.forall_fin_two

theorem mem_o1 (c : Dev nD) (k : Fin 16) (i : S8192x1024.Idx) :
    i ∈ (o1M c k).view.set ↔ (2048 * (c.val % 2) + 128 * k.val + 4096) - 4096 * (c.val / 2) ≤ (i 0).val
      ∧ (i 0).val < (2048 * (c.val % 2) + 128 * k.val + 4096) - 4096 * (c.val / 2) + 128 := by
  rw [show (o1M c k).view.set = _ from View.set_slice_whole _ _, mem_unit2, k0_off10_eq]
  have h1 : (i 1).val < 1024 := (i 1).isLt
  show ((2048 * (c.val % 2) + 128 * k.val + 4096) - 4096 * (c.val / 2) ≤ (i 0).val
      ∧ (i 0).val < (2048 * (c.val % 2) + 128 * k.val + 4096) - 4096 * (c.val / 2) + 128) ∧ (0 ≤ (i 1).val ∧ (i 1).val < 0 + 1024) ↔ _
  omega

theorem mem_o2 (c : Dev nD) (k : Fin 16) (i : S8192x1024.Idx) :
    i ∈ (o2M c k).view.set ↔ (128 * k.val + 6144) - (4096 * (c.val / 2) + 2048 * (c.val % 2)) ≤ (i 0).val
      ∧ (i 0).val < (128 * k.val + 6144) - (4096 * (c.val / 2) + 2048 * (c.val % 2)) + 128 := by
  rw [show (o2M c k).view.set = _ from View.set_slice_whole _ _, mem_unit2, k0_off12_eq]
  have h1 : (i 1).val < 1024 := (i 1).isLt
  show ((128 * k.val + 6144) - (4096 * (c.val / 2) + 2048 * (c.val % 2)) ≤ (i 0).val
      ∧ (i 0).val < (128 * k.val + 6144) - (4096 * (c.val / 2) + 2048 * (c.val % 2)) + 128) ∧ (0 ≤ (i 1).val ∧ (i 1).val < 0 + 1024) ↔ _
  omega

theorem mem_ol (c : Dev nD) (k : Fin 8) (i : S8192x1024.Idx) :
    i ∈ (olM c k).view.set ↔ 4096 * (c.val / 2) + 512 * k.val ≤ (i 0).val ∧ (i 0).val < 4096 * (c.val / 2) + 512 * k.val + 512 := by
  rw [show (olM c k).view.set = _ from View.set_slice_whole _ _, mem_unit2, k0_off11_eq]
  have h1 : (i 1).val < 1024 := (i 1).isLt
  show (4096 * (c.val / 2) + 512 * k.val ≤ (i 0).val ∧ (i 0).val < 4096 * (c.val / 2) + 512 * k.val + 512) ∧ (0 ≤ (i 1).val ∧ (i 1).val < 0 + 1024) ↔ _
  omega

abbrev o1S (c : Dev nD) (k : Fin 16) : Finset S8192x1024.Idx := (o1M c k).view.set
abbrev o2S (c : Dev nD) (k : Fin 16) : Finset S8192x1024.Idx := (o2M c k).view.set
abbrev olS (c : Dev nD) (k : Fin 8) : Finset S8192x1024.Idx := (olM c k).view.set

theorem mem_O1 (c : Dev nD) (i : S8192x1024.Idx) :
    i ∈ Finset.univ.biUnion (o1S c) ↔ (2048 * (c.val % 2) + 4096) - 4096 * (c.val / 2) ≤ (i 0).val
      ∧ (i 0).val < (2048 * (c.val % 2) + 4096) - 4096 * (c.val / 2) + 2048 := by
  have hc : c.val < 4 := c.isLt
  constructor
  · intro h
    obtain ⟨k, -, hk⟩ := Finset.mem_biUnion.mp h
    have := k.isLt
    rw [mem_o1] at hk; omega
  · intro h
    refine Finset.mem_biUnion.mpr ⟨⟨((i 0).val - ((2048 * (c.val % 2) + 4096) - 4096 * (c.val / 2))) / 128, by omega⟩, Finset.mem_univ _, ?_⟩
    rw [mem_o1]; dsimp only; omega

theorem mem_O2 (c : Dev nD) (i : S8192x1024.Idx) :
    i ∈ Finset.univ.biUnion (o2S c) ↔ 6144 - (4096 * (c.val / 2) + 2048 * (c.val % 2)) ≤ (i 0).val
      ∧ (i 0).val < 6144 - (4096 * (c.val / 2) + 2048 * (c.val % 2)) + 2048 := by
  have hc : c.val < 4 := c.isLt
  constructor
  · intro h
    obtain ⟨k, -, hk⟩ := Finset.mem_biUnion.mp h
    have := k.isLt
    rw [mem_o2] at hk; omega
  · intro h
    refine Finset.mem_biUnion.mpr ⟨⟨((i 0).val - (6144 - (4096 * (c.val / 2) + 2048 * (c.val % 2)))) / 128, by omega⟩, Finset.mem_univ _, ?_⟩
    rw [mem_o2]; dsimp only; omega

theorem mem_OL (c : Dev nD) (i : S8192x1024.Idx) :
    i ∈ Finset.univ.biUnion (olS c) ↔ 4096 * (c.val / 2) ≤ (i 0).val ∧ (i 0).val < 4096 * (c.val / 2) + 4096 := by
  have hc : c.val < 4 := c.isLt
  constructor
  · intro h
    obtain ⟨k, -, hk⟩ := Finset.mem_biUnion.mp h
    have := k.isLt
    rw [mem_ol] at hk; omega
  · intro h
    refine Finset.mem_biUnion.mpr ⟨⟨((i 0).val - 4096 * (c.val / 2)) / 512, by omega⟩, Finset.mem_univ _, ?_⟩
    rw [mem_ol]; dsimp only; omega

theorem o1_disjoint (c : Dev nD) (k k' : Fin 16) (h : k ≠ k') : Disjoint (o1S c k) (o1S c k') := by
  have hc : c.val < 4 := c.isLt
  have hk : k.val ≠ k'.val := fun e => h (Fin.ext e)
  rw [Finset.disjoint_left]; intro i h1 h2
  rw [mem_o1] at h1 h2; omega
theorem o2_disjoint (c : Dev nD) (k k' : Fin 16) (h : k ≠ k') : Disjoint (o2S c k) (o2S c k') := by
  have hc : c.val < 4 := c.isLt
  have hk : k.val ≠ k'.val := fun e => h (Fin.ext e)
  rw [Finset.disjoint_left]; intro i h1 h2
  rw [mem_o2] at h1 h2; omega
theorem ol_disjoint (c : Dev nD) (k k' : Fin 8) (h : k ≠ k') : Disjoint (olS c k) (olS c k') := by
  have hk : k.val ≠ k'.val := fun e => h (Fin.ext e)
  rw [Finset.disjoint_left]; intro i h1 h2
  rw [mem_ol] at h1 h2; omega

theorem o_cover (c : Dev nD) :
    Finset.univ.biUnion (o1S c) ∪ (Finset.univ.biUnion (o2S c) ∪ Finset.univ.biUnion (olS c)) = Finset.univ := by
  ext i
  have hc : c.val < 4 := c.isLt; have h0 : (i 0).val < 8192 := (i 0).isLt
  simp only [Finset.mem_union, mem_O1, mem_O2, mem_OL, Finset.mem_univ, iff_true]
  omega

theorem o2_ol_disjoint (c : Dev nD) : Disjoint (Finset.univ.biUnion (o2S c)) (Finset.univ.biUnion (olS c)) := by
  have hc : c.val < 4 := c.isLt
  rw [Finset.disjoint_left]; intro i h1 h2
  rw [mem_O2] at h1; rw [mem_OL] at h2; omega
theorem o1_rest_disjoint (c : Dev nD) :
    Disjoint (Finset.univ.biUnion (o1S c)) (Finset.univ.biUnion (o2S c) ∪ Finset.univ.biUnion (olS c)) := by
  have hc : c.val < 4 := c.isLt
  rw [Finset.disjoint_left]; intro i h1 h2
  rw [mem_O1] at h1; rw [Finset.mem_union, mem_O2, mem_OL] at h2; omega

theorem eq_of_biEntails {P Q : sProp 𝕄} (h : P ⊣⊢ Q) : P = Q := BI.equiv_iff.mp ⟨h.1, h.2⟩

/-- The result block splits into its forty chunks `o1M`, `o2M`, `olM`, nothing left over. -/
theorem o_chunks (c : Dev nD) (g : Buf (Elt F) ((c : Thread nD τ).loc main_v1)) :
    ((((c : Thread nD τ).loc main_v1) ↦{fullShare} g : sProp 𝕄)) ⊣⊢ iprop((bigSep Finset.univ fun k : Fin 16 => pts (o1M c k) c fullShare g)
      ∗ (bigSep Finset.univ fun k : Fin 16 => pts (o2M c k) c fullShare g) ∗ (bigSep Finset.univ fun k : Fin 8 => pts (olM c k) c fullShare g)) := by
  have eA : ((((c : Thread nD τ).loc main_v1) ↦[Finset.univ.biUnion (o1S c)]{fullShare} g : sProp 𝕄))
      = bigSep Finset.univ fun k : Fin 16 => pts (o1M c k) c fullShare g :=
    pointsTo_biUnion (ℓ := (c : Thread nD τ).loc main_v1) Finset.univ (o1S c) fun k _ k' _ h => o1_disjoint c k k' h
  have eB : ((((c : Thread nD τ).loc main_v1) ↦[Finset.univ.biUnion (o2S c)]{fullShare} g : sProp 𝕄))
      = bigSep Finset.univ fun k : Fin 16 => pts (o2M c k) c fullShare g :=
    pointsTo_biUnion (ℓ := (c : Thread nD τ).loc main_v1) Finset.univ (o2S c) fun k _ k' _ h => o2_disjoint c k k' h
  have eC : ((((c : Thread nD τ).loc main_v1) ↦[Finset.univ.biUnion (olS c)]{fullShare} g : sProp 𝕄))
      = bigSep Finset.univ fun k : Fin 8 => pts (olM c k) c fullShare g :=
    pointsTo_biUnion (ℓ := (c : Thread nD τ).loc main_v1) Finset.univ (olS c) fun k _ k' _ h => ol_disjoint c k k' h
  refine .of_eq ?_
  rw [← eA, ← eB, ← eC, ← eq_of_biEntails (pointsTo_union (o2_ol_disjoint c)), ← eq_of_biEntails (pointsTo_union (o1_rest_disjoint c)), o_cover]

theorem mem_xs (c : Dev nD) (k : Fin 16) (i : S4096x2048.Idx) :
    i ∈ (xsM c k).view.set ↔ (2048 * (c.val % 2) + 128 * k.val ≤ (i 0).val ∧ (i 0).val < 2048 * (c.val % 2) + 128 * k.val + 128)
      ∧ (1024 - 1024 * (c.val / 2) ≤ (i 1).val ∧ (i 1).val < 1024 - 1024 * (c.val / 2) + 1024) := by
  rw [show (xsM c k).view.set = _ from View.set_slice_whole _ _, mem_unit2, k0_off1_eq]
  rfl

theorem mem_xl_at {off : Fin 2 → ℕ} {inb : ∀ a, off a + S512x1024.size a ≤ S4096x2048.size a} (r cc : ℕ) (h : off = ![r, cc]) (i : S4096x2048.Idx) :
    i ∈ ((Memref.whole main_arg0).slice (Rect.unit (s := S4096x2048) off S512x1024.size inb) (fun _ => rfl)).view.set
      ↔ (r ≤ (i 0).val ∧ (i 0).val < r + 512) ∧ (cc ≤ (i 1).val ∧ (i 1).val < cc + 1024) := by
  subst h
  rw [show (((Memref.whole main_arg0).slice (Rect.unit (s := S4096x2048) ![r, cc] S512x1024.size inb) (fun _ => rfl)).view.set) = _ from View.set_slice_whole _ _, mem_unit2]
  rfl

abbrev xsS (c : Dev nD) (k : Fin 16) : Finset S4096x2048.Idx := (xsM c k).view.set
def xlS (c : Dev nD) : Fin 8 → Finset S4096x2048.Idx
  | 0 => (xlM c 0).view.set
  | 1 => (xlM c 1).view.set
  | 2 => (xlM c 2).view.set
  | 3 => (xlM c 3).view.set
  | 4 => (xlM c 4).view.set
  | 5 => (xlM c 5).view.set
  | 6 => (xlM c 6).view.set
  | 7 => (xlM c 7).view.set

def xlP (c : Dev nD) (q : PosShare TreeShare) : Fin 8 → Buf (Elt F) ((c : Thread nD τ).loc main_arg0) → sProp 𝕄
  | 0, X => pts (xlM c 0) c q X
  | 1, X => pts (xlM c 1) c q X
  | 2, X => pts (xlM c 2) c q X
  | 3, X => pts (xlM c 3) c q X
  | 4, X => pts (xlM c 4) c q X
  | 5, X => pts (xlM c 5) c q X
  | 6, X => pts (xlM c 6) c q X
  | 7, X => pts (xlM c 7) c q X

theorem xlP_eq (c : Dev nD) (q : PosShare TreeShare) : ∀ (k : Fin 8) (X : Buf (Elt F) ((c : Thread nD τ).loc main_arg0)),
    xlP c q k X = ((((c : Thread nD τ).loc main_arg0) ↦[xlS c k]{q} X : sProp 𝕄))
  | 0, _ => rfl
  | 1, _ => rfl
  | 2, _ => rfl
  | 3, _ => rfl
  | 4, _ => rfl
  | 5, _ => rfl
  | 6, _ => rfl
  | 7, _ => rfl

theorem mem_xl (c : Dev nD) : ∀ (k : Fin 8) (i : S4096x2048.Idx),
    i ∈ xlS c k ↔ (512 * k.val ≤ (i 0).val ∧ (i 0).val < 512 * k.val + 512)
      ∧ (1024 * (c.val / 2) ≤ (i 1).val ∧ (i 1).val < 1024 * (c.val / 2) + 1024)
  | 0, i => mem_xl_at 0 _ (k0_off2_eq c) i
  | 1, i => mem_xl_at 512 _ (k0_off3_eq c) i
  | 2, i => mem_xl_at 1024 _ (k0_off4_eq c) i
  | 3, i => mem_xl_at 1536 _ (k0_off5_eq c) i
  | 4, i => mem_xl_at 2048 _ (k0_off6_eq c) i
  | 5, i => mem_xl_at 2560 _ (k0_off7_eq c) i
  | 6, i => mem_xl_at 3072 _ (k0_off8_eq c) i
  | 7, i => mem_xl_at 3584 _ (k0_off9_eq c) i

theorem xs_disjoint (c : Dev nD) (k k' : Fin 16) (h : k ≠ k') : Disjoint (xsS c k) (xsS c k') := by
  have hk : k.val ≠ k'.val := fun e => h (Fin.ext e)
  rw [Finset.disjoint_left]; intro i h1 h2
  rw [mem_xs] at h1 h2; omega
theorem xl_disjoint (c : Dev nD) (k k' : Fin 8) (h : k ≠ k') : Disjoint (xlS c k) (xlS c k') := by
  have hk : k.val ≠ k'.val := fun e => h (Fin.ext e)
  rw [Finset.disjoint_left]; intro i h1 h2
  rw [mem_xl] at h1 h2; omega
theorem xs_xl_disjoint (c : Dev nD) : Disjoint (Finset.univ.biUnion (xsS c)) (Finset.univ.biUnion (xlS c)) := by
  have hc : c.val < 4 := c.isLt
  rw [Finset.disjoint_left]; intro i h1 h2
  obtain ⟨k, -, hk⟩ := Finset.mem_biUnion.mp h1
  obtain ⟨k', -, hk'⟩ := Finset.mem_biUnion.mp h2
  rw [mem_xs] at hk; rw [mem_xl] at hk'; omega

def xRest (c : Dev nD) : Finset (Idx ((c : Thread nD τ).loc main_arg0)) :=
  Finset.univ \ (Finset.univ.biUnion (xsS c) ∪ Finset.univ.biUnion (xlS c))

/-- The argument block splits into the sixteen chunks `xsM`, the eight pieces `xlP`, and the rest of the block. -/
theorem x_chunks (c : Dev nD) (X : Buf (Elt F) ((c : Thread nD τ).loc main_arg0)) :
    ((((c : Thread nD τ).loc main_arg0) ↦{fullShare} X : sProp 𝕄)) ⊣⊢ iprop((bigSep Finset.univ fun k : Fin 16 => pts (xsM c k) c fullShare X)
      ∗ (bigSep Finset.univ fun k : Fin 8 => xlP c fullShare k X) ∗ (((c : Thread nD τ).loc main_arg0) ↦[xRest c]{fullShare} X)) := by
  have eA : ((((c : Thread nD τ).loc main_arg0) ↦[Finset.univ.biUnion (xsS c)]{fullShare} X : sProp 𝕄))
      = bigSep Finset.univ fun k : Fin 16 => pts (xsM c k) c fullShare X :=
    pointsTo_biUnion (ℓ := (c : Thread nD τ).loc main_arg0) Finset.univ (xsS c) fun k _ k' _ h => xs_disjoint c k k' h
  have eB : ((((c : Thread nD τ).loc main_arg0) ↦[Finset.univ.biUnion (xlS c)]{fullShare} X : sProp 𝕄))
      = bigSep Finset.univ fun k : Fin 8 => xlP c fullShare k X :=
    (pointsTo_biUnion (ℓ := (c : Thread nD τ).loc main_arg0) Finset.univ (xlS c) fun k _ k' _ h => xl_disjoint c k k' h).trans
      (bigSep_congr fun k _ => (xlP_eq c fullShare k X).symm)
  have eU := eq_of_biEntails (pointsTo_union (ℓ := (c : Thread nD τ).loc main_arg0) (q := fullShare) (f := X) (xs_xl_disjoint c))
  have eS := eq_of_biEntails (pointsTo_split_subset (ℓ := (c : Thread nD τ).loc main_arg0) (q := fullShare) (f := X)
      (Finset.subset_univ (Finset.univ.biUnion (xsS c) ∪ Finset.univ.biUnion (xlS c))))
  refine .of_eq ?_
  rw [← eA, ← eB, eS, eU]
  exact eq_of_biEntails sep_assoc

end Cert.Kernel.A2A
end
-- ==== Proof.KernelBody.lean ====
import proofs.«900019_g7700000000000020_dist_a2a_v7x_xy2x2_x_m4096_n1024_f32_1_alg».proof.Proof.KernelProto
import proofs.«900019_g7700000000000020_dist_a2a_v7x_xy2x2_x_m4096_n1024_f32_1_alg».proof.Proof.KernelSteps
import proofs.«900019_g7700000000000020_dist_a2a_v7x_xy2x2_x_m4096_n1024_f32_1_alg».proof.Proof.KernelLanding
import proofs.«900019_g7700000000000020_dist_a2a_v7x_xy2x2_x_m4096_n1024_f32_1_alg».proof.Proof.KernelRegions

noncomputable section

namespace Cert.Kernel.A2A

open Cert.Kernel Cert.Kernel.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem localSems_eq (c : Dev nD) : (localSems c : sProp 𝕄)
    = bigSepL ([dS 0 (by decide), dS 1 (by decide), dS 2 (by decide), dS 3 (by decide), dS 4 (by decide), dS 5 (by decide), dS 6 (by decide), dS 7 (by decide), dS 8 (by decide), dS 9 (by decide), dS 10 (by decide), dS 11 (by decide), dS 12 (by decide), dS 13 (by decide), dS 14 (by decide), dS 15 (by decide), dS 80 (by decide), dS 81 (by decide), dS 82 (by decide), dS 83 (by decide), dS 84 (by decide), dS 85 (by decide), dS 86 (by decide), dS 87 (by decide), dS 88 (by decide), dS 89 (by decide), dS 90 (by decide), dS 91 (by decide), dS 92 (by decide), dS 93 (by decide), dS 94 (by decide), dS 95 (by decide), dS 96 (by decide), dS 97 (by decide), dS 98 (by decide), dS 99 (by decide), dS 100 (by decide), dS 101 (by decide), dS 102 (by decide), dS 103 (by decide), dS 104 (by decide), dS 105 (by decide), dS 106 (by decide), dS 107 (by decide), dS 108 (by decide), dS 109 (by decide), dS 110 (by decide), dS 111 (by decide), dS 112 (by decide), dS 113 (by decide), dS 114 (by decide), dS 115 (by decide), dS 116 (by decide), dS 117 (by decide), dS 118 (by decide), dS 119 (by decide), dS 120 (by decide), dS 121 (by decide), dS 122 (by decide), dS 123 (by decide), dS 124 (by decide), dS 125 (by decide), dS 126 (by decide), dS 127 (by decide)] : List (Fin 128))
        fun i => semVal ((c : Thread nD τ), SemLoc.dma i) 0 := by
  unfold localSems
  exact bigSep_eq_bigSepL_of_eq _ (by decide) (by decide) _

omit [FloatOps F] in
theorem bigSepL_step {I : Type} (i j : I) (l : List I) (Φ : I → sProp 𝕄) : bigSepL (i :: j :: l) Φ = iprop(Φ i ∗ bigSepL (j :: l) Φ) :=
  bigSepL_cons_cons i j l Φ

theorem sep_assoc_eq (A B C : sProp 𝕄) : iprop((A ∗ B) ∗ C) = iprop(A ∗ B ∗ C) := eq_of_biEntails sep_assoc

/-- What one device holds when its body ends: the argument block's chunks unchanged, the result block's chunks at the contents
    the specification names, the scratch chunks at some contents, every semaphore at zero, nothing owed. -/
def postGrouped (c : Dev nD) : sProp 𝕄 :=
  iprop((∃ W' : Waits sig Unit, owes (c : Thread nD τ) 0 W')
      ∗ ((bigSep Finset.univ fun k : Fin 16 => pts (xsM c k) c fullShare (m ((c : Thread nD τ).loc main_arg0)))
          ∗ (bigSep Finset.univ fun k : Fin 8 => xlP c fullShare k (m ((c : Thread nD τ).loc main_arg0))))
      ∗ (bigSep Finset.univ fun k : Fin 16 => iprop(∃ f, pts (vsM k) c fullShare f))
      ∗ (bigSep Finset.univ fun k : Fin 16 => iprop(∃ f, pts (r1M k) c fullShare f))
      ∗ (bigSep Finset.univ fun k : Fin 16 => iprop(∃ f, pts (r2M k) c fullShare f))
      ∗ (bigSep Finset.univ fun k : Fin 8 => iprop(∃ f, pts (stM k) c fullShare f))
      ∗ ((bigSep Finset.univ fun k : Fin 16 => pts (o1M c k) c fullShare (outF (xsOf m) c))
          ∗ (bigSep Finset.univ fun k : Fin 16 => pts (o2M c k) c fullShare (outF (xsOf m) c))
          ∗ (bigSep Finset.univ fun k : Fin 8 => pts (olM c k) c fullShare (outF (xsOf m) c)))
      ∗ localSems c ∗ bigSep Finset.univ fun jk : Fin 4 × Fin 16 => semVal (xcell c jk.1 jk.2) 0)

set_option maxHeartbeats 16000000 in
set_option maxRecDepth 65536 in
/-- One device's body, from the tokens, positions, credit, zeroed semaphores and chunked buffers it starts with (the two receive
    buffers `R1`, `R2` are given away at the barrier, so they stay whole) to `postGrouped`. -/
theorem sound_body (K : Dev nD × CIx → ℕ) (c : Dev nD) (Kt : PUnit → sProp 𝕄) (W : Waits sig Unit)
    (fvs : Buf (Elt F) ((c : Thread nD τ).loc cc0_scratch0)) (fst : Buf (Elt F) ((c : Thread nD τ).loc cc0_scratch3))
    (g : Buf (Elt F) ((c : Thread nD τ).loc main_v1)) (Lv R1 R2 : sProp 𝕄) (hLv : Lv = levAts L lv)
    (hR1 : R1 = bigSep Finset.univ fun k : Fin 16 => iprop(∃ f, pts (r1M k) c fullShare f))
    (hR2 : R2 = bigSep Finset.univ fun k : Fin 16 => iprop(∃ f, pts (r2M k) c fullShare f)) :
    iprop(
      records m K ∗ Lv ∗ owes (c : Thread nD τ) (O₀ c) W ∗ payToks c
      ∗ (atPos ER (barCell c) 0 ∅ 0 ∗ bigSep Finset.univ fun jk : Fin 4 × Fin 16 => atPos ER (xcell c jk.1 jk.2) 0 ∅ 0)
      ∗ creds0 c ∗ localSems c
      ∗ ((bigSep Finset.univ fun k : Fin 16 => pts (xsM c k) c fullShare (m ((c : Thread nD τ).loc main_arg0)))
          ∗ (bigSep Finset.univ fun k : Fin 8 => xlP c fullShare k (m ((c : Thread nD τ).loc main_arg0))))
      ∗ (bigSep Finset.univ fun k : Fin 16 => pts (vsM k) c fullShare fvs) ∗ R1 ∗ R2
      ∗ (bigSep Finset.univ fun k : Fin 8 => pts (stM k) c fullShare fst)
      ∗ ((bigSep Finset.univ fun k : Fin 16 => pts (o1M c k) c fullShare g)
          ∗ (bigSep Finset.univ fun k : Fin 16 => pts (o2M c k) c fullShare g) ∗ (bigSep Finset.univ fun k : Fin 8 => pts (olM c k) c fullShare g))
      ∗ (postGrouped m c -∗ Kt ⟨⟩))
      ⊢ wp frame (wpE (defs₀ (F := F)) 𝒱₀ c none) Set.univ (bodyAt0 (F := F) t0_0) Kt := by
  unfold postGrouped payToks creds0
  rw [localSems_eq]
  simp only [sep_assoc_eq, bigSep_univ_prod, bigSep_fin16, bigSep_fin8, bigSep_fin4, xlP, bigSepL_step, bigSepL_singleton]
  subst hLv hR1 hR2
  iintro ⟨#Hrec, #Hlev, HO, HtX, HtY, Ht1r0, Ht1r1, Ht1r2, Ht1r3, Ht1r4, Ht1r5, Ht1r6, Ht1r7, Ht1r8, Ht1r9, Ht1r10, Ht1r11, Ht1r12, Ht1r13, Ht1r14, Ht1r15, Ht2r0, Ht2r1, Ht2r2, Ht2r3, Ht2r4, Ht2r5, Ht2r6, Ht2r7, Ht2r8, Ht2r9, Ht2r10, Ht2r11, Ht2r12, Ht2r13, Ht2r14, Ht2r15, Ht1s0, Ht1s1, Ht1s2, Ht1s3, Ht1s4, Ht1s5, Ht1s6, Ht1s7, Ht1s8, Ht1s9, Ht1s10, Ht1s11, Ht1s12, Ht1s13, Ht1s14, Ht1s15, Ht2s0, Ht2s1, Ht2s2, Ht2s3, Ht2s4, Ht2s5, Ht2s6, Ht2s7, Ht2s8, Ht2s9, Ht2s10, Ht2s11, Ht2s12, Ht2s13, Ht2s14, Ht2s15, HatB, Hat0_0, Hat0_1, Hat0_2, Hat0_3, Hat0_4, Hat0_5, Hat0_6, Hat0_7, Hat0_8, Hat0_9, Hat0_10, Hat0_11, Hat0_12, Hat0_13, Hat0_14, Hat0_15, Hat1_0, Hat1_1, Hat1_2, Hat1_3, Hat1_4, Hat1_5, Hat1_6, Hat1_7, Hat1_8, Hat1_9, Hat1_10, Hat1_11, Hat1_12, Hat1_13, Hat1_14, Hat1_15, Hat2_0, Hat2_1, Hat2_2, Hat2_3, Hat2_4, Hat2_5, Hat2_6, Hat2_7, Hat2_8, Hat2_9, Hat2_10, Hat2_11, Hat2_12, Hat2_13, Hat2_14, Hat2_15, Hat3_0, Hat3_1, Hat3_2, Hat3_3, Hat3_4, Hat3_5, Hat3_6, Hat3_7, Hat3_8, Hat3_9, Hat3_10, Hat3_11, Hat3_12, Hat3_13, Hat3_14, Hat3_15, HcB, Hc1_0, Hc1_1, Hc1_2, Hc1_3, Hc1_4, Hc1_5, Hc1_6, Hc1_7, Hc1_8, Hc1_9, Hc1_10, Hc1_11, Hc1_12, Hc1_13, Hc1_14, Hc1_15, Hc3_0, Hc3_1, Hc3_2, Hc3_3, Hc3_4, Hc3_5, Hc3_6, Hc3_7, Hc3_8, Hc3_9, Hc3_10, Hc3_11, Hc3_12, Hc3_13, Hc3_14, Hc3_15, Hs0, Hs1, Hs2, Hs3, Hs4, Hs5, Hs6, Hs7, Hs8, Hs9, Hs10, Hs11, Hs12, Hs13, Hs14, Hs15, Hs80, Hs81, Hs82, Hs83, Hs84, Hs85, Hs86, Hs87, Hs88, Hs89, Hs90, Hs91, Hs92, Hs93, Hs94, Hs95, Hs96, Hs97, Hs98, Hs99, Hs100, Hs101, Hs102, Hs103, Hs104, Hs105, Hs106, Hs107, Hs108, Hs109, Hs110, Hs111, Hs112, Hs113, Hs114, Hs115, Hs116, Hs117, Hs118, Hs119, Hs120, Hs121, Hs122, Hs123, Hs124, Hs125, Hs126, Hs127, Hxs0, Hxs1, Hxs2, Hxs3, Hxs4, Hxs5, Hxs6, Hxs7, Hxs8, Hxs9, Hxs10, Hxs11, Hxs12, Hxs13, Hxs14, Hxs15, Hxl0, Hxl1, Hxl2, Hxl3, Hxl4, Hxl5, Hxl6, Hxl7, Hvs0, Hvs1, Hvs2, Hvs3, Hvs4, Hvs5, Hvs6, Hvs7, Hvs8, Hvs9, Hvs10, Hvs11, Hvs12, Hvs13, Hvs14, Hvs15, Hr1own, Hr2own, Hst0, Hst1, Hst2, Hst3, Hst4, Hst5, Hst6, Hst7, Ho1_0, Ho1_1, Ho1_2, Ho1_3, Ho1_4, Ho1_5, Ho1_6, Ho1_7, Ho1_8, Ho1_9, Ho1_10, Ho1_11, Ho1_12, Ho1_13, Ho1_14, Ho1_15, Ho2_0, Ho2_1, Ho2_2, Ho2_3, Ho2_4, Ho2_5, Ho2_6, Ho2_7, Ho2_8, Ho2_9, Ho2_10, Ho2_11, Ho2_12, Ho2_13, Ho2_14, Ho2_15, Hol0, Hol1, Hol2, Hol3, Hol4, Hol5, Hol6, Hol7, Hk⟩
  have hmw := fun (sm : SemLoc sig) (h : lv ((c : Thread nD τ), sm) () ≤ 1) (a b : ℕ) => mayWait_low (F := F) c sm h a b
  unfold bodyAt0
  sl_unfold [cc0_body]
  sl_exec
  unfold O₀
  iapply (wp_sigX m K c _ (dev1_eq c) (O₁ c) W) $$ [$Hrec $HO $HtX $Hr1own]
  iintro HO
  sl_exec
  unfold O₁
  iapply (wp_sigY m K c _ (dev2_eq c) (owe1 c 0 + owe2 c 0) W) $$ [$Hrec $HO $HtY $Hr2own]
  iintro HO
  sl_exec
  iapply (wp_barwait m K c (wpE_semWait_eq 𝒱₀ (c : Thread nD τ) none Set.univ) 0 0 W) $$ [$Hrec $Hlev $HcB $HO $HatB]
  iintro ⟨HO, HatB, HpX, HpY⟩
  unfold barPayX barPayY
  ihave HpX' := (Entails.of_eq (bigSep_fin16 _)) $$ HpX
  ihave HpY' := (Entails.of_eq (bigSep_fin16 _)) $$ HpY
  icases HpX' with ⟨⟨%fx0, Hx1_0⟩, ⟨%fx1, Hx1_1⟩, ⟨%fx2, Hx1_2⟩, ⟨%fx3, Hx1_3⟩, ⟨%fx4, Hx1_4⟩, ⟨%fx5, Hx1_5⟩, ⟨%fx6, Hx1_6⟩, ⟨%fx7, Hx1_7⟩, ⟨%fx8, Hx1_8⟩, ⟨%fx9, Hx1_9⟩, ⟨%fx10, Hx1_10⟩, ⟨%fx11, Hx1_11⟩, ⟨%fx12, Hx1_12⟩, ⟨%fx13, Hx1_13⟩, ⟨%fx14, Hx1_14⟩, ⟨%fx15, Hx1_15⟩⟩
  icases HpY' with ⟨⟨%fy0, Hy2_0⟩, ⟨%fy1, Hy2_1⟩, ⟨%fy2, Hy2_2⟩, ⟨%fy3, Hy2_3⟩, ⟨%fy4, Hy2_4⟩, ⟨%fy5, Hy2_5⟩, ⟨%fy6, Hy2_6⟩, ⟨%fy7, Hy2_7⟩, ⟨%fy8, Hy2_8⟩, ⟨%fy9, Hy2_9⟩, ⟨%fy10, Hy2_10⟩, ⟨%fy11, Hy2_11⟩, ⟨%fy12, Hy2_12⟩, ⟨%fy13, Hy2_13⟩, ⟨%fy14, Hy2_14⟩, ⟨%fy15, Hy2_15⟩⟩
  sl_exec (disch := first | decide | omega)
  ihave HO := (Entails.of_eq (owes_peel1 c 0 0 1 rfl rfl 0 _)) $$ HO
  iapply (wp_p1 m K c _ (dev3_eq c) 0 _ rfl _ rfl _ _ rfl rfl _ fx0 (hop1_lands m 0 c fx0 _ (stage_lands m c 0 _)) (owe1 c 1 + owe2 c 0) _) $$ [$Hrec Hvs0 $Hx1_0 $HO $Ht1s0 $Ht1r0]
  · iexact Hvs0
  iintro ⟨Hc0_0, HO⟩
  sl_exec (disch := first | decide | omega)
  ihave HO := (Entails.of_eq (owes_peel1 c 1 1 2 rfl rfl 0 _)) $$ HO
  iapply (wp_p1 m K c _ (dev4_eq c) 1 _ rfl _ rfl _ _ rfl rfl _ fx1 (hop1_lands m 1 c fx1 _ (stage_lands m c 1 _)) (owe1 c 2 + owe2 c 0) _) $$ [$Hrec Hvs1 $Hx1_1 $HO $Ht1s1 $Ht1r1]
  · iexact Hvs1
  iintro ⟨Hc0_1, HO⟩
  sl_exec (disch := first | decide | omega)
  ihave HO := (Entails.of_eq (owes_peel1 c 2 2 3 rfl rfl 0 _)) $$ HO
  iapply (wp_p1 m K c _ (dev5_eq c) 2 _ rfl _ rfl _ _ rfl rfl _ fx2 (hop1_lands m 2 c fx2 _ (stage_lands m c 2 _)) (owe1 c 3 + owe2 c 0) _) $$ [$Hrec Hvs2 $Hx1_2 $HO $Ht1s2 $Ht1r2]
  · iexact Hvs2
  iintro ⟨Hc0_2, HO⟩
  sl_exec (disch := first | decide | omega)
  ihave HO := (Entails.of_eq (owes_peel1 c 3 3 4 rfl rfl 0 _)) $$ HO
  iapply (wp_p1 m K c _ (dev6_eq c) 3 _ rfl _ rfl _ _ rfl rfl _ fx3 (hop1_lands m 3 c fx3 _ (stage_lands m c 3 _)) (owe1 c 4 + owe2 c 0) _) $$ [$Hrec Hvs3 $Hx1_3 $HO $Ht1s3 $Ht1r3]
  · iexact Hvs3
  iintro ⟨Hc0_3, HO⟩
  sl_exec (disch := first | decide | omega)
  ihave HO := (Entails.of_eq (owes_peel1 c 4 4 5 rfl rfl 0 _)) $$ HO
  iapply (wp_p1 m K c _ (dev7_eq c) 4 _ rfl _ rfl _ _ rfl rfl _ fx4 (hop1_lands m 4 c fx4 _ (stage_lands m c 4 _)) (owe1 c 5 + owe2 c 0) _) $$ [$Hrec Hvs4 $Hx1_4 $HO $Ht1s4 $Ht1r4]
  · iexact Hvs4
  iintro ⟨Hc0_4, HO⟩
  sl_exec (disch := first | decide | omega)
  ihave HO := (Entails.of_eq (owes_peel1 c 5 5 6 rfl rfl 0 _)) $$ HO
  iapply (wp_p1 m K c _ (dev8_eq c) 5 _ rfl _ rfl _ _ rfl rfl _ fx5 (hop1_lands m 5 c fx5 _ (stage_lands m c 5 _)) (owe1 c 6 + owe2 c 0) _) $$ [$Hrec Hvs5 $Hx1_5 $HO $Ht1s5 $Ht1r5]
  · iexact Hvs5
  iintro ⟨Hc0_5, HO⟩
  sl_exec (disch := first | decide | omega)
  ihave HO := (Entails.of_eq (owes_peel1 c 6 6 7 rfl rfl 0 _)) $$ HO
  iapply (wp_p1 m K c _ (dev9_eq c) 6 _ rfl _ rfl _ _ rfl rfl _ fx6 (hop1_lands m 6 c fx6 _ (stage_lands m c 6 _)) (owe1 c 7 + owe2 c 0) _) $$ [$Hrec Hvs6 $Hx1_6 $HO $Ht1s6 $Ht1r6]
  · iexact Hvs6
  iintro ⟨Hc0_6, HO⟩
  sl_exec (disch := first | decide | omega)
  ihave HO := (Entails.of_eq (owes_peel1 c 7 7 8 rfl rfl 0 _)) $$ HO
  iapply (wp_p1 m K c _ (dev10_eq c) 7 _ rfl _ rfl _ _ rfl rfl _ fx7 (hop1_lands m 7 c fx7 _ (stage_lands m c 7 _)) (owe1 c 8 + owe2 c 0) _) $$ [$Hrec Hvs7 $Hx1_7 $HO $Ht1s7 $Ht1r7]
  · iexact Hvs7
  iintro ⟨Hc0_7, HO⟩
  sl_exec (disch := first | decide | omega)
  ihave HO := (Entails.of_eq (owes_peel1 c 8 8 9 rfl rfl 0 _)) $$ HO
  iapply (wp_p1 m K c _ (dev11_eq c) 8 _ rfl _ rfl _ _ rfl rfl _ fx8 (hop1_lands m 8 c fx8 _ (stage_lands m c 8 _)) (owe1 c 9 + owe2 c 0) _) $$ [$Hrec Hvs8 $Hx1_8 $HO $Ht1s8 $Ht1r8]
  · iexact Hvs8
  iintro ⟨Hc0_8, HO⟩
  sl_exec (disch := first | decide | omega)
  ihave HO := (Entails.of_eq (owes_peel1 c 9 9 10 rfl rfl 0 _)) $$ HO
  iapply (wp_p1 m K c _ (dev12_eq c) 9 _ rfl _ rfl _ _ rfl rfl _ fx9 (hop1_lands m 9 c fx9 _ (stage_lands m c 9 _)) (owe1 c 10 + owe2 c 0) _) $$ [$Hrec Hvs9 $Hx1_9 $HO $Ht1s9 $Ht1r9]
  · iexact Hvs9
  iintro ⟨Hc0_9, HO⟩
  sl_exec (disch := first | decide | omega)
  ihave HO := (Entails.of_eq (owes_peel1 c 10 10 11 rfl rfl 0 _)) $$ HO
  iapply (wp_p1 m K c _ (dev13_eq c) 10 _ rfl _ rfl _ _ rfl rfl _ fx10 (hop1_lands m 10 c fx10 _ (stage_lands m c 10 _)) (owe1 c 11 + owe2 c 0) _) $$ [$Hrec Hvs10 $Hx1_10 $HO $Ht1s10 $Ht1r10]
  · iexact Hvs10
  iintro ⟨Hc0_10, HO⟩
  sl_exec (disch := first | decide | omega)
  ihave HO := (Entails.of_eq (owes_peel1 c 11 11 12 rfl rfl 0 _)) $$ HO
  iapply (wp_p1 m K c _ (dev14_eq c) 11 _ rfl _ rfl _ _ rfl rfl _ fx11 (hop1_lands m 11 c fx11 _ (stage_lands m c 11 _)) (owe1 c 12 + owe2 c 0) _) $$ [$Hrec Hvs11 $Hx1_11 $HO $Ht1s11 $Ht1r11]
  · iexact Hvs11
  iintro ⟨Hc0_11, HO⟩
  sl_exec (disch := first | decide | omega)
  ihave HO := (Entails.of_eq (owes_peel1 c 12 12 13 rfl rfl 0 _)) $$ HO
  iapply (wp_p1 m K c _ (dev15_eq c) 12 _ rfl _ rfl _ _ rfl rfl _ fx12 (hop1_lands m 12 c fx12 _ (stage_lands m c 12 _)) (owe1 c 13 + owe2 c 0) _) $$ [$Hrec Hvs12 $Hx1_12 $HO $Ht1s12 $Ht1r12]
  · iexact Hvs12
  iintro ⟨Hc0_12, HO⟩
  sl_exec (disch := first | decide | omega)
  ihave HO := (Entails.of_eq (owes_peel1 c 13 13 14 rfl rfl 0 _)) $$ HO
  iapply (wp_p1 m K c _ (dev16_eq c) 13 _ rfl _ rfl _ _ rfl rfl _ fx13 (hop1_lands m 13 c fx13 _ (stage_lands m c 13 _)) (owe1 c 14 + owe2 c 0) _) $$ [$Hrec Hvs13 $Hx1_13 $HO $Ht1s13 $Ht1r13]
  · iexact Hvs13
  iintro ⟨Hc0_13, HO⟩
  sl_exec (disch := first | decide | omega)
  ihave HO := (Entails.of_eq (owes_peel1 c 14 14 15 rfl rfl 0 _)) $$ HO
  iapply (wp_p1 m K c _ (dev17_eq c) 14 _ rfl _ rfl _ _ rfl rfl _ fx14 (hop1_lands m 14 c fx14 _ (stage_lands m c 14 _)) (owe1 c 15 + owe2 c 0) _) $$ [$Hrec Hvs14 $Hx1_14 $HO $Ht1s14 $Ht1r14]
  · iexact Hvs14
  iintro ⟨Hc0_14, HO⟩
  sl_exec (disch := first | decide | omega)
  ihave HO := (Entails.of_eq (owes_peel1 c 15 15 16 rfl rfl 0 _)) $$ HO
  iapply (wp_p1 m K c _ (dev18_eq c) 15 _ rfl _ rfl _ _ rfl rfl _ fx15 (hop1_lands m 15 c fx15 _ (stage_lands m c 15 _)) (owe1 c 16 + owe2 c 0) _) $$ [$Hrec Hvs15 $Hx1_15 $HO $Ht1s15 $Ht1r15]
  · iexact Hvs15
  iintro ⟨Hc0_15, HO⟩
  sl_exec (disch := first | decide | omega)
  iapply (wp_wait_p1r m K c 0 rfl 0 _) $$ [$Hrec $Hlev $Hc1_0 $HO $Hat1_0]
  iintro ⟨HO, Hat1_0, Hr1_0⟩
  sl_exec (disch := first | decide | omega)
  ihave Hh := (pts_halve (r1M 0) c _).1 $$ Hr1_0
  icases Hh with ⟨Hr1L_0, Hr1R_0⟩
  ihave HO := (Entails.of_eq (owes_peel2 c 0 0 1 rfl rfl _)) $$ HO
  iapply (wp_p2 m K c _ (dev19_eq c) 0 _ rfl _ rfl _ _ rfl rfl fy0 (hop2_lands m 0 c fy0) (owe1 c 16 + owe2 c 1) _) $$ [$Hrec $Hr1L_0 $Hy2_0 $HO $Ht2s0 $Ht2r0]
  iintro ⟨Hc2_0, HO⟩
  sl_exec (disch := first | decide | omega)
  iapply (wp_wait_p1r m K c 1 rfl 1 _) $$ [$Hrec $Hlev $Hc1_1 $HO $Hat1_1]
  iintro ⟨HO, Hat1_1, Hr1_1⟩
  sl_exec (disch := first | decide | omega)
  ihave Hh := (pts_halve (r1M 1) c _).1 $$ Hr1_1
  icases Hh with ⟨Hr1L_1, Hr1R_1⟩
  ihave HO := (Entails.of_eq (owes_peel2 c 1 1 2 rfl rfl _)) $$ HO
  iapply (wp_p2 m K c _ (dev20_eq c) 1 _ rfl _ rfl _ _ rfl rfl fy1 (hop2_lands m 1 c fy1) (owe1 c 16 + owe2 c 2) _) $$ [$Hrec $Hr1L_1 $Hy2_1 $HO $Ht2s1 $Ht2r1]
  iintro ⟨Hc2_1, HO⟩
  sl_exec (disch := first | decide | omega)
  iapply (wp_wait_p1r m K c 2 rfl 2 _) $$ [$Hrec $Hlev $Hc1_2 $HO $Hat1_2]
  iintro ⟨HO, Hat1_2, Hr1_2⟩
  sl_exec (disch := first | decide | omega)
  ihave Hh := (pts_halve (r1M 2) c _).1 $$ Hr1_2
  icases Hh with ⟨Hr1L_2, Hr1R_2⟩
  ihave HO := (Entails.of_eq (owes_peel2 c 2 2 3 rfl rfl _)) $$ HO
  iapply (wp_p2 m K c _ (dev21_eq c) 2 _ rfl _ rfl _ _ rfl rfl fy2 (hop2_lands m 2 c fy2) (owe1 c 16 + owe2 c 3) _) $$ [$Hrec $Hr1L_2 $Hy2_2 $HO $Ht2s2 $Ht2r2]
  iintro ⟨Hc2_2, HO⟩
  sl_exec (disch := first | decide | omega)
  iapply (wp_wait_p1r m K c 3 rfl 3 _) $$ [$Hrec $Hlev $Hc1_3 $HO $Hat1_3]
  iintro ⟨HO, Hat1_3, Hr1_3⟩
  sl_exec (disch := first | decide | omega)
  ihave Hh := (pts_halve (r1M 3) c _).1 $$ Hr1_3
  icases Hh with ⟨Hr1L_3, Hr1R_3⟩
  ihave HO := (Entails.of_eq (owes_peel2 c 3 3 4 rfl rfl _)) $$ HO
  iapply (wp_p2 m K c _ (dev22_eq c) 3 _ rfl _ rfl _ _ rfl rfl fy3 (hop2_lands m 3 c fy3) (owe1 c 16 + owe2 c 4) _) $$ [$Hrec $Hr1L_3 $Hy2_3 $HO $Ht2s3 $Ht2r3]
  iintro ⟨Hc2_3, HO⟩
  sl_exec (disch := first | decide | omega)
  iapply (wp_wait_p1r m K c 4 rfl 4 _) $$ [$Hrec $Hlev $Hc1_4 $HO $Hat1_4]
  iintro ⟨HO, Hat1_4, Hr1_4⟩
  sl_exec (disch := first | decide | omega)
  ihave Hh := (pts_halve (r1M 4) c _).1 $$ Hr1_4
  icases Hh with ⟨Hr1L_4, Hr1R_4⟩
  ihave HO := (Entails.of_eq (owes_peel2 c 4 4 5 rfl rfl _)) $$ HO
  iapply (wp_p2 m K c _ (dev23_eq c) 4 _ rfl _ rfl _ _ rfl rfl fy4 (hop2_lands m 4 c fy4) (owe1 c 16 + owe2 c 5) _) $$ [$Hrec $Hr1L_4 $Hy2_4 $HO $Ht2s4 $Ht2r4]
  iintro ⟨Hc2_4, HO⟩
  sl_exec (disch := first | decide | omega)
  iapply (wp_wait_p1r m K c 5 rfl 5 _) $$ [$Hrec $Hlev $Hc1_5 $HO $Hat1_5]
  iintro ⟨HO, Hat1_5, Hr1_5⟩
  sl_exec (disch := first | decide | omega)
  ihave Hh := (pts_halve (r1M 5) c _).1 $$ Hr1_5
  icases Hh with ⟨Hr1L_5, Hr1R_5⟩
  ihave HO := (Entails.of_eq (owes_peel2 c 5 5 6 rfl rfl _)) $$ HO
  iapply (wp_p2 m K c _ (dev24_eq c) 5 _ rfl _ rfl _ _ rfl rfl fy5 (hop2_lands m 5 c fy5) (owe1 c 16 + owe2 c 6) _) $$ [$Hrec $Hr1L_5 $Hy2_5 $HO $Ht2s5 $Ht2r5]
  iintro ⟨Hc2_5, HO⟩
  sl_exec (disch := first | decide | omega)
  iapply (wp_wait_p1r m K c 6 rfl 6 _) $$ [$Hrec $Hlev $Hc1_6 $HO $Hat1_6]
  iintro ⟨HO, Hat1_6, Hr1_6⟩
  sl_exec (disch := first | decide | omega)
  ihave Hh := (pts_halve (r1M 6) c _).1 $$ Hr1_6
  icases Hh with ⟨Hr1L_6, Hr1R_6⟩
  ihave HO := (Entails.of_eq (owes_peel2 c 6 6 7 rfl rfl _)) $$ HO
  iapply (wp_p2 m K c _ (dev25_eq c) 6 _ rfl _ rfl _ _ rfl rfl fy6 (hop2_lands m 6 c fy6) (owe1 c 16 + owe2 c 7) _) $$ [$Hrec $Hr1L_6 $Hy2_6 $HO $Ht2s6 $Ht2r6]
  iintro ⟨Hc2_6, HO⟩
  sl_exec (disch := first | decide | omega)
  iapply (wp_wait_p1r m K c 7 rfl 7 _) $$ [$Hrec $Hlev $Hc1_7 $HO $Hat1_7]
  iintro ⟨HO, Hat1_7, Hr1_7⟩
  sl_exec (disch := first | decide | omega)
  ihave Hh := (pts_halve (r1M 7) c _).1 $$ Hr1_7
  icases Hh with ⟨Hr1L_7, Hr1R_7⟩
  ihave HO := (Entails.of_eq (owes_peel2 c 7 7 8 rfl rfl _)) $$ HO
  iapply (wp_p2 m K c _ (dev26_eq c) 7 _ rfl _ rfl _ _ rfl rfl fy7 (hop2_lands m 7 c fy7) (owe1 c 16 + owe2 c 8) _) $$ [$Hrec $Hr1L_7 $Hy2_7 $HO $Ht2s7 $Ht2r7]
  iintro ⟨Hc2_7, HO⟩
  sl_exec (disch := first | decide | omega)
  iapply (wp_wait_p1r m K c 8 rfl 8 _) $$ [$Hrec $Hlev $Hc1_8 $HO $Hat1_8]
  iintro ⟨HO, Hat1_8, Hr1_8⟩
  sl_exec (disch := first | decide | omega)
  ihave Hh := (pts_halve (r1M 8) c _).1 $$ Hr1_8
  icases Hh with ⟨Hr1L_8, Hr1R_8⟩
  ihave HO := (Entails.of_eq (owes_peel2 c 8 8 9 rfl rfl _)) $$ HO
  iapply (wp_p2 m K c _ (dev27_eq c) 8 _ rfl _ rfl _ _ rfl rfl fy8 (hop2_lands m 8 c fy8) (owe1 c 16 + owe2 c 9) _) $$ [$Hrec $Hr1L_8 $Hy2_8 $HO $Ht2s8 $Ht2r8]
  iintro ⟨Hc2_8, HO⟩
  sl_exec (disch := first | decide | omega)
  iapply (wp_wait_p1r m K c 9 rfl 9 _) $$ [$Hrec $Hlev $Hc1_9 $HO $Hat1_9]
  iintro ⟨HO, Hat1_9, Hr1_9⟩
  sl_exec (disch := first | decide | omega)
  ihave Hh := (pts_halve (r1M 9) c _).1 $$ Hr1_9
  icases Hh with ⟨Hr1L_9, Hr1R_9⟩
  ihave HO := (Entails.of_eq (owes_peel2 c 9 9 10 rfl rfl _)) $$ HO
  iapply (wp_p2 m K c _ (dev28_eq c) 9 _ rfl _ rfl _ _ rfl rfl fy9 (hop2_lands m 9 c fy9) (owe1 c 16 + owe2 c 10) _) $$ [$Hrec $Hr1L_9 $Hy2_9 $HO $Ht2s9 $Ht2r9]
  iintro ⟨Hc2_9, HO⟩
  sl_exec (disch := first | decide | omega)
  iapply (wp_wait_p1r m K c 10 rfl 10 _) $$ [$Hrec $Hlev $Hc1_10 $HO $Hat1_10]
  iintro ⟨HO, Hat1_10, Hr1_10⟩
  sl_exec (disch := first | decide | omega)
  ihave Hh := (pts_halve (r1M 10) c _).1 $$ Hr1_10
  icases Hh with ⟨Hr1L_10, Hr1R_10⟩
  ihave HO := (Entails.of_eq (owes_peel2 c 10 10 11 rfl rfl _)) $$ HO
  iapply (wp_p2 m K c _ (dev29_eq c) 10 _ rfl _ rfl _ _ rfl rfl fy10 (hop2_lands m 10 c fy10) (owe1 c 16 + owe2 c 11) _) $$ [$Hrec $Hr1L_10 $Hy2_10 $HO $Ht2s10 $Ht2r10]
  iintro ⟨Hc2_10, HO⟩
  sl_exec (disch := first | decide | omega)
  iapply (wp_wait_p1r m K c 11 rfl 11 _) $$ [$Hrec $Hlev $Hc1_11 $HO $Hat1_11]
  iintro ⟨HO, Hat1_11, Hr1_11⟩
  sl_exec (disch := first | decide | omega)
  ihave Hh := (pts_halve (r1M 11) c _).1 $$ Hr1_11
  icases Hh with ⟨Hr1L_11, Hr1R_11⟩
  ihave HO := (Entails.of_eq (owes_peel2 c 11 11 12 rfl rfl _)) $$ HO
  iapply (wp_p2 m K c _ (dev30_eq c) 11 _ rfl _ rfl _ _ rfl rfl fy11 (hop2_lands m 11 c fy11) (owe1 c 16 + owe2 c 12) _) $$ [$Hrec $Hr1L_11 $Hy2_11 $HO $Ht2s11 $Ht2r11]
  iintro ⟨Hc2_11, HO⟩
  sl_exec (disch := first | decide | omega)
  iapply (wp_wait_p1r m K c 12 rfl 12 _) $$ [$Hrec $Hlev $Hc1_12 $HO $Hat1_12]
  iintro ⟨HO, Hat1_12, Hr1_12⟩
  sl_exec (disch := first | decide | omega)
  ihave Hh := (pts_halve (r1M 12) c _).1 $$ Hr1_12
  icases Hh with ⟨Hr1L_12, Hr1R_12⟩
  ihave HO := (Entails.of_eq (owes_peel2 c 12 12 13 rfl rfl _)) $$ HO
  iapply (wp_p2 m K c _ (dev31_eq c) 12 _ rfl _ rfl _ _ rfl rfl fy12 (hop2_lands m 12 c fy12) (owe1 c 16 + owe2 c 13) _) $$ [$Hrec $Hr1L_12 $Hy2_12 $HO $Ht2s12 $Ht2r12]
  iintro ⟨Hc2_12, HO⟩
  sl_exec (disch := first | decide | omega)
  iapply (wp_wait_p1r m K c 13 rfl 13 _) $$ [$Hrec $Hlev $Hc1_13 $HO $Hat1_13]
  iintro ⟨HO, Hat1_13, Hr1_13⟩
  sl_exec (disch := first | decide | omega)
  ihave Hh := (pts_halve (r1M 13) c _).1 $$ Hr1_13
  icases Hh with ⟨Hr1L_13, Hr1R_13⟩
  ihave HO := (Entails.of_eq (owes_peel2 c 13 13 14 rfl rfl _)) $$ HO
  iapply (wp_p2 m K c _ (dev32_eq c) 13 _ rfl _ rfl _ _ rfl rfl fy13 (hop2_lands m 13 c fy13) (owe1 c 16 + owe2 c 14) _) $$ [$Hrec $Hr1L_13 $Hy2_13 $HO $Ht2s13 $Ht2r13]
  iintro ⟨Hc2_13, HO⟩
  sl_exec (disch := first | decide | omega)
  iapply (wp_wait_p1r m K c 14 rfl 14 _) $$ [$Hrec $Hlev $Hc1_14 $HO $Hat1_14]
  iintro ⟨HO, Hat1_14, Hr1_14⟩
  sl_exec (disch := first | decide | omega)
  ihave Hh := (pts_halve (r1M 14) c _).1 $$ Hr1_14
  icases Hh with ⟨Hr1L_14, Hr1R_14⟩
  ihave HO := (Entails.of_eq (owes_peel2 c 14 14 15 rfl rfl _)) $$ HO
  iapply (wp_p2 m K c _ (dev33_eq c) 14 _ rfl _ rfl _ _ rfl rfl fy14 (hop2_lands m 14 c fy14) (owe1 c 16 + owe2 c 15) _) $$ [$Hrec $Hr1L_14 $Hy2_14 $HO $Ht2s14 $Ht2r14]
  iintro ⟨Hc2_14, HO⟩
  sl_exec (disch := first | decide | omega)
  iapply (wp_wait_p1r m K c 15 rfl 15 _) $$ [$Hrec $Hlev $Hc1_15 $HO $Hat1_15]
  iintro ⟨HO, Hat1_15, Hr1_15⟩
  sl_exec (disch := first | decide | omega)
  ihave Hh := (pts_halve (r1M 15) c _).1 $$ Hr1_15
  icases Hh with ⟨Hr1L_15, Hr1R_15⟩
  ihave HO := (Entails.of_eq (owes_peel2 c 15 15 16 rfl rfl _)) $$ HO
  iapply (wp_p2 m K c _ (dev34_eq c) 15 _ rfl _ rfl _ _ rfl rfl fy15 (hop2_lands m 15 c fy15) (owe1 c 16 + owe2 c 16) _) $$ [$Hrec $Hr1L_15 $Hy2_15 $HO $Ht2s15 $Ht2r15]
  iintro ⟨Hc2_15, HO⟩
  sl_exec (disch := first | decide | omega)
  ihave HO := (Entails.of_eq (owes_done c _)) $$ HO
  iapply (wp_wait_p2r m K c 0 rfl _) $$ [$Hrec $Hlev $Hc3_0 $HO $Hat3_0]
  iintro ⟨HO, Hat3_0, Hr2_0⟩
  sl_exec (disch := first | decide | omega)
  iapply (wp_wait_p2r m K c 1 rfl _) $$ [$Hrec $Hlev $Hc3_1 $HO $Hat3_1]
  iintro ⟨HO, Hat3_1, Hr2_1⟩
  sl_exec (disch := first | decide | omega)
  iapply (wp_wait_p2r m K c 2 rfl _) $$ [$Hrec $Hlev $Hc3_2 $HO $Hat3_2]
  iintro ⟨HO, Hat3_2, Hr2_2⟩
  sl_exec (disch := first | decide | omega)
  iapply (wp_wait_p2r m K c 3 rfl _) $$ [$Hrec $Hlev $Hc3_3 $HO $Hat3_3]
  iintro ⟨HO, Hat3_3, Hr2_3⟩
  sl_exec (disch := first | decide | omega)
  iapply (wp_wait_p2r m K c 4 rfl _) $$ [$Hrec $Hlev $Hc3_4 $HO $Hat3_4]
  iintro ⟨HO, Hat3_4, Hr2_4⟩
  sl_exec (disch := first | decide | omega)
  iapply (wp_wait_p2r m K c 5 rfl _) $$ [$Hrec $Hlev $Hc3_5 $HO $Hat3_5]
  iintro ⟨HO, Hat3_5, Hr2_5⟩
  sl_exec (disch := first | decide | omega)
  iapply (wp_wait_p2r m K c 6 rfl _) $$ [$Hrec $Hlev $Hc3_6 $HO $Hat3_6]
  iintro ⟨HO, Hat3_6, Hr2_6⟩
  sl_exec (disch := first | decide | omega)
  iapply (wp_wait_p2r m K c 7 rfl _) $$ [$Hrec $Hlev $Hc3_7 $HO $Hat3_7]
  iintro ⟨HO, Hat3_7, Hr2_7⟩
  sl_exec (disch := first | decide | omega)
  iapply (wp_wait_p2r m K c 8 rfl _) $$ [$Hrec $Hlev $Hc3_8 $HO $Hat3_8]
  iintro ⟨HO, Hat3_8, Hr2_8⟩
  sl_exec (disch := first | decide | omega)
  iapply (wp_wait_p2r m K c 9 rfl _) $$ [$Hrec $Hlev $Hc3_9 $HO $Hat3_9]
  iintro ⟨HO, Hat3_9, Hr2_9⟩
  sl_exec (disch := first | decide | omega)
  iapply (wp_wait_p2r m K c 10 rfl _) $$ [$Hrec $Hlev $Hc3_10 $HO $Hat3_10]
  iintro ⟨HO, Hat3_10, Hr2_10⟩
  sl_exec (disch := first | decide | omega)
  iapply (wp_wait_p2r m K c 11 rfl _) $$ [$Hrec $Hlev $Hc3_11 $HO $Hat3_11]
  iintro ⟨HO, Hat3_11, Hr2_11⟩
  sl_exec (disch := first | decide | omega)
  iapply (wp_wait_p2r m K c 12 rfl _) $$ [$Hrec $Hlev $Hc3_12 $HO $Hat3_12]
  iintro ⟨HO, Hat3_12, Hr2_12⟩
  sl_exec (disch := first | decide | omega)
  iapply (wp_wait_p2r m K c 13 rfl _) $$ [$Hrec $Hlev $Hc3_13 $HO $Hat3_13]
  iintro ⟨HO, Hat3_13, Hr2_13⟩
  sl_exec (disch := first | decide | omega)
  iapply (wp_wait_p2r m K c 14 rfl _) $$ [$Hrec $Hlev $Hc3_14 $HO $Hat3_14]
  iintro ⟨HO, Hat3_14, Hr2_14⟩
  sl_exec (disch := first | decide | omega)
  iapply (wp_wait_p2r m K c 15 rfl _) $$ [$Hrec $Hlev $Hc3_15 $HO $Hat3_15]
  iintro ⟨HO, Hat3_15, Hr2_15⟩
  sl_exec (disch := first | decide | omega)
  iapply (wp_wait_p1s m K c 0 rfl _) $$ [$Hrec $Hlev $Hc0_0 $HO $Hat0_0]
  iintro ⟨HO, Hat0_0, Hvs0⟩
  sl_exec (disch := first | decide | omega)
  iapply (wp_wait_p2s m K c 0 rfl _) $$ [$Hrec $Hlev $Hc2_0 $HO $Hat2_0]
  iintro ⟨HO, Hat2_0, Hr1L_0⟩
  sl_exec (disch := first | decide | omega)
  iapply (wp_wait_p1s m K c 1 rfl _) $$ [$Hrec $Hlev $Hc0_1 $HO $Hat0_1]
  iintro ⟨HO, Hat0_1, Hvs1⟩
  sl_exec (disch := first | decide | omega)
  iapply (wp_wait_p2s m K c 1 rfl _) $$ [$Hrec $Hlev $Hc2_1 $HO $Hat2_1]
  iintro ⟨HO, Hat2_1, Hr1L_1⟩
  sl_exec (disch := first | decide | omega)
  iapply (wp_wait_p1s m K c 2 rfl _) $$ [$Hrec $Hlev $Hc0_2 $HO $Hat0_2]
  iintro ⟨HO, Hat0_2, Hvs2⟩
  sl_exec (disch := first | decide | omega)
  iapply (wp_wait_p2s m K c 2 rfl _) $$ [$Hrec $Hlev $Hc2_2 $HO $Hat2_2]
  iintro ⟨HO, Hat2_2, Hr1L_2⟩
  sl_exec (disch := first | decide | omega)
  iapply (wp_wait_p1s m K c 3 rfl _) $$ [$Hrec $Hlev $Hc0_3 $HO $Hat0_3]
  iintro ⟨HO, Hat0_3, Hvs3⟩
  sl_exec (disch := first | decide | omega)
  iapply (wp_wait_p2s m K c 3 rfl _) $$ [$Hrec $Hlev $Hc2_3 $HO $Hat2_3]
  iintro ⟨HO, Hat2_3, Hr1L_3⟩
  sl_exec (disch := first | decide | omega)
  iapply (wp_wait_p1s m K c 4 rfl _) $$ [$Hrec $Hlev $Hc0_4 $HO $Hat0_4]
  iintro ⟨HO, Hat0_4, Hvs4⟩
  sl_exec (disch := first | decide | omega)
  iapply (wp_wait_p2s m K c 4 rfl _) $$ [$Hrec $Hlev $Hc2_4 $HO $Hat2_4]
  iintro ⟨HO, Hat2_4, Hr1L_4⟩
  sl_exec (disch := first | decide | omega)
  iapply (wp_wait_p1s m K c 5 rfl _) $$ [$Hrec $Hlev $Hc0_5 $HO $Hat0_5]
  iintro ⟨HO, Hat0_5, Hvs5⟩
  sl_exec (disch := first | decide | omega)
  iapply (wp_wait_p2s m K c 5 rfl _) $$ [$Hrec $Hlev $Hc2_5 $HO $Hat2_5]
  iintro ⟨HO, Hat2_5, Hr1L_5⟩
  sl_exec (disch := first | decide | omega)
  iapply (wp_wait_p1s m K c 6 rfl _) $$ [$Hrec $Hlev $Hc0_6 $HO $Hat0_6]
  iintro ⟨HO, Hat0_6, Hvs6⟩
  sl_exec (disch := first | decide | omega)
  iapply (wp_wait_p2s m K c 6 rfl _) $$ [$Hrec $Hlev $Hc2_6 $HO $Hat2_6]
  iintro ⟨HO, Hat2_6, Hr1L_6⟩
  sl_exec (disch := first | decide | omega)
  iapply (wp_wait_p1s m K c 7 rfl _) $$ [$Hrec $Hlev $Hc0_7 $HO $Hat0_7]
  iintro ⟨HO, Hat0_7, Hvs7⟩
  sl_exec (disch := first | decide | omega)
  iapply (wp_wait_p2s m K c 7 rfl _) $$ [$Hrec $Hlev $Hc2_7 $HO $Hat2_7]
  iintro ⟨HO, Hat2_7, Hr1L_7⟩
  sl_exec (disch := first | decide | omega)
  iapply (wp_wait_p1s m K c 8 rfl _) $$ [$Hrec $Hlev $Hc0_8 $HO $Hat0_8]
  iintro ⟨HO, Hat0_8, Hvs8⟩
  sl_exec (disch := first | decide | omega)
  iapply (wp_wait_p2s m K c 8 rfl _) $$ [$Hrec $Hlev $Hc2_8 $HO $Hat2_8]
  iintro ⟨HO, Hat2_8, Hr1L_8⟩
  sl_exec (disch := first | decide | omega)
  iapply (wp_wait_p1s m K c 9 rfl _) $$ [$Hrec $Hlev $Hc0_9 $HO $Hat0_9]
  iintro ⟨HO, Hat0_9, Hvs9⟩
  sl_exec (disch := first | decide | omega)
  iapply (wp_wait_p2s m K c 9 rfl _) $$ [$Hrec $Hlev $Hc2_9 $HO $Hat2_9]
  iintro ⟨HO, Hat2_9, Hr1L_9⟩
  sl_exec (disch := first | decide | omega)
  iapply (wp_wait_p1s m K c 10 rfl _) $$ [$Hrec $Hlev $Hc0_10 $HO $Hat0_10]
  iintro ⟨HO, Hat0_10, Hvs10⟩
  sl_exec (disch := first | decide | omega)
  iapply (wp_wait_p2s m K c 10 rfl _) $$ [$Hrec $Hlev $Hc2_10 $HO $Hat2_10]
  iintro ⟨HO, Hat2_10, Hr1L_10⟩
  sl_exec (disch := first | decide | omega)
  iapply (wp_wait_p1s m K c 11 rfl _) $$ [$Hrec $Hlev $Hc0_11 $HO $Hat0_11]
  iintro ⟨HO, Hat0_11, Hvs11⟩
  sl_exec (disch := first | decide | omega)
  iapply (wp_wait_p2s m K c 11 rfl _) $$ [$Hrec $Hlev $Hc2_11 $HO $Hat2_11]
  iintro ⟨HO, Hat2_11, Hr1L_11⟩
  sl_exec (disch := first | decide | omega)
  iapply (wp_wait_p1s m K c 12 rfl _) $$ [$Hrec $Hlev $Hc0_12 $HO $Hat0_12]
  iintro ⟨HO, Hat0_12, Hvs12⟩
  sl_exec (disch := first | decide | omega)
  iapply (wp_wait_p2s m K c 12 rfl _) $$ [$Hrec $Hlev $Hc2_12 $HO $Hat2_12]
  iintro ⟨HO, Hat2_12, Hr1L_12⟩
  sl_exec (disch := first | decide | omega)
  iapply (wp_wait_p1s m K c 13 rfl _) $$ [$Hrec $Hlev $Hc0_13 $HO $Hat0_13]
  iintro ⟨HO, Hat0_13, Hvs13⟩
  sl_exec (disch := first | decide | omega)
  iapply (wp_wait_p2s m K c 13 rfl _) $$ [$Hrec $Hlev $Hc2_13 $HO $Hat2_13]
  iintro ⟨HO, Hat2_13, Hr1L_13⟩
  sl_exec (disch := first | decide | omega)
  iapply (wp_wait_p1s m K c 14 rfl _) $$ [$Hrec $Hlev $Hc0_14 $HO $Hat0_14]
  iintro ⟨HO, Hat0_14, Hvs14⟩
  sl_exec (disch := first | decide | omega)
  iapply (wp_wait_p2s m K c 14 rfl _) $$ [$Hrec $Hlev $Hc2_14 $HO $Hat2_14]
  iintro ⟨HO, Hat2_14, Hr1L_14⟩
  sl_exec (disch := first | decide | omega)
  iapply (wp_wait_p1s m K c 15 rfl _) $$ [$Hrec $Hlev $Hc0_15 $HO $Hat0_15]
  iintro ⟨HO, Hat0_15, Hvs15⟩
  sl_exec (disch := first | decide | omega)
  iapply (wp_wait_p2s m K c 15 rfl _) $$ [$Hrec $Hlev $Hc2_15 $HO $Hat2_15]
  iintro ⟨HO, Hat2_15, Hr1L_15⟩
  sl_exec (disch := first | decide | omega)
  imod (xclose m K c 0 0) $$ [$Hrec $Hat0_0] with Hz0_0
  imod (xclose m K c 0 1) $$ [$Hrec $Hat0_1] with Hz0_1
  imod (xclose m K c 0 2) $$ [$Hrec $Hat0_2] with Hz0_2
  imod (xclose m K c 0 3) $$ [$Hrec $Hat0_3] with Hz0_3
  imod (xclose m K c 0 4) $$ [$Hrec $Hat0_4] with Hz0_4
  imod (xclose m K c 0 5) $$ [$Hrec $Hat0_5] with Hz0_5
  imod (xclose m K c 0 6) $$ [$Hrec $Hat0_6] with Hz0_6
  imod (xclose m K c 0 7) $$ [$Hrec $Hat0_7] with Hz0_7
  imod (xclose m K c 0 8) $$ [$Hrec $Hat0_8] with Hz0_8
  imod (xclose m K c 0 9) $$ [$Hrec $Hat0_9] with Hz0_9
  imod (xclose m K c 0 10) $$ [$Hrec $Hat0_10] with Hz0_10
  imod (xclose m K c 0 11) $$ [$Hrec $Hat0_11] with Hz0_11
  imod (xclose m K c 0 12) $$ [$Hrec $Hat0_12] with Hz0_12
  imod (xclose m K c 0 13) $$ [$Hrec $Hat0_13] with Hz0_13
  imod (xclose m K c 0 14) $$ [$Hrec $Hat0_14] with Hz0_14
  imod (xclose m K c 0 15) $$ [$Hrec $Hat0_15] with Hz0_15
  imod (xclose m K c 1 0) $$ [$Hrec $Hat1_0] with Hz1_0
  imod (xclose m K c 1 1) $$ [$Hrec $Hat1_1] with Hz1_1
  imod (xclose m K c 1 2) $$ [$Hrec $Hat1_2] with Hz1_2
  imod (xclose m K c 1 3) $$ [$Hrec $Hat1_3] with Hz1_3
  imod (xclose m K c 1 4) $$ [$Hrec $Hat1_4] with Hz1_4
  imod (xclose m K c 1 5) $$ [$Hrec $Hat1_5] with Hz1_5
  imod (xclose m K c 1 6) $$ [$Hrec $Hat1_6] with Hz1_6
  imod (xclose m K c 1 7) $$ [$Hrec $Hat1_7] with Hz1_7
  imod (xclose m K c 1 8) $$ [$Hrec $Hat1_8] with Hz1_8
  imod (xclose m K c 1 9) $$ [$Hrec $Hat1_9] with Hz1_9
  imod (xclose m K c 1 10) $$ [$Hrec $Hat1_10] with Hz1_10
  imod (xclose m K c 1 11) $$ [$Hrec $Hat1_11] with Hz1_11
  imod (xclose m K c 1 12) $$ [$Hrec $Hat1_12] with Hz1_12
  imod (xclose m K c 1 13) $$ [$Hrec $Hat1_13] with Hz1_13
  imod (xclose m K c 1 14) $$ [$Hrec $Hat1_14] with Hz1_14
  imod (xclose m K c 1 15) $$ [$Hrec $Hat1_15] with Hz1_15
  imod (xclose m K c 2 0) $$ [$Hrec $Hat2_0] with Hz2_0
  imod (xclose m K c 2 1) $$ [$Hrec $Hat2_1] with Hz2_1
  imod (xclose m K c 2 2) $$ [$Hrec $Hat2_2] with Hz2_2
  imod (xclose m K c 2 3) $$ [$Hrec $Hat2_3] with Hz2_3
  imod (xclose m K c 2 4) $$ [$Hrec $Hat2_4] with Hz2_4
  imod (xclose m K c 2 5) $$ [$Hrec $Hat2_5] with Hz2_5
  imod (xclose m K c 2 6) $$ [$Hrec $Hat2_6] with Hz2_6
  imod (xclose m K c 2 7) $$ [$Hrec $Hat2_7] with Hz2_7
  imod (xclose m K c 2 8) $$ [$Hrec $Hat2_8] with Hz2_8
  imod (xclose m K c 2 9) $$ [$Hrec $Hat2_9] with Hz2_9
  imod (xclose m K c 2 10) $$ [$Hrec $Hat2_10] with Hz2_10
  imod (xclose m K c 2 11) $$ [$Hrec $Hat2_11] with Hz2_11
  imod (xclose m K c 2 12) $$ [$Hrec $Hat2_12] with Hz2_12
  imod (xclose m K c 2 13) $$ [$Hrec $Hat2_13] with Hz2_13
  imod (xclose m K c 2 14) $$ [$Hrec $Hat2_14] with Hz2_14
  imod (xclose m K c 2 15) $$ [$Hrec $Hat2_15] with Hz2_15
  imod (xclose m K c 3 0) $$ [$Hrec $Hat3_0] with Hz3_0
  imod (xclose m K c 3 1) $$ [$Hrec $Hat3_1] with Hz3_1
  imod (xclose m K c 3 2) $$ [$Hrec $Hat3_2] with Hz3_2
  imod (xclose m K c 3 3) $$ [$Hrec $Hat3_3] with Hz3_3
  imod (xclose m K c 3 4) $$ [$Hrec $Hat3_4] with Hz3_4
  imod (xclose m K c 3 5) $$ [$Hrec $Hat3_5] with Hz3_5
  imod (xclose m K c 3 6) $$ [$Hrec $Hat3_6] with Hz3_6
  imod (xclose m K c 3 7) $$ [$Hrec $Hat3_7] with Hz3_7
  imod (xclose m K c 3 8) $$ [$Hrec $Hat3_8] with Hz3_8
  imod (xclose m K c 3 9) $$ [$Hrec $Hat3_9] with Hz3_9
  imod (xclose m K c 3 10) $$ [$Hrec $Hat3_10] with Hz3_10
  imod (xclose m K c 3 11) $$ [$Hrec $Hat3_11] with Hz3_11
  imod (xclose m K c 3 12) $$ [$Hrec $Hat3_12] with Hz3_12
  imod (xclose m K c 3 13) $$ [$Hrec $Hat3_13] with Hz3_13
  imod (xclose m K c 3 14) $$ [$Hrec $Hat3_14] with Hz3_14
  imod (xclose m K c 3 15) $$ [$Hrec $Hat3_15] with Hz3_15
  ihave Hr1_0 := (pts_halve (r1M 0) c _).2 $$ [Hr1L_0 Hr1R_0]
  · isplitl [Hr1L_0] <;> iassumption
  ihave Hr1_1 := (pts_halve (r1M 1) c _).2 $$ [Hr1L_1 Hr1R_1]
  · isplitl [Hr1L_1] <;> iassumption
  ihave Hr1_2 := (pts_halve (r1M 2) c _).2 $$ [Hr1L_2 Hr1R_2]
  · isplitl [Hr1L_2] <;> iassumption
  ihave Hr1_3 := (pts_halve (r1M 3) c _).2 $$ [Hr1L_3 Hr1R_3]
  · isplitl [Hr1L_3] <;> iassumption
  ihave Hr1_4 := (pts_halve (r1M 4) c _).2 $$ [Hr1L_4 Hr1R_4]
  · isplitl [Hr1L_4] <;> iassumption
  ihave Hr1_5 := (pts_halve (r1M 5) c _).2 $$ [Hr1L_5 Hr1R_5]
  · isplitl [Hr1L_5] <;> iassumption
  ihave Hr1_6 := (pts_halve (r1M 6) c _).2 $$ [Hr1L_6 Hr1R_6]
  · isplitl [Hr1L_6] <;> iassumption
  ihave Hr1_7 := (pts_halve (r1M 7) c _).2 $$ [Hr1L_7 Hr1R_7]
  · isplitl [Hr1L_7] <;> iassumption
  ihave Hr1_8 := (pts_halve (r1M 8) c _).2 $$ [Hr1L_8 Hr1R_8]
  · isplitl [Hr1L_8] <;> iassumption
  ihave Hr1_9 := (pts_halve (r1M 9) c _).2 $$ [Hr1L_9 Hr1R_9]
  · isplitl [Hr1L_9] <;> iassumption
  ihave Hr1_10 := (pts_halve (r1M 10) c _).2 $$ [Hr1L_10 Hr1R_10]
  · isplitl [Hr1L_10] <;> iassumption
  ihave Hr1_11 := (pts_halve (r1M 11) c _).2 $$ [Hr1L_11 Hr1R_11]
  · isplitl [Hr1L_11] <;> iassumption
  ihave Hr1_12 := (pts_halve (r1M 12) c _).2 $$ [Hr1L_12 Hr1R_12]
  · isplitl [Hr1L_12] <;> iassumption
  ihave Hr1_13 := (pts_halve (r1M 13) c _).2 $$ [Hr1L_13 Hr1R_13]
  · isplitl [Hr1L_13] <;> iassumption
  ihave Hr1_14 := (pts_halve (r1M 14) c _).2 $$ [Hr1L_14 Hr1R_14]
  · isplitl [Hr1L_14] <;> iassumption
  ihave Hr1_15 := (pts_halve (r1M 15) c _).2 $$ [Hr1L_15 Hr1R_15]
  · isplitl [Hr1L_15] <;> iassumption
  sl_step
  iapply Hk
  isplitl [HO]; · iexists _; iexact HO
  isplitl [Hxs0]; · iexact Hxs0
  isplitl [Hxs1]; · iexact Hxs1
  isplitl [Hxs2]; · iexact Hxs2
  isplitl [Hxs3]; · iexact Hxs3
  isplitl [Hxs4]; · iexact Hxs4
  isplitl [Hxs5]; · iexact Hxs5
  isplitl [Hxs6]; · iexact Hxs6
  isplitl [Hxs7]; · iexact Hxs7
  isplitl [Hxs8]; · iexact Hxs8
  isplitl [Hxs9]; · iexact Hxs9
  isplitl [Hxs10]; · iexact Hxs10
  isplitl [Hxs11]; · iexact Hxs11
  isplitl [Hxs12]; · iexact Hxs12
  isplitl [Hxs13]; · iexact Hxs13
  isplitl [Hxs14]; · iexact Hxs14
  isplitl [Hxs15]; · iexact Hxs15
  isplitl [Hxl0]; · iexact Hxl0
  isplitl [Hxl1]; · iexact Hxl1
  isplitl [Hxl2]; · iexact Hxl2
  isplitl [Hxl3]; · iexact Hxl3
  isplitl [Hxl4]; · iexact Hxl4
  isplitl [Hxl5]; · iexact Hxl5
  isplitl [Hxl6]; · iexact Hxl6
  isplitl [Hxl7]; · iexact Hxl7
  isplitl [Hvs0]; · iexact Hvs0
  isplitl [Hvs1]; · iexact Hvs1
  isplitl [Hvs2]; · iexact Hvs2
  isplitl [Hvs3]; · iexact Hvs3
  isplitl [Hvs4]; · iexact Hvs4
  isplitl [Hvs5]; · iexact Hvs5
  isplitl [Hvs6]; · iexact Hvs6
  isplitl [Hvs7]; · iexact Hvs7
  isplitl [Hvs8]; · iexact Hvs8
  isplitl [Hvs9]; · iexact Hvs9
  isplitl [Hvs10]; · iexact Hvs10
  isplitl [Hvs11]; · iexact Hvs11
  isplitl [Hvs12]; · iexact Hvs12
  isplitl [Hvs13]; · iexact Hvs13
  isplitl [Hvs14]; · iexact Hvs14
  isplitl [Hvs15]; · iexact Hvs15
  isplitl [Hr1_0]; · iexists _; iexact Hr1_0
  isplitl [Hr1_1]; · iexists _; iexact Hr1_1
  isplitl [Hr1_2]; · iexists _; iexact Hr1_2
  isplitl [Hr1_3]; · iexists _; iexact Hr1_3
  isplitl [Hr1_4]; · iexists _; iexact Hr1_4
  isplitl [Hr1_5]; · iexists _; iexact Hr1_5
  isplitl [Hr1_6]; · iexists _; iexact Hr1_6
  isplitl [Hr1_7]; · iexists _; iexact Hr1_7
  isplitl [Hr1_8]; · iexists _; iexact Hr1_8
  isplitl [Hr1_9]; · iexists _; iexact Hr1_9
  isplitl [Hr1_10]; · iexists _; iexact Hr1_10
  isplitl [Hr1_11]; · iexists _; iexact Hr1_11
  isplitl [Hr1_12]; · iexists _; iexact Hr1_12
  isplitl [Hr1_13]; · iexists _; iexact Hr1_13
  isplitl [Hr1_14]; · iexists _; iexact Hr1_14
  isplitl [Hr1_15]; · iexists _; iexact Hr1_15
  isplitl [Hr2_0]; · iexists _; iexact Hr2_0
  isplitl [Hr2_1]; · iexists _; iexact Hr2_1
  isplitl [Hr2_2]; · iexists _; iexact Hr2_2
  isplitl [Hr2_3]; · iexists _; iexact Hr2_3
  isplitl [Hr2_4]; · iexists _; iexact Hr2_4
  isplitl [Hr2_5]; · iexists _; iexact Hr2_5
  isplitl [Hr2_6]; · iexists _; iexact Hr2_6
  isplitl [Hr2_7]; · iexists _; iexact Hr2_7
  isplitl [Hr2_8]; · iexists _; iexact Hr2_8
  isplitl [Hr2_9]; · iexists _; iexact Hr2_9
  isplitl [Hr2_10]; · iexists _; iexact Hr2_10
  isplitl [Hr2_11]; · iexists _; iexact Hr2_11
  isplitl [Hr2_12]; · iexists _; iexact Hr2_12
  isplitl [Hr2_13]; · iexists _; iexact Hr2_13
  isplitl [Hr2_14]; · iexists _; iexact Hr2_14
  isplitl [Hr2_15]; · iexists _; iexact Hr2_15
  isplitl [Hst0]; · iexists _; iexact Hst0
  isplitl [Hst1]; · iexists _; iexact Hst1
  isplitl [Hst2]; · iexists _; iexact Hst2
  isplitl [Hst3]; · iexists _; iexact Hst3
  isplitl [Hst4]; · iexists _; iexact Hst4
  isplitl [Hst5]; · iexists _; iexact Hst5
  isplitl [Hst6]; · iexists _; iexact Hst6
  isplitl [Hst7]; · iexists _; iexact Hst7
  isplitl [Ho1_0]; · iapply (Entails.of_eq (chunk_congr (o1M c 0) c fullShare _ _ (st1_lands m c 0 _))); iexact Ho1_0
  isplitl [Ho1_1]; · iapply (Entails.of_eq (chunk_congr (o1M c 1) c fullShare _ _ (st1_lands m c 1 _))); iexact Ho1_1
  isplitl [Ho1_2]; · iapply (Entails.of_eq (chunk_congr (o1M c 2) c fullShare _ _ (st1_lands m c 2 _))); iexact Ho1_2
  isplitl [Ho1_3]; · iapply (Entails.of_eq (chunk_congr (o1M c 3) c fullShare _ _ (st1_lands m c 3 _))); iexact Ho1_3
  isplitl [Ho1_4]; · iapply (Entails.of_eq (chunk_congr (o1M c 4) c fullShare _ _ (st1_lands m c 4 _))); iexact Ho1_4
  isplitl [Ho1_5]; · iapply (Entails.of_eq (chunk_congr (o1M c 5) c fullShare _ _ (st1_lands m c 5 _))); iexact Ho1_5
  isplitl [Ho1_6]; · iapply (Entails.of_eq (chunk_congr (o1M c 6) c fullShare _ _ (st1_lands m c 6 _))); iexact Ho1_6
  isplitl [Ho1_7]; · iapply (Entails.of_eq (chunk_congr (o1M c 7) c fullShare _ _ (st1_lands m c 7 _))); iexact Ho1_7
  isplitl [Ho1_8]; · iapply (Entails.of_eq (chunk_congr (o1M c 8) c fullShare _ _ (st1_lands m c 8 _))); iexact Ho1_8
  isplitl [Ho1_9]; · iapply (Entails.of_eq (chunk_congr (o1M c 9) c fullShare _ _ (st1_lands m c 9 _))); iexact Ho1_9
  isplitl [Ho1_10]; · iapply (Entails.of_eq (chunk_congr (o1M c 10) c fullShare _ _ (st1_lands m c 10 _))); iexact Ho1_10
  isplitl [Ho1_11]; · iapply (Entails.of_eq (chunk_congr (o1M c 11) c fullShare _ _ (st1_lands m c 11 _))); iexact Ho1_11
  isplitl [Ho1_12]; · iapply (Entails.of_eq (chunk_congr (o1M c 12) c fullShare _ _ (st1_lands m c 12 _))); iexact Ho1_12
  isplitl [Ho1_13]; · iapply (Entails.of_eq (chunk_congr (o1M c 13) c fullShare _ _ (st1_lands m c 13 _))); iexact Ho1_13
  isplitl [Ho1_14]; · iapply (Entails.of_eq (chunk_congr (o1M c 14) c fullShare _ _ (st1_lands m c 14 _))); iexact Ho1_14
  isplitl [Ho1_15]; · iapply (Entails.of_eq (chunk_congr (o1M c 15) c fullShare _ _ (st1_lands m c 15 _))); iexact Ho1_15
  isplitl [Ho2_0]; · iapply (Entails.of_eq (chunk_congr (o2M c 0) c fullShare _ _ (st2_lands m c 0 _))); iexact Ho2_0
  isplitl [Ho2_1]; · iapply (Entails.of_eq (chunk_congr (o2M c 1) c fullShare _ _ (st2_lands m c 1 _))); iexact Ho2_1
  isplitl [Ho2_2]; · iapply (Entails.of_eq (chunk_congr (o2M c 2) c fullShare _ _ (st2_lands m c 2 _))); iexact Ho2_2
  isplitl [Ho2_3]; · iapply (Entails.of_eq (chunk_congr (o2M c 3) c fullShare _ _ (st2_lands m c 3 _))); iexact Ho2_3
  isplitl [Ho2_4]; · iapply (Entails.of_eq (chunk_congr (o2M c 4) c fullShare _ _ (st2_lands m c 4 _))); iexact Ho2_4
  isplitl [Ho2_5]; · iapply (Entails.of_eq (chunk_congr (o2M c 5) c fullShare _ _ (st2_lands m c 5 _))); iexact Ho2_5
  isplitl [Ho2_6]; · iapply (Entails.of_eq (chunk_congr (o2M c 6) c fullShare _ _ (st2_lands m c 6 _))); iexact Ho2_6
  isplitl [Ho2_7]; · iapply (Entails.of_eq (chunk_congr (o2M c 7) c fullShare _ _ (st2_lands m c 7 _))); iexact Ho2_7
  isplitl [Ho2_8]; · iapply (Entails.of_eq (chunk_congr (o2M c 8) c fullShare _ _ (st2_lands m c 8 _))); iexact Ho2_8
  isplitl [Ho2_9]; · iapply (Entails.of_eq (chunk_congr (o2M c 9) c fullShare _ _ (st2_lands m c 9 _))); iexact Ho2_9
  isplitl [Ho2_10]; · iapply (Entails.of_eq (chunk_congr (o2M c 10) c fullShare _ _ (st2_lands m c 10 _))); iexact Ho2_10
  isplitl [Ho2_11]; · iapply (Entails.of_eq (chunk_congr (o2M c 11) c fullShare _ _ (st2_lands m c 11 _))); iexact Ho2_11
  isplitl [Ho2_12]; · iapply (Entails.of_eq (chunk_congr (o2M c 12) c fullShare _ _ (st2_lands m c 12 _))); iexact Ho2_12
  isplitl [Ho2_13]; · iapply (Entails.of_eq (chunk_congr (o2M c 13) c fullShare _ _ (st2_lands m c 13 _))); iexact Ho2_13
  isplitl [Ho2_14]; · iapply (Entails.of_eq (chunk_congr (o2M c 14) c fullShare _ _ (st2_lands m c 14 _))); iexact Ho2_14
  isplitl [Ho2_15]; · iapply (Entails.of_eq (chunk_congr (o2M c 15) c fullShare _ _ (st2_lands m c 15 _))); iexact Ho2_15
  isplitl [Hol0]; · iapply (Entails.of_eq (chunk_congr (olM c 0) c fullShare _ _ (lcout_lands m c 0 _ _ (lcin_lands m c 0 _)))); iexact Hol0
  isplitl [Hol1]; · iapply (Entails.of_eq (chunk_congr (olM c 1) c fullShare _ _ (lcout_lands m c 1 _ _ (lcin_lands m c 1 _)))); iexact Hol1
  isplitl [Hol2]; · iapply (Entails.of_eq (chunk_congr (olM c 2) c fullShare _ _ (lcout_lands m c 2 _ _ (lcin_lands m c 2 _)))); iexact Hol2
  isplitl [Hol3]; · iapply (Entails.of_eq (chunk_congr (olM c 3) c fullShare _ _ (lcout_lands m c 3 _ _ (lcin_lands m c 3 _)))); iexact Hol3
  isplitl [Hol4]; · iapply (Entails.of_eq (chunk_congr (olM c 4) c fullShare _ _ (lcout_lands m c 4 _ _ (lcin_lands m c 4 _)))); iexact Hol4
  isplitl [Hol5]; · iapply (Entails.of_eq (chunk_congr (olM c 5) c fullShare _ _ (lcout_lands m c 5 _ _ (lcin_lands m c 5 _)))); iexact Hol5
  isplitl [Hol6]; · iapply (Entails.of_eq (chunk_congr (olM c 6) c fullShare _ _ (lcout_lands m c 6 _ _ (lcin_lands m c 6 _)))); iexact Hol6
  isplitl [Hol7]; · iapply (Entails.of_eq (chunk_congr (olM c 7) c fullShare _ _ (lcout_lands m c 7 _ _ (lcin_lands m c 7 _)))); iexact Hol7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs80]; · iexact Hs80
  isplitl [Hs81]; · iexact Hs81
  isplitl [Hs82]; · iexact Hs82
  isplitl [Hs83]; · iexact Hs83
  isplitl [Hs84]; · iexact Hs84
  isplitl [Hs85]; · iexact Hs85
  isplitl [Hs86]; · iexact Hs86
  isplitl [Hs87]; · iexact Hs87
  isplitl [Hs88]; · iexact Hs88
  isplitl [Hs89]; · iexact Hs89
  isplitl [Hs90]; · iexact Hs90
  isplitl [Hs91]; · iexact Hs91
  isplitl [Hs92]; · iexact Hs92
  isplitl [Hs93]; · iexact Hs93
  isplitl [Hs94]; · iexact Hs94
  isplitl [Hs95]; · iexact Hs95
  isplitl [Hs96]; · iexact Hs96
  isplitl [Hs97]; · iexact Hs97
  isplitl [Hs98]; · iexact Hs98
  isplitl [Hs99]; · iexact Hs99
  isplitl [Hs100]; · iexact Hs100
  isplitl [Hs101]; · iexact Hs101
  isplitl [Hs102]; · iexact Hs102
  isplitl [Hs103]; · iexact Hs103
  isplitl [Hs104]; · iexact Hs104
  isplitl [Hs105]; · iexact Hs105
  isplitl [Hs106]; · iexact Hs106
  isplitl [Hs107]; · iexact Hs107
  isplitl [Hs108]; · iexact Hs108
  isplitl [Hs109]; · iexact Hs109
  isplitl [Hs110]; · iexact Hs110
  isplitl [Hs111]; · iexact Hs111
  isplitl [Hs112]; · iexact Hs112
  isplitl [Hs113]; · iexact Hs113
  isplitl [Hs114]; · iexact Hs114
  isplitl [Hs115]; · iexact Hs115
  isplitl [Hs116]; · iexact Hs116
  isplitl [Hs117]; · iexact Hs117
  isplitl [Hs118]; · iexact Hs118
  isplitl [Hs119]; · iexact Hs119
  isplitl [Hs120]; · iexact Hs120
  isplitl [Hs121]; · iexact Hs121
  isplitl [Hs122]; · iexact Hs122
  isplitl [Hs123]; · iexact Hs123
  isplitl [Hs124]; · iexact Hs124
  isplitl [Hs125]; · iexact Hs125
  isplitl [Hs126]; · iexact Hs126
  isplitl [Hs127]; · iexact Hs127
  isplitl [Hz0_0]; · iexact Hz0_0
  isplitl [Hz0_1]; · iexact Hz0_1
  isplitl [Hz0_2]; · iexact Hz0_2
  isplitl [Hz0_3]; · iexact Hz0_3
  isplitl [Hz0_4]; · iexact Hz0_4
  isplitl [Hz0_5]; · iexact Hz0_5
  isplitl [Hz0_6]; · iexact Hz0_6
  isplitl [Hz0_7]; · iexact Hz0_7
  isplitl [Hz0_8]; · iexact Hz0_8
  isplitl [Hz0_9]; · iexact Hz0_9
  isplitl [Hz0_10]; · iexact Hz0_10
  isplitl [Hz0_11]; · iexact Hz0_11
  isplitl [Hz0_12]; · iexact Hz0_12
  isplitl [Hz0_13]; · iexact Hz0_13
  isplitl [Hz0_14]; · iexact Hz0_14
  isplitl [Hz0_15]; · iexact Hz0_15
  isplitl [Hz1_0]; · iexact Hz1_0
  isplitl [Hz1_1]; · iexact Hz1_1
  isplitl [Hz1_2]; · iexact Hz1_2
  isplitl [Hz1_3]; · iexact Hz1_3
  isplitl [Hz1_4]; · iexact Hz1_4
  isplitl [Hz1_5]; · iexact Hz1_5
  isplitl [Hz1_6]; · iexact Hz1_6
  isplitl [Hz1_7]; · iexact Hz1_7
  isplitl [Hz1_8]; · iexact Hz1_8
  isplitl [Hz1_9]; · iexact Hz1_9
  isplitl [Hz1_10]; · iexact Hz1_10
  isplitl [Hz1_11]; · iexact Hz1_11
  isplitl [Hz1_12]; · iexact Hz1_12
  isplitl [Hz1_13]; · iexact Hz1_13
  isplitl [Hz1_14]; · iexact Hz1_14
  isplitl [Hz1_15]; · iexact Hz1_15
  isplitl [Hz2_0]; · iexact Hz2_0
  isplitl [Hz2_1]; · iexact Hz2_1
  isplitl [Hz2_2]; · iexact Hz2_2
  isplitl [Hz2_3]; · iexact Hz2_3
  isplitl [Hz2_4]; · iexact Hz2_4
  isplitl [Hz2_5]; · iexact Hz2_5
  isplitl [Hz2_6]; · iexact Hz2_6
  isplitl [Hz2_7]; · iexact Hz2_7
  isplitl [Hz2_8]; · iexact Hz2_8
  isplitl [Hz2_9]; · iexact Hz2_9
  isplitl [Hz2_10]; · iexact Hz2_10
  isplitl [Hz2_11]; · iexact Hz2_11
  isplitl [Hz2_12]; · iexact Hz2_12
  isplitl [Hz2_13]; · iexact Hz2_13
  isplitl [Hz2_14]; · iexact Hz2_14
  isplitl [Hz2_15]; · iexact Hz2_15
  isplitl [Hz3_0]; · iexact Hz3_0
  isplitl [Hz3_1]; · iexact Hz3_1
  isplitl [Hz3_2]; · iexact Hz3_2
  isplitl [Hz3_3]; · iexact Hz3_3
  isplitl [Hz3_4]; · iexact Hz3_4
  isplitl [Hz3_5]; · iexact Hz3_5
  isplitl [Hz3_6]; · iexact Hz3_6
  isplitl [Hz3_7]; · iexact Hz3_7
  isplitl [Hz3_8]; · iexact Hz3_8
  isplitl [Hz3_9]; · iexact Hz3_9
  isplitl [Hz3_10]; · iexact Hz3_10
  isplitl [Hz3_11]; · iexact Hz3_11
  isplitl [Hz3_12]; · iexact Hz3_12
  isplitl [Hz3_13]; · iexact Hz3_13
  isplitl [Hz3_14]; · iexact Hz3_14
  iexact Hz3_15

/-- info: 'Cert.Kernel.A2A.sound_body' depends on axioms: [propext, Classical.choice, Quot.sound] -/
#guard_msgs in #print axioms sound_body

end Cert.Kernel.A2A
end
-- ==== Proof.KernelJoin.lean ====
import proofs.«900019_g7700000000000020_dist_a2a_v7x_xy2x2_x_m4096_n1024_f32_1_alg».proof.Proof.KernelRegions
import Idealize.SL.ProofMode.BigOp

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def rowChunk (i : S2048x1024.Idx) : Fin 16 := ⟨(i 0).val / 128, by have h : (i 0).val < 2048 := (i 0).isLt; omega⟩

theorem rowChunk_of_mem (k : Fin 16) (i : S2048x1024.Idx) (hi : i ∈ (rows16 k).set) : rowChunk i = k := by
  rw [mem_unit2] at hi
  have h1 : 128 * k.val ≤ (i 0).val := hi.1.1
  have h2 : (i 0).val < 128 * k.val + 128 := hi.1.2
  exact Fin.ext (by show (i 0).val / 128 = k.val; omega)

def slabOf (i : S8x512x1024.Idx) : Fin 8 := ⟨(i 0).val, (i 0).isLt⟩

theorem slabOf_of_mem (k : Fin 8) (i : S8x512x1024.Idx) (hi : i ∈ (slab8 k).set) : slabOf i = k := by
  have h := (Rect.mem_set_unit.mp hi) 0
  have h1 : k.val ≤ (i 0).val := h.1
  have h2 : (i 0).val < k.val + 1 := h.2
  exact Fin.ext (by show (i 0).val = k.val; omega)

theorem vs_join (c : Dev nD) : (bigSep Finset.univ fun k : Fin 16 => iprop(∃ f, pts (vsM k) c fullShare f) : sProp 𝕄)
    ⊢ iprop(∃ f : Buf (Elt F) ((c : Thread nD τ).loc cc0_scratch0), ((c : Thread nD τ).loc cc0_scratch0) ↦{fullShare} f) := by
  refine (bigSep_exists_pi (Y := fun _ : Fin 16 => Buf (Elt F) ((c : Thread nD τ).loc cc0_scratch0)) Finset.univ
      (fun k f => pts (vsM k) c fullShare f)).trans ?_
  refine exists_elim fun f => ?_
  have e : (bigSep Finset.univ fun k : Fin 16 => (pts (vsM k) c fullShare (f k) : sProp 𝕄))
      = bigSep Finset.univ fun k : Fin 16 => pts (vsM k) c fullShare (fun i : S2048x1024.Idx => f (rowChunk i) i) :=
    bigSep_congr fun k _ => chunk_congr (vsM k) c fullShare _ _ fun i hi => by
      rw [vs_set] at hi
      show f k i = f (rowChunk i) i
      rw [rowChunk_of_mem k i hi]
  rw [e]
  exact (vs_chunks c _).2.trans (exists_intro (Φ := fun f : Buf (Elt F) ((c : Thread nD τ).loc cc0_scratch0) => (((c : Thread nD τ).loc cc0_scratch0) ↦{fullShare} f : sProp 𝕄)) _)

theorem r1_join (c : Dev nD) : (bigSep Finset.univ fun k : Fin 16 => iprop(∃ f, pts (r1M k) c fullShare f) : sProp 𝕄)
    ⊢ iprop(∃ f : Buf (Elt F) ((c : Thread nD τ).loc cc0_scratch1), ((c : Thread nD τ).loc cc0_scratch1) ↦{fullShare} f) := by
  refine (bigSep_exists_pi (Y := fun _ : Fin 16 => Buf (Elt F) ((c : Thread nD τ).loc cc0_scratch1)) Finset.univ
      (fun k f => pts (r1M k) c fullShare f)).trans ?_
  refine exists_elim fun f => ?_
  have e : (bigSep Finset.univ fun k : Fin 16 => (pts (r1M k) c fullShare (f k) : sProp 𝕄))
      = bigSep Finset.univ fun k : Fin 16 => pts (r1M k) c fullShare (fun i : S2048x1024.Idx => f (rowChunk i) i) :=
    bigSep_congr fun k _ => chunk_congr (r1M k) c fullShare _ _ fun i hi => by
      rw [r1_set] at hi
      show f k i = f (rowChunk i) i
      rw [rowChunk_of_mem k i hi]
  rw [e]
  exact (r1_chunks c _).2.trans (exists_intro (Φ := fun f : Buf (Elt F) ((c : Thread nD τ).loc cc0_scratch1) => (((c : Thread nD τ).loc cc0_scratch1) ↦{fullShare} f : sProp 𝕄)) _)

theorem r2_join (c : Dev nD) : (bigSep Finset.univ fun k : Fin 16 => iprop(∃ f, pts (r2M k) c fullShare f) : sProp 𝕄)
    ⊢ iprop(∃ f : Buf (Elt F) ((c : Thread nD τ).loc cc0_scratch2), ((c : Thread nD τ).loc cc0_scratch2) ↦{fullShare} f) := by
  refine (bigSep_exists_pi (Y := fun _ : Fin 16 => Buf (Elt F) ((c : Thread nD τ).loc cc0_scratch2)) Finset.univ
      (fun k f => pts (r2M k) c fullShare f)).trans ?_
  refine exists_elim fun f => ?_
  have e : (bigSep Finset.univ fun k : Fin 16 => (pts (r2M k) c fullShare (f k) : sProp 𝕄))
      = bigSep Finset.univ fun k : Fin 16 => pts (r2M k) c fullShare (fun i : S2048x1024.Idx => f (rowChunk i) i) :=
    bigSep_congr fun k _ => chunk_congr (r2M k) c fullShare _ _ fun i hi => by
      rw [r2_set] at hi
      show f k i = f (rowChunk i) i
      rw [rowChunk_of_mem k i hi]
  rw [e]
  exact (r2_chunks c _).2.trans (exists_intro (Φ := fun f : Buf (Elt F) ((c : Thread nD τ).loc cc0_scratch2) => (((c : Thread nD τ).loc cc0_scratch2) ↦{fullShare} f : sProp 𝕄)) _)

theorem st_join (c : Dev nD) : (bigSep Finset.univ fun k : Fin 8 => iprop(∃ f, pts (stM k) c fullShare f) : sProp 𝕄)
    ⊢ iprop(∃ f : Buf (Elt F) ((c : Thread nD τ).loc cc0_scratch3), ((c : Thread nD τ).loc cc0_scratch3) ↦{fullShare} f) := by
  refine (bigSep_exists_pi (Y := fun _ : Fin 8 => Buf (Elt F) ((c : Thread nD τ).loc cc0_scratch3)) Finset.univ
      (fun k f => pts (stM k) c fullShare f)).trans ?_
  refine exists_elim fun f => ?_
  have e : (bigSep Finset.univ fun k : Fin 8 => (pts (stM k) c fullShare (f k) : sProp 𝕄))
      = bigSep Finset.univ fun k : Fin 8 => pts (stM k) c fullShare (fun i : S8x512x1024.Idx => f (slabOf i) i) :=
    bigSep_congr fun k _ => chunk_congr (stM k) c fullShare _ _ fun i hi => by
      rw [st_set] at hi
      show f k i = f (slabOf i) i
      rw [slabOf_of_mem k i hi]
  rw [e]
  exact (st_chunks c _).2.trans (exists_intro (Φ := fun f : Buf (Elt F) ((c : Thread nD τ).loc cc0_scratch3) => (((c : Thread nD τ).loc cc0_scratch3) ↦{fullShare} f : sProp 𝕄)) _)

end Cert.Kernel.A2A
end
-- ==== Proof.KernelObligation.lean ====
import proofs.«900019_g7700000000000020_dist_a2a_v7x_xy2x2_x_m4096_n1024_f32_1_alg».proof.Proof.KernelBody
import proofs.«900019_g7700000000000020_dist_a2a_v7x_xy2x2_x_m4096_n1024_f32_1_alg».proof.Proof.KernelInv
import proofs.«900019_g7700000000000020_dist_a2a_v7x_xy2x2_x_m4096_n1024_f32_1_alg».proof.Proof.KernelRegions
import proofs.«900019_g7700000000000020_dist_a2a_v7x_xy2x2_x_m4096_n1024_f32_1_alg».proof.Proof.KernelJoin

noncomputable section

namespace Cert.Kernel.A2A

open Cert.Kernel Cert.Kernel.Gen
open Cert.A2ASpec (px py sendF recv1F recv2F stageF outF px_px py_py)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
theorem post_back (c : Dev nD) :
    iprop((((c : Thread nD τ).loc main_arg0) ↦[xRest c]{fullShare} m ((c : Thread nD τ).loc main_arg0)) ∗ postGrouped m c)
      ⊢ iprop(Φ₁ m c ∗ (dats (F := F) m 0 c).owesAt () t0_0.succ) := by
  unfold postGrouped
  unfold Φ₁ scratchAny Dat.owesAt Pipeline.owesWithin
  rw [show (dats (F := F) m 0 c).owed t0_0.succ = 0 from rfl]
  iintro ⟨Hxr, ⟨%W', HO⟩, ⟨Hxs, Hxl⟩, Hvs, Hr1, Hr2, Hst, Ho, Hloc, Hsem⟩
  isplitr [HO]
  · isplitl [Hxr Hxs Hxl]
    · iapply (x_chunks c _).2
      isplitl [Hxs]; · iexact Hxs
      isplitl [Hxl]; · iexact Hxl
      iexact Hxr
    isplitl [Ho]
    · iapply (o_chunks c _).2; iexact Ho
    isplitl [Hvs Hr1 Hr2 Hst]
    · isplitl [Hvs]; · iapply (vs_join c); iexact Hvs
      isplitl [Hr1]; · iapply (r1_join c); iexact Hr1
      isplitl [Hr2]; · iapply (r2_join c); iexact Hr2
      iapply (st_join c); iexact Hst
    isplitl [Hloc] <;> iassumption
  · iexists W'
    isplitr; · ipureintro; exact fun _ _ => Or.inl trivial
    iexact HO

set_option maxRecDepth 65536 in
/-- The library's body obligation on device `c`: going in the buffers are cut into their chunks, coming back the chunks are joined. -/
theorem body_obligation (c : Dev nD) : BodyObligation (dats (F := F) m 0 c) (defs₀ (F := F)) 𝒱₀ () Set.univ := fun t => by
  rw [Gen.fin_N0 t]
  have hW0 (Φ : Fin cfg0.W → sProp 𝕄) : bigSep Finset.univ Φ = iprop(emp) := by
    rw [show (Finset.univ : Finset (Fin cfg0.W)) = ∅ from Finset.eq_empty_of_forall_notMem fun w => w.elim0]; rfl
  simp only [hW0]
  show iprop(Φ₀ m c ∗ (dats (F := F) m 0 c).owesAt () t0_0.castSucc ∗ emp)
    ⊢ wp frame (wpE (defs₀ (F := F)) 𝒱₀ c none) Set.univ (bodyAt0 (F := F) t0_0)
        (fun _ => iprop(Φ₁ m c ∗ (dats (F := F) m 0 c).owesAt () t0_0.succ ∗ emp))
  unfold Φ₀ start ghost linear scratchAny
  unfold Dat.owesAt Pipeline.owesWithin
  rw [show (dats (F := F) m 0 c).owed t0_0.castSucc = O₀ c from rfl]
  iintro ⟨⟨⟨⟨%K, #Hrec, Hat, Htok⟩, Hloc, Hcred, #Hlev⟩, Hx, ⟨%g, Hg⟩, ⟨%fvs, Hvs⟩, ⟨%f1, Hr1⟩, ⟨%f2, Hr2⟩, ⟨%fst, Hst⟩⟩, ⟨%W, %hW, HO⟩, -⟩
  ihave Hx' := (x_chunks c _).1 $$ Hx
  icases Hx' with ⟨Hxs, Hxl, Hxr⟩
  ihave Hg' := (o_chunks c g).1 $$ Hg
  ihave Hvs' := (vs_chunks c fvs).1 $$ Hvs
  ihave Hr1' := ((r1_chunks c f1).1.trans (bigSep_mono fun k _ =>
      show (pts (r1M k) c fullShare f1 : sProp 𝕄) ⊢ iprop(∃ f, pts (r1M k) c fullShare f) from by iintro H; iexists f1; iexact H)) $$ Hr1
  ihave Hr2' := ((r2_chunks c f2).1.trans (bigSep_mono fun k _ =>
      show (pts (r2M k) c fullShare f2 : sProp 𝕄) ⊢ iprop(∃ f, pts (r2M k) c fullShare f) from by iintro H; iexists f2; iexact H)) $$ Hr2
  ihave Hst' := (st_chunks c fst).1 $$ Hst
  iapply (sound_body m K c (fun _ => iprop(Φ₁ m c ∗ (dats (F := F) m 0 c).owesAt () t0_0.succ ∗ emp)) W fvs fst g _ _ _ rfl rfl rfl)
  isplitr; · iexact Hrec
  isplitr; · iexact Hlev
  isplitl [HO]; · iexact HO
  isplitl [Htok]; · iexact Htok
  isplitl [Hat]; · iexact Hat
  isplitl [Hcred]; · iexact Hcred
  isplitl [Hloc]; · iexact Hloc
  isplitl [Hxs Hxl]; · isplitl [Hxs] <;> iassumption
  isplitl [Hvs']; · iexact Hvs'
  isplitl [Hr1']; · iexact Hr1'
  isplitl [Hr2']; · iexact Hr2'
  isplitl [Hst']; · iexact Hst'
  isplitl [Hg']; · iexact Hg'
  iintro Hpost
  ihave H := (post_back m c) $$ [Hxr Hpost]
  · isplitl [Hxr] <;> iassumption
  icases H with ⟨H1, H2⟩
  isplitl [H1]; · iexact H1
  isplitl [H2]; · iexact H2
  iempintro

/-- info: 'Cert.Kernel.A2A.body_obligation' depends on axioms: [propext, Classical.choice, Quot.sound] -/
#guard_msgs in #print axioms body_obligation

end Cert.Kernel.A2A
end
-- ==== Proof.KernelRun.lean ====
import proofs.«900019_g7700000000000020_dist_a2a_v7x_xy2x2_x_m4096_n1024_f32_1_alg».proof.Proof.KernelLaunch
import proofs.«900019_g7700000000000020_dist_a2a_v7x_xy2x2_x_m4096_n1024_f32_1_alg».proof.Proof.KernelGhost
import proofs.«900019_g7700000000000020_dist_a2a_v7x_xy2x2_x_m4096_n1024_f32_1_alg».proof.Proof.KernelObligation

noncomputable section

namespace Cert.Kernel.A2A

open Cert.Kernel Cert.Kernel.Gen
open Cert.A2ASpec (px py sendF recv1F recv2F stageF outF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every fair execution of the kernel on the four devices ends, each device's result block at the contents the specification names
    and its argument block unchanged. -/
theorem run_main : θ_run defs (onTc (τ := τ) (main (F := F))) ⟨m, fun _ => 0, ρ⟩ (fun r => ∀ c : Dev nD,
    r.2.mem ((c.tc : Thread nD τ).loc main_v1) = (Cert.A2ASpec.outF (xsOf m) c : Buf (Elt F) ((c.tc : Thread nD τ).loc main_v1))
    ∧ r.2.mem ((c.tc : Thread nD τ).loc main_arg0) = m ((c.tc : Thread nD τ).loc main_arg0)) :=
  run_main_of m ρ (G m) (G' m) u₀ (fun _ => rfl) (hu₀ m) (glob m) creds ownSemFacts ownSems0_of (body_obligation m)

/-- info: 'Cert.Kernel.A2A.run_main' depends on axioms: [propext, Classical.choice, Quot.sound] -/
#guard_msgs in #print axioms run_main

end Cert.Kernel.A2A
end
-- ==== Proof.Value.lean ====
import proofs.«900019_g7700000000000020_dist_a2a_v7x_xy2x2_x_m4096_n1024_f32_1_alg».proof.Proof.Spec
import Idealize.ShloMosaic.Lib.Layout

namespace Cert.A2ASpec

open Idealize.ShloMosaic

theorem srcDev_div (c : Fin 4) (i : OS.Idx) : (srcDev c i).val / 2 = (i 0).val / 4096 := by
  have hi : (i 0).val < 8192 := (i 0).isLt
  unfold srcDev
  by_cases h1 : (i 0).val / 4096 = c.val / 2
  · rw [if_pos h1]; exact h1.symm
  · rw [if_neg h1]
    have hpx : ∀ d : Fin 4, (px d).val / 2 = 1 - d.val / 2 := by decide
    have hpy : ∀ d : Fin 4, (py d).val / 2 = d.val / 2 := by decide
    have hc := c.isLt
    by_cases h2 : ((i 0).val % 4096) / 2048 = c.val % 2
    · rw [if_pos h2, hpx c]; omega
    · rw [if_neg h2, hpx (py c), hpy c]; omega

theorem srcDev_row (c : Fin 4) (i : OS.Idx) :
    4096 * ((srcDev c i).val / 2) + (i 0).val % 4096 = (i 0).val := by
  rw [srcDev_div]; omega

theorem meshLin_x (c : Fin 4) : Layout.meshLin [2, 2] c.val [0] = c.val / 2 := by revert c; decide

theorem meshLin_nil (c : Fin 4) : Layout.meshLin [2, 2] c.val [] = 0 := rfl

/-- When the devices' argument blocks are the row blocks of one whole array, each device's result is its column block of it:
    the source device's first coordinate names the row block, the reader's own the column block. -/
theorem outF_block {α : Type} (X : WS.Idx → α) (xs : Fin 4 → XS.Idx → α)
    (hxs : ∀ c : Fin 4, xs c = Idealize.ShloMosaic.Layout.blockN ⟨2, ![4096, 2048]⟩ ⟨2, ![8192, 2048]⟩ (Idealize.ShloMosaic.Layout.meshBlock [2, 2] ![[0], []] c) X) (c : Fin 4) :
    outF xs c = Idealize.ShloMosaic.Layout.blockN ⟨2, ![8192, 1024]⟩ ⟨2, ![8192, 2048]⟩ (Idealize.ShloMosaic.Layout.meshBlock [2, 2] ![[], [0]] c) X := by
  funext i
  unfold outF
  rw [hxs (srcDev c i)]
  simp only [Layout.blockN_apply]
  congr 1
  funext b
  apply Fin.ext
  rw [Layout.TilesN.idx_val, Layout.TilesN.idx_val]
  rcases b with ⟨_ | _ | n, hb⟩
  · show Layout.meshLin [2, 2] (srcDev c i).val [0] * 4096 + (i 0).val % 4096
        = Layout.meshLin [2, 2] c.val [] * 8192 + (i 0).val
    rw [meshLin_x, meshLin_nil]
    have := srcDev_row c i
    omega
  · show Layout.meshLin [2, 2] (srcDev c i).val [] * 2048 + (1024 * (c.val / 2) + (i 1).val)
        = Layout.meshLin [2, 2] c.val [0] * 1024 + (i 1).val
    rw [meshLin_nil, meshLin_x]
    omega
  · have hb' : n + 1 + 1 < 2 := hb
    omega

end Cert.A2ASpec
-- ==== Proof.RefRun.lean ====
import proofs.«900019_g7700000000000020_dist_a2a_v7x_xy2x2_x_m4096_n1024_f32_1_alg».proof.ReferenceIdeal
import proofs.«900019_g7700000000000020_dist_a2a_v7x_xy2x2_x_m4096_n1024_f32_1_alg».proof.Proof.Gen.ReferenceIdeal
import Idealize.ShloMosaic.Adequacy
import Idealize.ShloMosaic.Lib.StableHlo.Run

noncomputable section

namespace Cert.ReferenceIdeal.RefRun

open Cert.ReferenceIdeal Cert.ReferenceIdeal.Gen Idealize.ShloMosaic Idealize.SL.Sem Idealize.ShloMosaic.StableHlo

variable {F : FTy → Type}

theorem main_eq (c : Dev nD) : main (F := F) c = seq [] := rfl

theorem scopedRefs_eq : (Finset.univ.filter fun b : Ref sig .tc => b.isScoped) = ∅ := by decide
theorem scopedSems_eq : (Finset.univ.filter fun sm : SemLoc sig => sm.isScoped .tc) = ∅ := by decide

/-- The reference's only buffer is its argument. -/
theorem loc_eq (ℓ : Loc nD τ sig) : ℓ = ((ℓ.1.tc : Thread nD τ).loc main_arg0) := by
  obtain ⟨d, tb, i, u⟩ := ℓ
  cases tb with
  | hbm =>
    obtain ⟨_ | n, hi⟩ := i
    · rfl
    · have hi' : n + 1 < 1 := hi
      omega
  | host => exact i.elim0
  | shared => exact i.elim0
  | «local» κ cs => cases κ <;> cases cs <;> exact i.elim0

/-- Its @main is the empty line of operations, so every fair execution ends at once with the memory as launched. -/
theorem run (m' : (ℓ : Loc nD τ sig) → Buf (Elt F) ℓ) (g' : Dev nD → PrngReg) :
    θ_run (defs (F := F)) (onTc (τ := τ) (main (F := F))) ⟨m', fun _ => 0, g'⟩ (fun r => r.2.mem = m') :=
  (θ_run defs _ _).mono (fun r h => funext fun ℓ => by
      rw [loc_eq ℓ]
      exact h ℓ.1 main_arg0)
    (run_seq scopedRefs_eq scopedSems_eq defs main (fun _ => []) main_eq (fun _ => trivial) m' g')

end Cert.ReferenceIdeal.RefRun

end
-- ==== Proof.lean ====
import proofs.«900019_g7700000000000020_dist_a2a_v7x_xy2x2_x_m4096_n1024_f32_1_alg».proof.Defs
import proofs.«900019_g7700000000000020_dist_a2a_v7x_xy2x2_x_m4096_n1024_f32_1_alg».proof.Proof.Gen.Kernel
import proofs.«900019_g7700000000000020_dist_a2a_v7x_xy2x2_x_m4096_n1024_f32_1_alg».proof.Proof.Gen.Kernel.Skeleton
import proofs.«900019_g7700000000000020_dist_a2a_v7x_xy2x2_x_m4096_n1024_f32_1_alg».proof.Proof.Gen.Kernel.Launch
import proofs.«900019_g7700000000000020_dist_a2a_v7x_xy2x2_x_m4096_n1024_f32_1_alg».proof.Proof.Gen.Kernel.Points
import proofs.«900019_g7700000000000020_dist_a2a_v7x_xy2x2_x_m4096_n1024_f32_1_alg».proof.Proof.Gen.Kernel.Frame
import proofs.«900019_g7700000000000020_dist_a2a_v7x_xy2x2_x_m4096_n1024_f32_1_alg».proof.Proof.Gen.KernelIdeal
import proofs.«900019_g7700000000000020_dist_a2a_v7x_xy2x2_x_m4096_n1024_f32_1_alg».proof.Proof.Gen.KernelIdeal.Skeleton
import proofs.«900019_g7700000000000020_dist_a2a_v7x_xy2x2_x_m4096_n1024_f32_1_alg».proof.Proof.Gen.KernelIdeal.Launch
import proofs.«900019_g7700000000000020_dist_a2a_v7x_xy2x2_x_m4096_n1024_f32_1_alg».proof.Proof.Gen.KernelIdeal.Points
import proofs.«900019_g7700000000000020_dist_a2a_v7x_xy2x2_x_m4096_n1024_f32_1_alg».proof.Proof.Gen.KernelIdeal.Frame
import proofs.«900019_g7700000000000020_dist_a2a_v7x_xy2x2_x_m4096_n1024_f32_1_alg».proof.Proof.Gen.ReferenceIdeal
import proofs.«900019_g7700000000000020_dist_a2a_v7x_xy2x2_x_m4096_n1024_f32_1_alg».proof.Proof.Gen.Pre_finite_inputs_Kernel
import proofs.«900019_g7700000000000020_dist_a2a_v7x_xy2x2_x_m4096_n1024_f32_1_alg».proof.Proof.Gen.Pre_finite_inputs_ReferenceIdeal
import Idealize.ShloMosaic.Adequacy
import Idealize.ShloMosaic.Init
import proofs.«900019_g7700000000000020_dist_a2a_v7x_xy2x2_x_m4096_n1024_f32_1_alg».proof.Proof.KernelIdealRun
import proofs.«900019_g7700000000000020_dist_a2a_v7x_xy2x2_x_m4096_n1024_f32_1_alg».proof.Proof.KernelRun
import proofs.«900019_g7700000000000020_dist_a2a_v7x_xy2x2_x_m4096_n1024_f32_1_alg».proof.Proof.Value
import proofs.«900019_g7700000000000020_dist_a2a_v7x_xy2x2_x_m4096_n1024_f32_1_alg».proof.Proof.RefRun

noncomputable section

namespace Cert.Proof

open Idealize.ShloMosaic Idealize.SL.Sem Cert.Kernel

/-- The kernel's run leaves each device's result at the contents the specification names and its argument block as it was; the
    reference's empty @main returns the whole array; and that device's result is its column block of the whole array. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => (θ_run _ _ _).mono (fun _ h c => (h c).2) (Cert.Kernel.A2A.run_main (F := Bits) m g),
  fun m g _ => (θ_run _ _ _).mono (fun _ h c => (h c).2) (Cert.KernelIdeal.A2A.run_main (F := Ideal) m g),
  fun m g _ => (θ_run _ _ _).mono (fun _ h c => congrFun h _) (Cert.ReferenceIdeal.RefRun.run (F := Ideal) m g),
  trivial,
  fun m g m' g' _ hagree =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (Cert.A2ASpec.outF_block
          (m' (((0 : Dev Cert.ReferenceIdeal.nD).tc : Thread Cert.ReferenceIdeal.nD Cert.ReferenceIdeal.τ).loc Cert.ReferenceIdeal.main_arg0))
          (Cert.KernelIdeal.A2A.xsOf m) (fun c => hagree c) c), (h c).2⟩) (Cert.KernelIdeal.A2A.run_main (F := Ideal) m g),
      (θ_run _ _ _).mono (fun _ h => ⟨congrFun h _, congrFun h _⟩) (Cert.ReferenceIdeal.RefRun.run (F := Ideal) m' g')⟩⟩

end Cert.Proof

end
